-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S1088x512 : Shape := ⟨2, ![1088, 512]⟩
abbrev S34 : Shape := ⟨1, ![34]⟩
abbrev S30 : Shape := ⟨1, ![30]⟩
abbrev S_ : Shape := ⟨0, ![]⟩
abbrev S32x512 : Shape := ⟨2, ![32, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S1088x512, .bf16⟩
  | .local _ .vmem, ⟨3, _⟩ => ⟨S2048x512, .bf16⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_16 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2016_i32 : BitVec 32 := 2016#32
  let v24 : BitVec 32 := Scalar.muli v2 c2016_i32
  let c1_i32_15 : BitVec 32 := 1#32
  let c2_i32_14 : BitVec 32 := 2#32
  let v25 : BitVec 32 := Scalar.muli c2_i32_14 v2
  let v26 : BitVec 32 := Scalar.subi c1_i32_15 v25
  let v27 : BitVec 32 := Scalar.muli v26 c0_i32_16
  let c32_i32 : BitVec 32 := 32#32
  let v28 : BitVec 32 := Scalar.muli v27 c32_i32
  let v29 : BitVec 32 := Scalar.addi v24 v28
  let v30 : Index := Scalar.indexCast v29
  let c0 : Index := 0#32
  ![v30.toNat, 0]
def k0_off2 (d0 : Dev nD) (c0_i32_16 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2016_i32 : BitVec 32 := 2016#32
  let v24 : BitVec 32 := Scalar.muli v2 c2016_i32
  let c1_i32_15 : BitVec 32 := 1#32
  let c2_i32_14 : BitVec 32 := 2#32
  let v25 : BitVec 32 := Scalar.muli c2_i32_14 v2
  let v26 : BitVec 32 := Scalar.subi c1_i32_15 v25
  let v27 : BitVec 32 := Scalar.muli v26 c0_i32_16
  let c32_i32 : BitVec 32 := 32#32
  let v28 : BitVec 32 := Scalar.muli v27 c32_i32
  let v29 : BitVec 32 := Scalar.addi v24 v28
  let c0_i32_25 : BitVec 32 := 0#32
  ![v29.toNat, 0]
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v37 : BitVec 32 := Scalar.muli v2 c8_i32_21
  let v38 : BitVec 32 := Scalar.addi c0_i32_22 v37
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v39 : BitVec 32 := Scalar.muli v9 c4_i32_23
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v41 : BitVec 32 := Scalar.muli v8 c1_i32_24
  let v42 : BitVec 32 := Scalar.addi v40 v41
  v42.toNat
def k0_dev4 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v62 : BitVec 32 := Scalar.muli v2 c8_i32_37
  let v63 : BitVec 32 := Scalar.addi c0_i32_38 v62
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_39 : BitVec 32 := 4#32
  let v64 : BitVec 32 := Scalar.muli v9 c4_i32_39
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v66 : BitVec 32 := Scalar.muli v8 c1_i32_40
  let v67 : BitVec 32 := Scalar.addi v65 v66
  v67.toNat
def k0_dev5 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v87 : BitVec 32 := Scalar.muli v2 c8_i32_53
  let v88 : BitVec 32 := Scalar.addi c0_i32_54 v87
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_55 : BitVec 32 := 4#32
  let v89 : BitVec 32 := Scalar.muli v9 c4_i32_55
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v91 : BitVec 32 := Scalar.muli v8 c1_i32_56
  let v92 : BitVec 32 := Scalar.addi v90 v91
  v92.toNat
def k0_dev6 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v112 : BitVec 32 := Scalar.muli v2 c8_i32_67
  let v113 : BitVec 32 := Scalar.addi c0_i32_68 v112
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_69 : BitVec 32 := 4#32
  let v114 : BitVec 32 := Scalar.muli v9 c4_i32_69
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v116 : BitVec 32 := Scalar.muli v8 c1_i32_70
  let v117 : BitVec 32 := Scalar.addi v115 v116
  v117.toNat
def k0_dev7 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v137 : BitVec 32 := Scalar.muli v2 c8_i32_82
  let v138 : BitVec 32 := Scalar.addi c0_i32_83 v137
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_84 : BitVec 32 := 4#32
  let v139 : BitVec 32 := Scalar.muli v9 c4_i32_84
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v141 : BitVec 32 := Scalar.muli v8 c1_i32_85
  let v142 : BitVec 32 := Scalar.addi v140 v141
  v142.toNat
def k0_dev8 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v162 : BitVec 32 := Scalar.muli v2 c8_i32_96
  let v163 : BitVec 32 := Scalar.addi c0_i32_97 v162
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_98 : BitVec 32 := 4#32
  let v164 : BitVec 32 := Scalar.muli v9 c4_i32_98
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v166 : BitVec 32 := Scalar.muli v8 c1_i32_99
  let v167 : BitVec 32 := Scalar.addi v165 v166
  v167.toNat
def k0_dev9 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v187 : BitVec 32 := Scalar.muli v2 c8_i32_110
  let v188 : BitVec 32 := Scalar.addi c0_i32_111 v187
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_112 : BitVec 32 := 4#32
  let v189 : BitVec 32 := Scalar.muli v9 c4_i32_112
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v191 : BitVec 32 := Scalar.muli v8 c1_i32_113
  let v192 : BitVec 32 := Scalar.addi v190 v191
  v192.toNat
def k0_dev10 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v212 : BitVec 32 := Scalar.muli v2 c8_i32_124
  let v213 : BitVec 32 := Scalar.addi c0_i32_125 v212
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_126 : BitVec 32 := 4#32
  let v214 : BitVec 32 := Scalar.muli v9 c4_i32_126
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v216 : BitVec 32 := Scalar.muli v8 c1_i32_127
  let v217 : BitVec 32 := Scalar.addi v215 v216
  v217.toNat
def k0_dev11 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v237 : BitVec 32 := Scalar.muli v2 c8_i32_139
  let v238 : BitVec 32 := Scalar.addi c0_i32_140 v237
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_141 : BitVec 32 := 4#32
  let v239 : BitVec 32 := Scalar.muli v9 c4_i32_141
  let v240 : BitVec 32 := Scalar.addi v238 v239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v241 : BitVec 32 := Scalar.muli v8 c1_i32_142
  let v242 : BitVec 32 := Scalar.addi v240 v241
  v242.toNat
def k0_dev12 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v262 : BitVec 32 := Scalar.muli v2 c8_i32_153
  let v263 : BitVec 32 := Scalar.addi c0_i32_154 v262
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_155 : BitVec 32 := 4#32
  let v264 : BitVec 32 := Scalar.muli v9 c4_i32_155
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v266 : BitVec 32 := Scalar.muli v8 c1_i32_156
  let v267 : BitVec 32 := Scalar.addi v265 v266
  v267.toNat
def k0_dev13 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v287 : BitVec 32 := Scalar.muli v2 c8_i32_167
  let v288 : BitVec 32 := Scalar.addi c0_i32_168 v287
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_169 : BitVec 32 := 4#32
  let v289 : BitVec 32 := Scalar.muli v9 c4_i32_169
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v291 : BitVec 32 := Scalar.muli v8 c1_i32_170
  let v292 : BitVec 32 := Scalar.addi v290 v291
  v292.toNat
def k0_dev14 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v312 : BitVec 32 := Scalar.muli v2 c8_i32_181
  let v313 : BitVec 32 := Scalar.addi c0_i32_182 v312
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_183 : BitVec 32 := 4#32
  let v314 : BitVec 32 := Scalar.muli v9 c4_i32_183
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v316 : BitVec 32 := Scalar.muli v8 c1_i32_184
  let v317 : BitVec 32 := Scalar.addi v315 v316
  v317.toNat
def k0_dev15 (d0 : Dev nD) : Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_195 : BitVec 32 := 8#32
  let v337 : BitVec 32 := Scalar.muli v2 c8_i32_195
  let v338 : BitVec 32 := Scalar.addi c0_i32_196 v337
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_197 : BitVec 32 := 4#32
  let v339 : BitVec 32 := Scalar.muli v9 c4_i32_197
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v341 : BitVec 32 := Scalar.muli v8 c1_i32_198
  let v342 : BitVec 32 := Scalar.addi v340 v341
  v342.toNat
def k0_dev16 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v362 : BitVec 32 := Scalar.muli v2 c8_i32_209
  let v363 : BitVec 32 := Scalar.addi c0_i32_210 v362
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_211 : BitVec 32 := 4#32
  let v364 : BitVec 32 := Scalar.muli v9 c4_i32_211
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v366 : BitVec 32 := Scalar.muli v8 c1_i32_212
  let v367 : BitVec 32 := Scalar.addi v365 v366
  v367.toNat
def k0_dev17 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_223 : BitVec 32 := 8#32
  let v387 : BitVec 32 := Scalar.muli v2 c8_i32_223
  let v388 : BitVec 32 := Scalar.addi c0_i32_224 v387
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_225 : BitVec 32 := 4#32
  let v389 : BitVec 32 := Scalar.muli v9 c4_i32_225
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v391 : BitVec 32 := Scalar.muli v8 c1_i32_226
  let v392 : BitVec 32 := Scalar.addi v390 v391
  v392.toNat
def k0_dev18 (d0 : Dev nD) : Nat :=
  let c0_i32_238 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_237 : BitVec 32 := 8#32
  let v412 : BitVec 32 := Scalar.muli v2 c8_i32_237
  let v413 : BitVec 32 := Scalar.addi c0_i32_238 v412
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_239 : BitVec 32 := 4#32
  let v414 : BitVec 32 := Scalar.muli v9 c4_i32_239
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v416 : BitVec 32 := Scalar.muli v8 c1_i32_240
  let v417 : BitVec 32 := Scalar.addi v415 v416
  v417.toNat
def k0_dev19 (d0 : Dev nD) : Nat :=
  let c0_i32_252 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_251 : BitVec 32 := 8#32
  let v437 : BitVec 32 := Scalar.muli v2 c8_i32_251
  let v438 : BitVec 32 := Scalar.addi c0_i32_252 v437
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_253 : BitVec 32 := 4#32
  let v439 : BitVec 32 := Scalar.muli v9 c4_i32_253
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v441 : BitVec 32 := Scalar.muli v8 c1_i32_254
  let v442 : BitVec 32 := Scalar.addi v440 v441
  v442.toNat
def k0_dev20 (d0 : Dev nD) : Nat :=
  let c0_i32_266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_265 : BitVec 32 := 8#32
  let v462 : BitVec 32 := Scalar.muli v2 c8_i32_265
  let v463 : BitVec 32 := Scalar.addi c0_i32_266 v462
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_267 : BitVec 32 := 4#32
  let v464 : BitVec 32 := Scalar.muli v9 c4_i32_267
  let v465 : BitVec 32 := Scalar.addi v463 v464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v466 : BitVec 32 := Scalar.muli v8 c1_i32_268
  let v467 : BitVec 32 := Scalar.addi v465 v466
  v467.toNat
def k0_dev21 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v487 : BitVec 32 := Scalar.muli v2 c8_i32_279
  let v488 : BitVec 32 := Scalar.addi c0_i32_280 v487
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_281 : BitVec 32 := 4#32
  let v489 : BitVec 32 := Scalar.muli v9 c4_i32_281
  let v490 : BitVec 32 := Scalar.addi v488 v489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v491 : BitVec 32 := Scalar.muli v8 c1_i32_282
  let v492 : BitVec 32 := Scalar.addi v490 v491
  v492.toNat
def k0_dev22 (d0 : Dev nD) : Nat :=
  let c0_i32_294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_293 : BitVec 32 := 8#32
  let v512 : BitVec 32 := Scalar.muli v2 c8_i32_293
  let v513 : BitVec 32 := Scalar.addi c0_i32_294 v512
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_295 : BitVec 32 := 4#32
  let v514 : BitVec 32 := Scalar.muli v9 c4_i32_295
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v516 : BitVec 32 := Scalar.muli v8 c1_i32_296
  let v517 : BitVec 32 := Scalar.addi v515 v516
  v517.toNat
def k0_dev23 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v537 : BitVec 32 := Scalar.muli v2 c8_i32_307
  let v538 : BitVec 32 := Scalar.addi c0_i32_308 v537
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_309 : BitVec 32 := 4#32
  let v539 : BitVec 32 := Scalar.muli v9 c4_i32_309
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v541 : BitVec 32 := Scalar.muli v8 c1_i32_310
  let v542 : BitVec 32 := Scalar.addi v540 v541
  v542.toNat
def k0_dev24 (d0 : Dev nD) : Nat :=
  let c0_i32_322 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_321 : BitVec 32 := 8#32
  let v562 : BitVec 32 := Scalar.muli v2 c8_i32_321
  let v563 : BitVec 32 := Scalar.addi c0_i32_322 v562
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_323 : BitVec 32 := 4#32
  let v564 : BitVec 32 := Scalar.muli v9 c4_i32_323
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v566 : BitVec 32 := Scalar.muli v8 c1_i32_324
  let v567 : BitVec 32 := Scalar.addi v565 v566
  v567.toNat
def k0_dev25 (d0 : Dev nD) : Nat :=
  let c0_i32_336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_335 : BitVec 32 := 8#32
  let v587 : BitVec 32 := Scalar.muli v2 c8_i32_335
  let v588 : BitVec 32 := Scalar.addi c0_i32_336 v587
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_337 : BitVec 32 := 4#32
  let v589 : BitVec 32 := Scalar.muli v9 c4_i32_337
  let v590 : BitVec 32 := Scalar.addi v588 v589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v591 : BitVec 32 := Scalar.muli v8 c1_i32_338
  let v592 : BitVec 32 := Scalar.addi v590 v591
  v592.toNat
def k0_dev26 (d0 : Dev nD) : Nat :=
  let c0_i32_350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_349 : BitVec 32 := 8#32
  let v612 : BitVec 32 := Scalar.muli v2 c8_i32_349
  let v613 : BitVec 32 := Scalar.addi c0_i32_350 v612
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_351 : BitVec 32 := 4#32
  let v614 : BitVec 32 := Scalar.muli v9 c4_i32_351
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v616 : BitVec 32 := Scalar.muli v8 c1_i32_352
  let v617 : BitVec 32 := Scalar.addi v615 v616
  v617.toNat
def k0_dev27 (d0 : Dev nD) : Nat :=
  let c0_i32_364 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_363 : BitVec 32 := 8#32
  let v637 : BitVec 32 := Scalar.muli v2 c8_i32_363
  let v638 : BitVec 32 := Scalar.addi c0_i32_364 v637
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_365 : BitVec 32 := 4#32
  let v639 : BitVec 32 := Scalar.muli v9 c4_i32_365
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v641 : BitVec 32 := Scalar.muli v8 c1_i32_366
  let v642 : BitVec 32 := Scalar.addi v640 v641
  v642.toNat
def k0_dev28 (d0 : Dev nD) : Nat :=
  let c0_i32_378 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_377 : BitVec 32 := 8#32
  let v662 : BitVec 32 := Scalar.muli v2 c8_i32_377
  let v663 : BitVec 32 := Scalar.addi c0_i32_378 v662
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_379 : BitVec 32 := 4#32
  let v664 : BitVec 32 := Scalar.muli v9 c4_i32_379
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v666 : BitVec 32 := Scalar.muli v8 c1_i32_380
  let v667 : BitVec 32 := Scalar.addi v665 v666
  v667.toNat
def k0_dev29 (d0 : Dev nD) : Nat :=
  let c0_i32_392 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_391 : BitVec 32 := 8#32
  let v687 : BitVec 32 := Scalar.muli v2 c8_i32_391
  let v688 : BitVec 32 := Scalar.addi c0_i32_392 v687
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_393 : BitVec 32 := 4#32
  let v689 : BitVec 32 := Scalar.muli v9 c4_i32_393
  let v690 : BitVec 32 := Scalar.addi v688 v689
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v691 : BitVec 32 := Scalar.muli v8 c1_i32_394
  let v692 : BitVec 32 := Scalar.addi v690 v691
  v692.toNat
def k0_dev30 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v712 : BitVec 32 := Scalar.muli v2 c8_i32_405
  let v713 : BitVec 32 := Scalar.addi c0_i32_406 v712
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v714 : BitVec 32 := Scalar.muli v9 c4_i32_407
  let v715 : BitVec 32 := Scalar.addi v713 v714
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v716 : BitVec 32 := Scalar.muli v8 c1_i32_408
  let v717 : BitVec 32 := Scalar.addi v715 v716
  v717.toNat
def k0_dev31 (d0 : Dev nD) : Nat :=
  let c0_i32_420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_419 : BitVec 32 := 8#32
  let v737 : BitVec 32 := Scalar.muli v2 c8_i32_419
  let v738 : BitVec 32 := Scalar.addi c0_i32_420 v737
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_421 : BitVec 32 := 4#32
  let v739 : BitVec 32 := Scalar.muli v9 c4_i32_421
  let v740 : BitVec 32 := Scalar.addi v738 v739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v741 : BitVec 32 := Scalar.muli v8 c1_i32_422
  let v742 : BitVec 32 := Scalar.addi v740 v741
  v742.toNat
def k0_dev32 (d0 : Dev nD) : Nat :=
  let c0_i32_434 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_433 : BitVec 32 := 8#32
  let v762 : BitVec 32 := Scalar.muli v2 c8_i32_433
  let v763 : BitVec 32 := Scalar.addi c0_i32_434 v762
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_435 : BitVec 32 := 4#32
  let v764 : BitVec 32 := Scalar.muli v9 c4_i32_435
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v766 : BitVec 32 := Scalar.muli v8 c1_i32_436
  let v767 : BitVec 32 := Scalar.addi v765 v766
  v767.toNat
def k0_dev33 (d0 : Dev nD) : Nat :=
  let c0_i32_448 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_447 : BitVec 32 := 8#32
  let v787 : BitVec 32 := Scalar.muli v2 c8_i32_447
  let v788 : BitVec 32 := Scalar.addi c0_i32_448 v787
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_449 : BitVec 32 := 4#32
  let v789 : BitVec 32 := Scalar.muli v9 c4_i32_449
  let v790 : BitVec 32 := Scalar.addi v788 v789
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_450 : BitVec 32 := 1#32
  let v791 : BitVec 32 := Scalar.muli v8 c1_i32_450
  let v792 : BitVec 32 := Scalar.addi v790 v791
  v792.toNat
def k0_dev34 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v812 : BitVec 32 := Scalar.muli v2 c8_i32_461
  let v813 : BitVec 32 := Scalar.addi c0_i32_462 v812
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_463 : BitVec 32 := 4#32
  let v814 : BitVec 32 := Scalar.muli v9 c4_i32_463
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v816 : BitVec 32 := Scalar.muli v8 c1_i32_464
  let v817 : BitVec 32 := Scalar.addi v815 v816
  v817.toNat
def k0_dev35 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v837 : BitVec 32 := Scalar.muli v2 c8_i32_476
  let v838 : BitVec 32 := Scalar.addi c0_i32_477 v837
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_478 : BitVec 32 := 4#32
  let v839 : BitVec 32 := Scalar.muli v9 c4_i32_478
  let v840 : BitVec 32 := Scalar.addi v838 v839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v841 : BitVec 32 := Scalar.muli v8 c1_i32_479
  let v842 : BitVec 32 := Scalar.addi v840 v841
  v842.toNat
def k0_dev36 (d0 : Dev nD) : Nat :=
  let c0_i32_491 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_490 : BitVec 32 := 8#32
  let v862 : BitVec 32 := Scalar.muli v2 c8_i32_490
  let v863 : BitVec 32 := Scalar.addi c0_i32_491 v862
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_492 : BitVec 32 := 4#32
  let v864 : BitVec 32 := Scalar.muli v9 c4_i32_492
  let v865 : BitVec 32 := Scalar.addi v863 v864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v866 : BitVec 32 := Scalar.muli v8 c1_i32_493
  let v867 : BitVec 32 := Scalar.addi v865 v866
  v867.toNat
def k0_dev37 (d0 : Dev nD) : Nat :=
  let c0_i32_513 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_512 : BitVec 32 := 8#32
  let v890 : BitVec 32 := Scalar.muli v10 c8_i32_512
  let v891 : BitVec 32 := Scalar.addi c0_i32_513 v890
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_514 : BitVec 32 := 4#32
  let v892 : BitVec 32 := Scalar.muli v5 c4_i32_514
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_515 : BitVec 32 := 1#32
  let v894 : BitVec 32 := Scalar.muli v8 c1_i32_515
  let v895 : BitVec 32 := Scalar.addi v893 v894
  v895.toNat
def k0_dev38 (d0 : Dev nD) : Nat :=
  let c0_i32_538 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_537 : BitVec 32 := 8#32
  let v927 : BitVec 32 := Scalar.muli v10 c8_i32_537
  let v928 : BitVec 32 := Scalar.addi c0_i32_538 v927
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_539 : BitVec 32 := 4#32
  let v929 : BitVec 32 := Scalar.muli v5 c4_i32_539
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v931 : BitVec 32 := Scalar.muli v8 c1_i32_540
  let v932 : BitVec 32 := Scalar.addi v930 v931
  v932.toNat
def k0_dev39 (d0 : Dev nD) : Nat :=
  let c0_i32_563 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_562 : BitVec 32 := 8#32
  let v964 : BitVec 32 := Scalar.muli v10 c8_i32_562
  let v965 : BitVec 32 := Scalar.addi c0_i32_563 v964
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_564 : BitVec 32 := 4#32
  let v966 : BitVec 32 := Scalar.muli v5 c4_i32_564
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_565 : BitVec 32 := 1#32
  let v968 : BitVec 32 := Scalar.muli v8 c1_i32_565
  let v969 : BitVec 32 := Scalar.addi v967 v968
  v969.toNat
def k0_dev40 (d0 : Dev nD) : Nat :=
  let c0_i32_588 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_587 : BitVec 32 := 8#32
  let v1001 : BitVec 32 := Scalar.muli v10 c8_i32_587
  let v1002 : BitVec 32 := Scalar.addi c0_i32_588 v1001
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_589 : BitVec 32 := 4#32
  let v1003 : BitVec 32 := Scalar.muli v5 c4_i32_589
  let v1004 : BitVec 32 := Scalar.addi v1002 v1003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_590 : BitVec 32 := 1#32
  let v1005 : BitVec 32 := Scalar.muli v8 c1_i32_590
  let v1006 : BitVec 32 := Scalar.addi v1004 v1005
  v1006.toNat
def k0_dev41 (d0 : Dev nD) : Nat :=
  let c0_i32_613 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_612 : BitVec 32 := 8#32
  let v1038 : BitVec 32 := Scalar.muli v10 c8_i32_612
  let v1039 : BitVec 32 := Scalar.addi c0_i32_613 v1038
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_614 : BitVec 32 := 4#32
  let v1040 : BitVec 32 := Scalar.muli v5 c4_i32_614
  let v1041 : BitVec 32 := Scalar.addi v1039 v1040
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_615 : BitVec 32 := 1#32
  let v1042 : BitVec 32 := Scalar.muli v8 c1_i32_615
  let v1043 : BitVec 32 := Scalar.addi v1041 v1042
  v1043.toNat
def k0_dev42 (d0 : Dev nD) : Nat :=
  let c0_i32_638 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_637 : BitVec 32 := 8#32
  let v1075 : BitVec 32 := Scalar.muli v10 c8_i32_637
  let v1076 : BitVec 32 := Scalar.addi c0_i32_638 v1075
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_639 : BitVec 32 := 4#32
  let v1077 : BitVec 32 := Scalar.muli v5 c4_i32_639
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v1079 : BitVec 32 := Scalar.muli v8 c1_i32_640
  let v1080 : BitVec 32 := Scalar.addi v1078 v1079
  v1080.toNat
def k0_dev43 (d0 : Dev nD) : Nat :=
  let c0_i32_663 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_662 : BitVec 32 := 8#32
  let v1112 : BitVec 32 := Scalar.muli v10 c8_i32_662
  let v1113 : BitVec 32 := Scalar.addi c0_i32_663 v1112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_664 : BitVec 32 := 4#32
  let v1114 : BitVec 32 := Scalar.muli v5 c4_i32_664
  let v1115 : BitVec 32 := Scalar.addi v1113 v1114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v1116 : BitVec 32 := Scalar.muli v8 c1_i32_665
  let v1117 : BitVec 32 := Scalar.addi v1115 v1116
  v1117.toNat
def k0_dev44 (d0 : Dev nD) : Nat :=
  let c0_i32_688 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_687 : BitVec 32 := 8#32
  let v1149 : BitVec 32 := Scalar.muli v10 c8_i32_687
  let v1150 : BitVec 32 := Scalar.addi c0_i32_688 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_689 : BitVec 32 := 4#32
  let v1151 : BitVec 32 := Scalar.muli v5 c4_i32_689
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v1153 : BitVec 32 := Scalar.muli v8 c1_i32_690
  let v1154 : BitVec 32 := Scalar.addi v1152 v1153
  v1154.toNat
def k0_dev45 (d0 : Dev nD) : Nat :=
  let c0_i32_713 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_712 : BitVec 32 := 8#32
  let v1186 : BitVec 32 := Scalar.muli v10 c8_i32_712
  let v1187 : BitVec 32 := Scalar.addi c0_i32_713 v1186
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_714 : BitVec 32 := 4#32
  let v1188 : BitVec 32 := Scalar.muli v5 c4_i32_714
  let v1189 : BitVec 32 := Scalar.addi v1187 v1188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v1190 : BitVec 32 := Scalar.muli v8 c1_i32_715
  let v1191 : BitVec 32 := Scalar.addi v1189 v1190
  v1191.toNat
def k0_dev46 (d0 : Dev nD) : Nat :=
  let c0_i32_738 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_737 : BitVec 32 := 8#32
  let v1223 : BitVec 32 := Scalar.muli v10 c8_i32_737
  let v1224 : BitVec 32 := Scalar.addi c0_i32_738 v1223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_739 : BitVec 32 := 4#32
  let v1225 : BitVec 32 := Scalar.muli v5 c4_i32_739
  let v1226 : BitVec 32 := Scalar.addi v1224 v1225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_740 : BitVec 32 := 1#32
  let v1227 : BitVec 32 := Scalar.muli v8 c1_i32_740
  let v1228 : BitVec 32 := Scalar.addi v1226 v1227
  v1228.toNat
def k0_dev47 (d0 : Dev nD) : Nat :=
  let c0_i32_763 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_762 : BitVec 32 := 8#32
  let v1260 : BitVec 32 := Scalar.muli v10 c8_i32_762
  let v1261 : BitVec 32 := Scalar.addi c0_i32_763 v1260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_764 : BitVec 32 := 4#32
  let v1262 : BitVec 32 := Scalar.muli v5 c4_i32_764
  let v1263 : BitVec 32 := Scalar.addi v1261 v1262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v1264 : BitVec 32 := Scalar.muli v8 c1_i32_765
  let v1265 : BitVec 32 := Scalar.addi v1263 v1264
  v1265.toNat
def k0_dev48 (d0 : Dev nD) : Nat :=
  let c0_i32_788 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_787 : BitVec 32 := 8#32
  let v1297 : BitVec 32 := Scalar.muli v10 c8_i32_787
  let v1298 : BitVec 32 := Scalar.addi c0_i32_788 v1297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_789 : BitVec 32 := 4#32
  let v1299 : BitVec 32 := Scalar.muli v5 c4_i32_789
  let v1300 : BitVec 32 := Scalar.addi v1298 v1299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_790 : BitVec 32 := 1#32
  let v1301 : BitVec 32 := Scalar.muli v8 c1_i32_790
  let v1302 : BitVec 32 := Scalar.addi v1300 v1301
  v1302.toNat
def k0_dev49 (d0 : Dev nD) : Nat :=
  let c0_i32_813 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_812 : BitVec 32 := 8#32
  let v1334 : BitVec 32 := Scalar.muli v10 c8_i32_812
  let v1335 : BitVec 32 := Scalar.addi c0_i32_813 v1334
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_814 : BitVec 32 := 4#32
  let v1336 : BitVec 32 := Scalar.muli v5 c4_i32_814
  let v1337 : BitVec 32 := Scalar.addi v1335 v1336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_815 : BitVec 32 := 1#32
  let v1338 : BitVec 32 := Scalar.muli v8 c1_i32_815
  let v1339 : BitVec 32 := Scalar.addi v1337 v1338
  v1339.toNat
def k0_dev50 (d0 : Dev nD) : Nat :=
  let c0_i32_838 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_837 : BitVec 32 := 8#32
  let v1371 : BitVec 32 := Scalar.muli v10 c8_i32_837
  let v1372 : BitVec 32 := Scalar.addi c0_i32_838 v1371
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_839 : BitVec 32 := 4#32
  let v1373 : BitVec 32 := Scalar.muli v5 c4_i32_839
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_840 : BitVec 32 := 1#32
  let v1375 : BitVec 32 := Scalar.muli v8 c1_i32_840
  let v1376 : BitVec 32 := Scalar.addi v1374 v1375
  v1376.toNat
def k0_dev51 (d0 : Dev nD) : Nat :=
  let c0_i32_863 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_862 : BitVec 32 := 8#32
  let v1408 : BitVec 32 := Scalar.muli v10 c8_i32_862
  let v1409 : BitVec 32 := Scalar.addi c0_i32_863 v1408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_864 : BitVec 32 := 4#32
  let v1410 : BitVec 32 := Scalar.muli v5 c4_i32_864
  let v1411 : BitVec 32 := Scalar.addi v1409 v1410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_865 : BitVec 32 := 1#32
  let v1412 : BitVec 32 := Scalar.muli v8 c1_i32_865
  let v1413 : BitVec 32 := Scalar.addi v1411 v1412
  v1413.toNat
def k0_dev52 (d0 : Dev nD) : Nat :=
  let c0_i32_888 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_887 : BitVec 32 := 8#32
  let v1445 : BitVec 32 := Scalar.muli v10 c8_i32_887
  let v1446 : BitVec 32 := Scalar.addi c0_i32_888 v1445
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_889 : BitVec 32 := 4#32
  let v1447 : BitVec 32 := Scalar.muli v5 c4_i32_889
  let v1448 : BitVec 32 := Scalar.addi v1446 v1447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_890 : BitVec 32 := 1#32
  let v1449 : BitVec 32 := Scalar.muli v8 c1_i32_890
  let v1450 : BitVec 32 := Scalar.addi v1448 v1449
  v1450.toNat
def k0_dev53 (d0 : Dev nD) : Nat :=
  let c0_i32_913 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_912 : BitVec 32 := 8#32
  let v1482 : BitVec 32 := Scalar.muli v10 c8_i32_912
  let v1483 : BitVec 32 := Scalar.addi c0_i32_913 v1482
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_914 : BitVec 32 := 4#32
  let v1484 : BitVec 32 := Scalar.muli v5 c4_i32_914
  let v1485 : BitVec 32 := Scalar.addi v1483 v1484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_915 : BitVec 32 := 1#32
  let v1486 : BitVec 32 := Scalar.muli v8 c1_i32_915
  let v1487 : BitVec 32 := Scalar.addi v1485 v1486
  v1487.toNat
def k0_dev54 (d0 : Dev nD) : Nat :=
  let c0_i32_938 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_937 : BitVec 32 := 8#32
  let v1519 : BitVec 32 := Scalar.muli v10 c8_i32_937
  let v1520 : BitVec 32 := Scalar.addi c0_i32_938 v1519
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_939 : BitVec 32 := 4#32
  let v1521 : BitVec 32 := Scalar.muli v5 c4_i32_939
  let v1522 : BitVec 32 := Scalar.addi v1520 v1521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_940 : BitVec 32 := 1#32
  let v1523 : BitVec 32 := Scalar.muli v8 c1_i32_940
  let v1524 : BitVec 32 := Scalar.addi v1522 v1523
  v1524.toNat
def k0_dev55 (d0 : Dev nD) : Nat :=
  let c0_i32_963 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_962 : BitVec 32 := 8#32
  let v1556 : BitVec 32 := Scalar.muli v10 c8_i32_962
  let v1557 : BitVec 32 := Scalar.addi c0_i32_963 v1556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_964 : BitVec 32 := 4#32
  let v1558 : BitVec 32 := Scalar.muli v5 c4_i32_964
  let v1559 : BitVec 32 := Scalar.addi v1557 v1558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_965 : BitVec 32 := 1#32
  let v1560 : BitVec 32 := Scalar.muli v8 c1_i32_965
  let v1561 : BitVec 32 := Scalar.addi v1559 v1560
  v1561.toNat
def k0_dev56 (d0 : Dev nD) : Nat :=
  let c0_i32_988 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_987 : BitVec 32 := 8#32
  let v1593 : BitVec 32 := Scalar.muli v10 c8_i32_987
  let v1594 : BitVec 32 := Scalar.addi c0_i32_988 v1593
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_989 : BitVec 32 := 4#32
  let v1595 : BitVec 32 := Scalar.muli v5 c4_i32_989
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1597 : BitVec 32 := Scalar.muli v8 c1_i32_990
  let v1598 : BitVec 32 := Scalar.addi v1596 v1597
  v1598.toNat
def k0_dev57 (d0 : Dev nD) : Nat :=
  let c0_i32_1013 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1012 : BitVec 32 := 8#32
  let v1630 : BitVec 32 := Scalar.muli v10 c8_i32_1012
  let v1631 : BitVec 32 := Scalar.addi c0_i32_1013 v1630
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1014 : BitVec 32 := 4#32
  let v1632 : BitVec 32 := Scalar.muli v5 c4_i32_1014
  let v1633 : BitVec 32 := Scalar.addi v1631 v1632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1015 : BitVec 32 := 1#32
  let v1634 : BitVec 32 := Scalar.muli v8 c1_i32_1015
  let v1635 : BitVec 32 := Scalar.addi v1633 v1634
  v1635.toNat
def k0_dev58 (d0 : Dev nD) : Nat :=
  let c0_i32_1038 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1037 : BitVec 32 := 8#32
  let v1667 : BitVec 32 := Scalar.muli v10 c8_i32_1037
  let v1668 : BitVec 32 := Scalar.addi c0_i32_1038 v1667
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1039 : BitVec 32 := 4#32
  let v1669 : BitVec 32 := Scalar.muli v5 c4_i32_1039
  let v1670 : BitVec 32 := Scalar.addi v1668 v1669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1040 : BitVec 32 := 1#32
  let v1671 : BitVec 32 := Scalar.muli v8 c1_i32_1040
  let v1672 : BitVec 32 := Scalar.addi v1670 v1671
  v1672.toNat
def k0_dev59 (d0 : Dev nD) : Nat :=
  let c0_i32_1063 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1062 : BitVec 32 := 8#32
  let v1704 : BitVec 32 := Scalar.muli v10 c8_i32_1062
  let v1705 : BitVec 32 := Scalar.addi c0_i32_1063 v1704
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1064 : BitVec 32 := 4#32
  let v1706 : BitVec 32 := Scalar.muli v5 c4_i32_1064
  let v1707 : BitVec 32 := Scalar.addi v1705 v1706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1708 : BitVec 32 := Scalar.muli v8 c1_i32_1065
  let v1709 : BitVec 32 := Scalar.addi v1707 v1708
  v1709.toNat
def k0_dev60 (d0 : Dev nD) : Nat :=
  let c0_i32_1088 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1087 : BitVec 32 := 8#32
  let v1741 : BitVec 32 := Scalar.muli v10 c8_i32_1087
  let v1742 : BitVec 32 := Scalar.addi c0_i32_1088 v1741
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1089 : BitVec 32 := 4#32
  let v1743 : BitVec 32 := Scalar.muli v5 c4_i32_1089
  let v1744 : BitVec 32 := Scalar.addi v1742 v1743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1090 : BitVec 32 := 1#32
  let v1745 : BitVec 32 := Scalar.muli v8 c1_i32_1090
  let v1746 : BitVec 32 := Scalar.addi v1744 v1745
  v1746.toNat
def k0_dev61 (d0 : Dev nD) : Nat :=
  let c0_i32_1113 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1112 : BitVec 32 := 8#32
  let v1778 : BitVec 32 := Scalar.muli v10 c8_i32_1112
  let v1779 : BitVec 32 := Scalar.addi c0_i32_1113 v1778
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1114 : BitVec 32 := 4#32
  let v1780 : BitVec 32 := Scalar.muli v5 c4_i32_1114
  let v1781 : BitVec 32 := Scalar.addi v1779 v1780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1115 : BitVec 32 := 1#32
  let v1782 : BitVec 32 := Scalar.muli v8 c1_i32_1115
  let v1783 : BitVec 32 := Scalar.addi v1781 v1782
  v1783.toNat
def k0_dev62 (d0 : Dev nD) : Nat :=
  let c0_i32_1138 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1137 : BitVec 32 := 8#32
  let v1815 : BitVec 32 := Scalar.muli v10 c8_i32_1137
  let v1816 : BitVec 32 := Scalar.addi c0_i32_1138 v1815
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1139 : BitVec 32 := 4#32
  let v1817 : BitVec 32 := Scalar.muli v5 c4_i32_1139
  let v1818 : BitVec 32 := Scalar.addi v1816 v1817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1140 : BitVec 32 := 1#32
  let v1819 : BitVec 32 := Scalar.muli v8 c1_i32_1140
  let v1820 : BitVec 32 := Scalar.addi v1818 v1819
  v1820.toNat
def k0_dev63 (d0 : Dev nD) : Nat :=
  let c0_i32_1163 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1162 : BitVec 32 := 8#32
  let v1852 : BitVec 32 := Scalar.muli v10 c8_i32_1162
  let v1853 : BitVec 32 := Scalar.addi c0_i32_1163 v1852
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1164 : BitVec 32 := 4#32
  let v1854 : BitVec 32 := Scalar.muli v5 c4_i32_1164
  let v1855 : BitVec 32 := Scalar.addi v1853 v1854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1165 : BitVec 32 := 1#32
  let v1856 : BitVec 32 := Scalar.muli v8 c1_i32_1165
  let v1857 : BitVec 32 := Scalar.addi v1855 v1856
  v1857.toNat
def k0_dev64 (d0 : Dev nD) : Nat :=
  let c0_i32_1188 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1187 : BitVec 32 := 8#32
  let v1889 : BitVec 32 := Scalar.muli v10 c8_i32_1187
  let v1890 : BitVec 32 := Scalar.addi c0_i32_1188 v1889
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1189 : BitVec 32 := 4#32
  let v1891 : BitVec 32 := Scalar.muli v5 c4_i32_1189
  let v1892 : BitVec 32 := Scalar.addi v1890 v1891
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1190 : BitVec 32 := 1#32
  let v1893 : BitVec 32 := Scalar.muli v8 c1_i32_1190
  let v1894 : BitVec 32 := Scalar.addi v1892 v1893
  v1894.toNat
def k0_dev65 (d0 : Dev nD) : Nat :=
  let c0_i32_1213 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1212 : BitVec 32 := 8#32
  let v1926 : BitVec 32 := Scalar.muli v10 c8_i32_1212
  let v1927 : BitVec 32 := Scalar.addi c0_i32_1213 v1926
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1214 : BitVec 32 := 4#32
  let v1928 : BitVec 32 := Scalar.muli v5 c4_i32_1214
  let v1929 : BitVec 32 := Scalar.addi v1927 v1928
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1215 : BitVec 32 := 1#32
  let v1930 : BitVec 32 := Scalar.muli v8 c1_i32_1215
  let v1931 : BitVec 32 := Scalar.addi v1929 v1930
  v1931.toNat
def k0_dev66 (d0 : Dev nD) : Nat :=
  let c0_i32_1238 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_1237 : BitVec 32 := 8#32
  let v1963 : BitVec 32 := Scalar.muli v10 c8_i32_1237
  let v1964 : BitVec 32 := Scalar.addi c0_i32_1238 v1963
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1239 : BitVec 32 := 4#32
  let v1965 : BitVec 32 := Scalar.muli v5 c4_i32_1239
  let v1966 : BitVec 32 := Scalar.addi v1964 v1965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1240 : BitVec 32 := 1#32
  let v1967 : BitVec 32 := Scalar.muli v8 c1_i32_1240
  let v1968 : BitVec 32 := Scalar.addi v1966 v1967
  v1968.toNat
def k0_off3 (d0 : Dev nD) (c0_i32_1326 : BitVec 32) : Fin 2 → Nat :=
  let c1_i32_1322 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2094 : BitVec 32 := Scalar.subi c1_i32_1322 v2
  let c2016_i32_1323 : BitVec 32 := 2016#32
  let v2095 : BitVec 32 := Scalar.muli v2094 c2016_i32_1323
  let c1_i32_1325 : BitVec 32 := 1#32
  let c2_i32_1324 : BitVec 32 := 2#32
  let v2096 : BitVec 32 := Scalar.muli c2_i32_1324 v2094
  let v2097 : BitVec 32 := Scalar.subi c1_i32_1325 v2096
  let v2098 : BitVec 32 := Scalar.muli v2097 c0_i32_1326
  let c32_i32_1327 : BitVec 32 := 32#32
  let v2099 : BitVec 32 := Scalar.muli v2098 c32_i32_1327
  let v2100 : BitVec 32 := Scalar.addi v2095 v2099
  let v2101 : Index := Scalar.indexCast v2100
  let c0_1328 : Index := 0#32
  ![v2101.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S32x512 : 0 < S32x512.numel
  shapeCasts_S32x512_S32x512 : S32x512.ShapeCasts S32x512
  bitsLt_bf16_f32 : FTy.bits .bf16 < FTy.bits .f32
  inb_S1088x512_S32x512_0_0 : ∀ a, (![0, 0] : Fin 2 → Nat) a + S32x512.size a ≤ S1088x512.size a
  packedbf16_S1088x512_S32x512_0_0 : (Rect.unit (s := S1088x512) ![0, 0] S32x512.size inb_S1088x512_S32x512_0_0).PackedRows (EltTy.packing .bf16)
  inb_S34_S1_0 : ∀ a, (![0] : Fin 1 → Nat) a + S1.size a ≤ S34.size a
  squeezes_S1_S_ : S1.Squeezes S_
  wordsbf16_S1088x512_S32x512_0_0 : (Rect.unit (s := S1088x512) ![0, 0] S32x512.size inb_S1088x512_S32x512_0_0).WholeWords (EltTy.packing .bf16)
  inb_S1088x512_S32x512_32_0 : ∀ a, (![32, 0] : Fin 2 → Nat) a + S32x512.size a ≤ S1088x512.size a
  packedbf16_S1088x512_S32x512_32_0 : (Rect.unit (s := S1088x512) ![32, 0] S32x512.size inb_S1088x512_S32x512_32_0).PackedRows (EltTy.packing .bf16)
  inb_S34_S1_1 : ∀ a, (![1] : Fin 1 → Nat) a + S1.size a ≤ S34.size a
  wordsbf16_S1088x512_S32x512_32_0 : (Rect.unit (s := S1088x512) ![32, 0] S32x512.size inb_S1088x512_S32x512_32_0).WholeWords (EltTy.packing .bf16)
  inb_S1088x512_S32x512_64_0 : ∀ a, (![64, 0] : Fin 2 → Nat) a + S32x512.size a ≤ S1088x512.size a
  packedbf16_S1088x512_S32x512_64_0 : (Rect.unit (s := S1088x512) ![64, 0] S32x512.size inb_S1088x512_S32x512_64_0).PackedRows (EltTy.packing .bf16)
  inb_S34_S1_2 : ∀ a, (![2] : Fin 1 → Nat) a + S1.size a ≤ S34.size a
  wordsbf16_S1088x512_S32x512_64_0 : (Rect.unit (s := S1088x512) ![64, 0] S32x512.size inb_S1088x512_S32x512_64_0).WholeWords (EltTy.packing .bf16)
  inb_S1088x512_S32x512_96_0 : ∀ a, (![96, 0] : Fin 2 → Nat) a + S32x512.size a ≤ S1088x512.size a
  packedbf16_S1088x512_S32x512_96_0 : (Rect.unit (s := S1088x512) ![96, 0] S32x512.size inb_S1088x512_S32x512_96_0).PackedRows (EltTy.packing .bf16)
  inb_S34_S1_3 : ∀ a, (![3] : Fin 1 → Nat) a + S1.size a ≤ S34.size a
  wordsbf16_S1088x512_S32x512_96_0 : (Rect.unit (s := S1088x512) ![96, 0] S32x512.size inb_S1088x512_S32x512_96_0).WholeWords (EltTy.packing .bf16)
  inb_S1088x512_S32x512_128_0 : ∀ a, (![128, 0] : Fin 2 → Nat) a + S32x512.size a ≤ S1088x512.size a
  packedbf16_S1088x512_S32x512_128_0 : (Rect.unit (s := S1088x512) ![128, 0] S32x512.size inb_S1088x512_S32x512_128_0).PackedRows (EltTy.packing .bf16)
  inb_S34_S1_4 : ∀ a, (![4] : Fin 1 → Nat) a + S1.size a ≤ S34.size a
  wordsbf16_S1088x512_S32x512_128_0 : (Rect.unit (s := S1088x512) ![128, 0] S32x512.size inb_S1088x512_S32x512_128_0).WholeWords (EltTy.packing .bf16)
  inb_S1088x512_S32x512_160_0 : ∀ a, (![160, 0] : Fin 2 → Nat) a + S32x512.size a ≤ S1088x512.size a
  packedbf16_S1088x512_S32x512_160_0 : (Rect.unit (s := S1088x512) ![160, 0] S32x512.size inb_S1088x512_S32x512_160_0).PackedRows (EltTy.packing .bf16)
  inb_S34_S1_5 : ∀ a, (![5] : Fin 1 → Nat) a + S1.size a ≤ S34.size a
  wordsbf16_S1088x512_S32x512_160_0 : (Rect.unit (s := S1088x512) ![160, 0] S32x512.size inb_S1088x512_S32x512_160_0).WholeWords (EltTy.packing .bf16)
  inb_S1088x512_S32x512_192_0 : ∀ a, (![192, 0] : Fin 2 → Nat) a + S32x512.size a ≤ S1088x512.size a
  packedbf16_S1088x512_S32x512_192_0 : (Rect.unit (s := S1088x512) ![192, 0] S32x512.size inb_S1088x512_S32x512_192_0).PackedRows (EltTy.packing .bf16)
  inb_S34_S1_6 : ∀ a, (![6] : Fin 1 → Nat) a + S1.size a ≤ S34.size a
  wordsbf16_S1088x512_S32x512_192_0 : (Rect.unit (s := S1088x512) ![192, 0] S32x512.size inb_S1088x512_S32x512_192_0).WholeWords (EltTy.packing .bf16)
  inb_S1088x512_S32x512_224_0 : ∀ a, (![224, 0] : Fin 2 → Nat) a + S32x512.size a ≤ S1088x512.size a
  packedbf16_S1088x512_S32x512_224_0 : (Rect.unit (s := S1088x512) ![224, 0] S32x512.size inb_S1088x512_S32x512_224_0).PackedRows (EltTy.packing .bf16)
  inb_S34_S1_7 : ∀ a, (![7] : Fin 1 → Nat) a + S1.size a ≤ S34.size a
  wordsbf16_S1088x512_S32x512_224_0 : (Rect.unit (s := S1088x512) ![224, 0] S32x512.size inb_S1088x512_S32x512_224_0).WholeWords (EltTy.packing .bf16)
  inb_S1088x512_S32x512_256_0 : ∀ a, (![256, 0] : Fin 2 → Nat) a + S32x512.size a ≤ S1088x512.size a
  packedbf16_S1088x512_S32x512_256_0 : (Rect.unit (s := S1088x512) ![256, 0] S32x512.size inb_S1088x512_S32x512_256_0).PackedRows (EltTy.packing .bf16)
  inb_S34_S1_8 : ∀ a, (![8] : Fin 1 → Nat) a + S1.size a ≤ S34.size a
  wordsbf16_S1088x512_S32x512_256_0 : (Rect.unit (s := S1088x512) ![256, 0] S32x512.size inb_S1088x512_S32x512_256_0).WholeWords (EltTy.packing .bf16)
  inb_S1088x512_S32x512_288_0 : ∀ a, (![288, 0] : Fin 2 → Nat) a + S32x512.size a ≤ S1088x512.size a
  packedbf16_S1088x512_S32x512_288_0 : (Rect.unit (s := S1088x512) ![288, 0] S32x512.size inb_S1088x512_S32x512_288_0).PackedRows (EltTy.packing .bf16)
  inb_S34_S1_9 : ∀ a, (![9] : Fin 1 → Nat) a + S1.size a ≤ S34.size a
  wordsbf16_S1088x512_S32x512_288_0 : (Rect.unit (s := S1088x512) ![288, 0] S32x512.size inb_S1088x512_S32x512_288_0).WholeWords (EltTy.packing .bf16)
  inb_S1088x512_S32x512_320_0 : ∀ a, (![320, 0] : Fin 2 → Nat) a + S32x512.size a ≤ S1088x512.size a
  packedbf16_S1088x512_S32x512_320_0 : (Rect.unit (s := S1088x512) ![320, 0] S32x512.size inb_S1088x512_S32x512_320_0).PackedRows (EltTy.packing .bf16)
  inb_S34_S1_10 : ∀ a, (![10] : Fin 1 → Nat) a + S1.size a ≤ S34.size a
  wordsbf16_S1088x512_S32x512_320_0 : (Rect.unit (s := S1088x512) ![320, 0] S32x512.size inb_S1088x512_S32x512_320_0).WholeWords (EltTy.packing .bf16)
  inb_S1088x512_S32x512_352_0 : ∀ a, (![352, 0] : Fin 2 → Nat) a + S32x512.size a ≤ S1088x512.size a
  packedbf16_S1088x512_S32x512_352_0 : (Rect.unit (s := S1088x512) ![352, 0] S32x512.size inb_S1088x512_S32x512_352_0).PackedRows (EltTy.packing .bf16)
  inb_S34_S1_11 : ∀ a, (![11] : Fin 1 → Nat) a + S1.size a ≤ S34.size a
  wordsbf16_S1088x512_S32x512_352_0 : (Rect.unit (s := S1088x512) ![352, 0] S32x512.size inb_S1088x512_S32x512_352_0).WholeWords (EltTy.packing .bf16)
  inb_S1088x512_S32x512_384_0 : ∀ a, (![384, 0] : Fin 2 → Nat) a + S32x512.size a ≤ S1088x512.size a
  packedbf16_S1088x512_S32x512_384_0 : (Rect.unit (s := S1088x512) ![384, 0] S32x512.size inb_S1088x512_S32x512_384_0).PackedRows (EltTy.packing .bf16)
  inb_S34_S1_12 : ∀ a, (![12] : Fin 1 → Nat) a + S1.size a ≤ S34.size a
  wordsbf16_S1088x512_S32x512_384_0 : (Rect.unit (s := S1088x512) ![384, 0] S32x512.size inb_S1088x512_S32x512_384_0).WholeWords (EltTy.packing .bf16)
  inb_S1088x512_S32x512_416_0 : ∀ a, (![416, 0] : Fin 2 → Nat) a + S32x512.size a ≤ S1088x512.size a
  packedbf16_S1088x512_S32x512_416_0 : (Rect.unit (s := S1088x512) ![416, 0] S32x512.size inb_S1088x512_S32x512_416_0).PackedRows (EltTy.packing .bf16)
  inb_S34_S1_13 : ∀ a, (![13] : Fin 1 → Nat) a + S1.size a ≤ S34.size a
  wordsbf16_S1088x512_S32x512_416_0 : (Rect.unit (s := S1088x512) ![416, 0] S32x512.size inb_S1088x512_S32x512_416_0).WholeWords (EltTy.packing .bf16)
  inb_S1088x512_S32x512_448_0 : ∀ a, (![448, 0] : Fin 2 → Nat) a + S32x512.size a ≤ S1088x512.size a
  packedbf16_S1088x512_S32x512_448_0 : (Rect.unit (s := S1088x512) ![448, 0] S32x512.size inb_S1088x512_S32x512_448_0).PackedRows (EltTy.packing .bf16)
  inb_S34_S1_14 : ∀ a, (![14] : Fin 1 → Nat) a + S1.size a ≤ S34.size a
  wordsbf16_S1088x512_S32x512_448_0 : (Rect.unit (s := S1088x512) ![448, 0] S32x512.size inb_S1088x512_S32x512_448_0).WholeWords (EltTy.packing .bf16)
  inb_S1088x512_S32x512_480_0 : ∀ a, (![480, 0] : Fin 2 → Nat) a + S32x512.size a ≤ S1088x512.size a
  packedbf16_S1088x512_S32x512_480_0 : (Rect.unit (s := S1088x512) ![480, 0] S32x512.size inb_S1088x512_S32x512_480_0).PackedRows (EltTy.packing .bf16)
  inb_S34_S1_15 : ∀ a, (![15] : Fin 1 → Nat) a + S1.size a ≤ S34.size a
  wordsbf16_S1088x512_S32x512_480_0 : (Rect.unit (s := S1088x512) ![480, 0] S32x512.size inb_S1088x512_S32x512_480_0).WholeWords (EltTy.packing .bf16)
  inb_S1088x512_S32x512_512_0 : ∀ a, (![512, 0] : Fin 2 → Nat) a + S32x512.size a ≤ S1088x512.size a
  packedbf16_S1088x512_S32x512_512_0 : (Rect.unit (s := S1088x512) ![512, 0] S32x512.size inb_S1088x512_S32x512_512_0).PackedRows (EltTy.packing .bf16)
  inb_S34_S1_16 : ∀ a, (![16] : Fin 1 → Nat) a + S1.size a ≤ S34.size a
  wordsbf16_S1088x512_S32x512_512_0 : (Rect.unit (s := S1088x512) ![512, 0] S32x512.size inb_S1088x512_S32x512_512_0).WholeWords (EltTy.packing .bf16)
  inb_S1088x512_S32x512_544_0 : ∀ a, (![544, 0] : Fin 2 → Nat) a + S32x512.size a ≤ S1088x512.size a
  packedbf16_S1088x512_S32x512_544_0 : (Rect.unit (s := S1088x512) ![544, 0] S32x512.size inb_S1088x512_S32x512_544_0).PackedRows (EltTy.packing .bf16)
  inb_S34_S1_17 : ∀ a, (![17] : Fin 1 → Nat) a + S1.size a ≤ S34.size a
  wordsbf16_S1088x512_S32x512_544_0 : (Rect.unit (s := S1088x512) ![544, 0] S32x512.size inb_S1088x512_S32x512_544_0).WholeWords (EltTy.packing .bf16)
  inb_S1088x512_S32x512_576_0 : ∀ a, (![576, 0] : Fin 2 → Nat) a + S32x512.size a ≤ S1088x512.size a
  packedbf16_S1088x512_S32x512_576_0 : (Rect.unit (s := S1088x512) ![576, 0] S32x512.size inb_S1088x512_S32x512_576_0).PackedRows (EltTy.packing .bf16)
  inb_S34_S1_18 : ∀ a, (![18] : Fin 1 → Nat) a + S1.size a ≤ S34.size a
  wordsbf16_S1088x512_S32x512_576_0 : (Rect.unit (s := S1088x512) ![576, 0] S32x512.size inb_S1088x512_S32x512_576_0).WholeWords (EltTy.packing .bf16)
  inb_S1088x512_S32x512_608_0 : ∀ a, (![608, 0] : Fin 2 → Nat) a + S32x512.size a ≤ S1088x512.size a
  packedbf16_S1088x512_S32x512_608_0 : (Rect.unit (s := S1088x512) ![608, 0] S32x512.size inb_S1088x512_S32x512_608_0).PackedRows (EltTy.packing .bf16)
  inb_S34_S1_19 : ∀ a, (![19] : Fin 1 → Nat) a + S1.size a ≤ S34.size a
  wordsbf16_S1088x512_S32x512_608_0 : (Rect.unit (s := S1088x512) ![608, 0] S32x512.size inb_S1088x512_S32x512_608_0).WholeWords (EltTy.packing .bf16)
  inb_S1088x512_S32x512_640_0 : ∀ a, (![640, 0] : Fin 2 → Nat) a + S32x512.size a ≤ S1088x512.size a
  packedbf16_S1088x512_S32x512_640_0 : (Rect.unit (s := S1088x512) ![640, 0] S32x512.size inb_S1088x512_S32x512_640_0).PackedRows (EltTy.packing .bf16)
  inb_S34_S1_20 : ∀ a, (![20] : Fin 1 → Nat) a + S1.size a ≤ S34.size a
  wordsbf16_S1088x512_S32x512_640_0 : (Rect.unit (s := S1088x512) ![640, 0] S32x512.size inb_S1088x512_S32x512_640_0).WholeWords (EltTy.packing .bf16)
  inb_S1088x512_S32x512_672_0 : ∀ a, (![672, 0] : Fin 2 → Nat) a + S32x512.size a ≤ S1088x512.size a
  packedbf16_S1088x512_S32x512_672_0 : (Rect.unit (s := S1088x512) ![672, 0] S32x512.size inb_S1088x512_S32x512_672_0).PackedRows (EltTy.packing .bf16)
  inb_S34_S1_21 : ∀ a, (![21] : Fin 1 → Nat) a + S1.size a ≤ S34.size a
  wordsbf16_S1088x512_S32x512_672_0 : (Rect.unit (s := S1088x512) ![672, 0] S32x512.size inb_S1088x512_S32x512_672_0).WholeWords (EltTy.packing .bf16)
  inb_S1088x512_S32x512_704_0 : ∀ a, (![704, 0] : Fin 2 → Nat) a + S32x512.size a ≤ S1088x512.size a
  packedbf16_S1088x512_S32x512_704_0 : (Rect.unit (s := S1088x512) ![704, 0] S32x512.size inb_S1088x512_S32x512_704_0).PackedRows (EltTy.packing .bf16)
  inb_S34_S1_22 : ∀ a, (![22] : Fin 1 → Nat) a + S1.size a ≤ S34.size a
  wordsbf16_S1088x512_S32x512_704_0 : (Rect.unit (s := S1088x512) ![704, 0] S32x512.size inb_S1088x512_S32x512_704_0).WholeWords (EltTy.packing .bf16)
  inb_S1088x512_S32x512_736_0 : ∀ a, (![736, 0] : Fin 2 → Nat) a + S32x512.size a ≤ S1088x512.size a
  packedbf16_S1088x512_S32x512_736_0 : (Rect.unit (s := S1088x512) ![736, 0] S32x512.size inb_S1088x512_S32x512_736_0).PackedRows (EltTy.packing .bf16)
  inb_S34_S1_23 : ∀ a, (![23] : Fin 1 → Nat) a + S1.size a ≤ S34.size a
  wordsbf16_S1088x512_S32x512_736_0 : (Rect.unit (s := S1088x512) ![736, 0] S32x512.size inb_S1088x512_S32x512_736_0).WholeWords (EltTy.packing .bf16)
  inb_S1088x512_S32x512_768_0 : ∀ a, (![768, 0] : Fin 2 → Nat) a + S32x512.size a ≤ S1088x512.size a
  packedbf16_S1088x512_S32x512_768_0 : (Rect.unit (s := S1088x512) ![768, 0] S32x512.size inb_S1088x512_S32x512_768_0).PackedRows (EltTy.packing .bf16)
  inb_S34_S1_24 : ∀ a, (![24] : Fin 1 → Nat) a + S1.size a ≤ S34.size a
  wordsbf16_S1088x512_S32x512_768_0 : (Rect.unit (s := S1088x512) ![768, 0] S32x512.size inb_S1088x512_S32x512_768_0).WholeWords (EltTy.packing .bf16)
  inb_S1088x512_S32x512_800_0 : ∀ a, (![800, 0] : Fin 2 → Nat) a + S32x512.size a ≤ S1088x512.size a
  packedbf16_S1088x512_S32x512_800_0 : (Rect.unit (s := S1088x512) ![800, 0] S32x512.size inb_S1088x512_S32x512_800_0).PackedRows (EltTy.packing .bf16)
  inb_S34_S1_25 : ∀ a, (![25] : Fin 1 → Nat) a + S1.size a ≤ S34.size a
  wordsbf16_S1088x512_S32x512_800_0 : (Rect.unit (s := S1088x512) ![800, 0] S32x512.size inb_S1088x512_S32x512_800_0).WholeWords (EltTy.packing .bf16)
  inb_S1088x512_S32x512_832_0 : ∀ a, (![832, 0] : Fin 2 → Nat) a + S32x512.size a ≤ S1088x512.size a
  packedbf16_S1088x512_S32x512_832_0 : (Rect.unit (s := S1088x512) ![832, 0] S32x512.size inb_S1088x512_S32x512_832_0).PackedRows (EltTy.packing .bf16)
  inb_S34_S1_26 : ∀ a, (![26] : Fin 1 → Nat) a + S1.size a ≤ S34.size a
  wordsbf16_S1088x512_S32x512_832_0 : (Rect.unit (s := S1088x512) ![832, 0] S32x512.size inb_S1088x512_S32x512_832_0).WholeWords (EltTy.packing .bf16)
  inb_S1088x512_S32x512_864_0 : ∀ a, (![864, 0] : Fin 2 → Nat) a + S32x512.size a ≤ S1088x512.size a
  packedbf16_S1088x512_S32x512_864_0 : (Rect.unit (s := S1088x512) ![864, 0] S32x512.size inb_S1088x512_S32x512_864_0).PackedRows (EltTy.packing .bf16)
  inb_S34_S1_27 : ∀ a, (![27] : Fin 1 → Nat) a + S1.size a ≤ S34.size a
  wordsbf16_S1088x512_S32x512_864_0 : (Rect.unit (s := S1088x512) ![864, 0] S32x512.size inb_S1088x512_S32x512_864_0).WholeWords (EltTy.packing .bf16)
  inb_S1088x512_S32x512_896_0 : ∀ a, (![896, 0] : Fin 2 → Nat) a + S32x512.size a ≤ S1088x512.size a
  packedbf16_S1088x512_S32x512_896_0 : (Rect.unit (s := S1088x512) ![896, 0] S32x512.size inb_S1088x512_S32x512_896_0).PackedRows (EltTy.packing .bf16)
  inb_S34_S1_28 : ∀ a, (![28] : Fin 1 → Nat) a + S1.size a ≤ S34.size a
  wordsbf16_S1088x512_S32x512_896_0 : (Rect.unit (s := S1088x512) ![896, 0] S32x512.size inb_S1088x512_S32x512_896_0).WholeWords (EltTy.packing .bf16)
  inb_S1088x512_S32x512_928_0 : ∀ a, (![928, 0] : Fin 2 → Nat) a + S32x512.size a ≤ S1088x512.size a
  packedbf16_S1088x512_S32x512_928_0 : (Rect.unit (s := S1088x512) ![928, 0] S32x512.size inb_S1088x512_S32x512_928_0).PackedRows (EltTy.packing .bf16)
  inb_S34_S1_29 : ∀ a, (![29] : Fin 1 → Nat) a + S1.size a ≤ S34.size a
  wordsbf16_S1088x512_S32x512_928_0 : (Rect.unit (s := S1088x512) ![928, 0] S32x512.size inb_S1088x512_S32x512_928_0).WholeWords (EltTy.packing .bf16)
  inb_S1088x512_S32x512_960_0 : ∀ a, (![960, 0] : Fin 2 → Nat) a + S32x512.size a ≤ S1088x512.size a
  packedbf16_S1088x512_S32x512_960_0 : (Rect.unit (s := S1088x512) ![960, 0] S32x512.size inb_S1088x512_S32x512_960_0).PackedRows (EltTy.packing .bf16)
  inb_S34_S1_30 : ∀ a, (![30] : Fin 1 → Nat) a + S1.size a ≤ S34.size a
  wordsbf16_S1088x512_S32x512_960_0 : (Rect.unit (s := S1088x512) ![960, 0] S32x512.size inb_S1088x512_S32x512_960_0).WholeWords (EltTy.packing .bf16)
  inb_S1088x512_S32x512_992_0 : ∀ a, (![992, 0] : Fin 2 → Nat) a + S32x512.size a ≤ S1088x512.size a
  packedbf16_S1088x512_S32x512_992_0 : (Rect.unit (s := S1088x512) ![992, 0] S32x512.size inb_S1088x512_S32x512_992_0).PackedRows (EltTy.packing .bf16)
  inb_S34_S1_31 : ∀ a, (![31] : Fin 1 → Nat) a + S1.size a ≤ S34.size a
  wordsbf16_S1088x512_S32x512_992_0 : (Rect.unit (s := S1088x512) ![992, 0] S32x512.size inb_S1088x512_S32x512_992_0).WholeWords (EltTy.packing .bf16)
  inb_S1088x512_S32x512_1024_0 : ∀ a, (![1024, 0] : Fin 2 → Nat) a + S32x512.size a ≤ S1088x512.size a
  packedbf16_S1088x512_S32x512_1024_0 : (Rect.unit (s := S1088x512) ![1024, 0] S32x512.size inb_S1088x512_S32x512_1024_0).PackedRows (EltTy.packing .bf16)
  inb_S34_S1_32 : ∀ a, (![32] : Fin 1 → Nat) a + S1.size a ≤ S34.size a
  wordsbf16_S1088x512_S32x512_1024_0 : (Rect.unit (s := S1088x512) ![1024, 0] S32x512.size inb_S1088x512_S32x512_1024_0).WholeWords (EltTy.packing .bf16)
  inb_S1088x512_S32x512_1056_0 : ∀ a, (![1056, 0] : Fin 2 → Nat) a + S32x512.size a ≤ S1088x512.size a
  packedbf16_S1088x512_S32x512_1056_0 : (Rect.unit (s := S1088x512) ![1056, 0] S32x512.size inb_S1088x512_S32x512_1056_0).PackedRows (EltTy.packing .bf16)
  inb_S34_S1_33 : ∀ a, (![33] : Fin 1 → Nat) a + S1.size a ≤ S34.size a
  wordsbf16_S1088x512_S32x512_1056_0 : (Rect.unit (s := S1088x512) ![1056, 0] S32x512.size inb_S1088x512_S32x512_1056_0).WholeWords (EltTy.packing .bf16)
  inb_S30_S1_0 : ∀ a, (![0] : Fin 1 → Nat) a + S1.size a ≤ S30.size a
  inb_S30_S1_1 : ∀ a, (![1] : Fin 1 → Nat) a + S1.size a ≤ S30.size a
  inb_S30_S1_2 : ∀ a, (![2] : Fin 1 → Nat) a + S1.size a ≤ S30.size a
  inb_S30_S1_3 : ∀ a, (![3] : Fin 1 → Nat) a + S1.size a ≤ S30.size a
  inb_S30_S1_4 : ∀ a, (![4] : Fin 1 → Nat) a + S1.size a ≤ S30.size a
  inb_S30_S1_5 : ∀ a, (![5] : Fin 1 → Nat) a + S1.size a ≤ S30.size a
  inb_S30_S1_6 : ∀ a, (![6] : Fin 1 → Nat) a + S1.size a ≤ S30.size a
  inb_S30_S1_7 : ∀ a, (![7] : Fin 1 → Nat) a + S1.size a ≤ S30.size a
  inb_S30_S1_8 : ∀ a, (![8] : Fin 1 → Nat) a + S1.size a ≤ S30.size a
  inb_S30_S1_9 : ∀ a, (![9] : Fin 1 → Nat) a + S1.size a ≤ S30.size a
  inb_S30_S1_10 : ∀ a, (![10] : Fin 1 → Nat) a + S1.size a ≤ S30.size a
  inb_S30_S1_11 : ∀ a, (![11] : Fin 1 → Nat) a + S1.size a ≤ S30.size a
  inb_S30_S1_12 : ∀ a, (![12] : Fin 1 → Nat) a + S1.size a ≤ S30.size a
  inb_S30_S1_13 : ∀ a, (![13] : Fin 1 → Nat) a + S1.size a ≤ S30.size a
  inb_S30_S1_14 : ∀ a, (![14] : Fin 1 → Nat) a + S1.size a ≤ S30.size a
  inb_S30_S1_15 : ∀ a, (![15] : Fin 1 → Nat) a + S1.size a ≤ S30.size a
  inb_S30_S1_16 : ∀ a, (![16] : Fin 1 → Nat) a + S1.size a ≤ S30.size a
  inb_S30_S1_17 : ∀ a, (![17] : Fin 1 → Nat) a + S1.size a ≤ S30.size a
  inb_S30_S1_18 : ∀ a, (![18] : Fin 1 → Nat) a + S1.size a ≤ S30.size a
  inb_S30_S1_19 : ∀ a, (![19] : Fin 1 → Nat) a + S1.size a ≤ S30.size a
  inb_S30_S1_20 : ∀ a, (![20] : Fin 1 → Nat) a + S1.size a ≤ S30.size a
  inb_S30_S1_21 : ∀ a, (![21] : Fin 1 → Nat) a + S1.size a ≤ S30.size a
  inb_S30_S1_22 : ∀ a, (![22] : Fin 1 → Nat) a + S1.size a ≤ S30.size a
  inb_S30_S1_23 : ∀ a, (![23] : Fin 1 → Nat) a + S1.size a ≤ S30.size a
  inb_S30_S1_24 : ∀ a, (![24] : Fin 1 → Nat) a + S1.size a ≤ S30.size a
  inb_S30_S1_25 : ∀ a, (![25] : Fin 1 → Nat) a + S1.size a ≤ S30.size a
  inb_S30_S1_26 : ∀ a, (![26] : Fin 1 → Nat) a + S1.size a ≤ S30.size a
  inb_S30_S1_27 : ∀ a, (![27] : Fin 1 → Nat) a + S1.size a ≤ S30.size a
  inb_S30_S1_28 : ∀ a, (![28] : Fin 1 → Nat) a + S1.size a ≤ S30.size a
  inb_S30_S1_29 : ∀ a, (![29] : Fin 1 → Nat) a + S1.size a ≤ S30.size a
  hcc0_scratch2 : 2 + S34.numel ≤ 130
  hcc0_scratch3 : 36 + S34.numel ≤ 130
  hcc0_scratch4 : 70 + S30.numel ≤ 130
  hcc0_scratch5 : 100 + S30.numel ≤ 130
  k0_dev1_lt : ∀ d0 : Dev nD, (k0_dev1 d0) < nD
  k0_dev2_lt : ∀ d0 : Dev nD, (k0_dev2 d0) < nD
  k0_off1_inb : ∀ d0 : Dev nD, ∀ (r : Fin 34), ∀ a, (k0_off1 d0 (BitVec.ofNat 32 r.val)) a + S32x512.size a ≤ S2048x512.size a
  k0_off2_inb : ∀ d0 : Dev nD, ∀ (r : Fin 34), ∀ a, (k0_off2 d0 (BitVec.ofNat 32 r.val)) a + S32x512.size a ≤ S2048x512.size a
  k0_off2_wordsbf16 : ∀ d0 : Dev nD, ∀ (r : Fin 34), (Rect.unit (s := S2048x512) (k0_off2 d0 (BitVec.ofNat 32 r.val)) S32x512.size (k0_off2_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 30), ∀ a, (k0_off3 d0 (BitVec.ofNat 32 r.val)) a + S32x512.size a ≤ S2048x512.size a
  hstage0_0 : ∀ j, (stage0_0 j).IsWhole
  hstage0_1 : ∀ j, (stage0_1 j).IsWhole

variable [Facts₀]

abbrev cc0_scratch2 : DmaSems sig S34 := SemArray.consecutive 2 S34 hcc0_scratch2
abbrev cc0_scratch3 : DmaSems sig S34 := SemArray.consecutive 36 S34 hcc0_scratch3
abbrev cc0_scratch4 : DmaSems sig S30 := SemArray.consecutive 70 S30 hcc0_scratch4
abbrev cc0_scratch5 : DmaSems sig S30 := SemArray.consecutive 100 S30 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S2x2048x512 : S4096x512.ShapeCasts S2x2048x512
  reducesTo_S2x2048x512_S2048x512_d0 : S2x2048x512.ReducesTo [0] S2048x512
  h_S_ : 0 < S_.numel

variable [Facts₀]

class Facts : Prop extends Facts₀ where

variable [Facts]
-- ==== Proof.Idx.lean ====
import Idealize.ShloMosaic.Signature.Static

namespace Cert.AR

open Idealize.ShloMosaic

def yn (c : Dev 16) : Dev 16 := ⟨(8 * (c.val / 8) + (c.val % 4) + 4) - 4 * ((c.val / 4) % 2), by have := c.isLt; omega⟩
def xn (c : Dev 16) : Dev 16 := ⟨(4 * ((c.val / 4) % 2) + (c.val % 4) + 8) - 8 * (c.val / 8), by have := c.isLt; omega⟩

theorem yn_val (c : Dev 16) : (yn c).val = (8 * (c.val / 8) + (c.val % 4) + 4) - 4 * ((c.val / 4) % 2) := rfl
theorem xn_val (c : Dev 16) : (xn c).val = (4 * ((c.val / 4) % 2) + (c.val % 4) + 8) - 8 * (c.val / 8) := rfl

theorem yn_val_cases (c : Dev 16) :
    (c.val / 4 % 2 = 0 ∧ (yn c).val = c.val + 4) ∨ (c.val / 4 % 2 = 1 ∧ (yn c).val + 4 = c.val) := by
  have := c.isLt; rw [yn_val]; omega

theorem xn_val_cases (c : Dev 16) :
    (c.val / 8 = 0 ∧ (xn c).val = c.val + 8) ∨ (c.val / 8 = 1 ∧ (xn c).val + 8 = c.val) := by
  have := c.isLt; rw [xn_val]; omega

theorem div8_cases (c : Dev 16) : c.val / 8 = 0 ∨ c.val / 8 = 1 := by
  have := c.isLt; omega

theorem yn_val_div8 (c : Dev 16) : (yn c).val / 8 = c.val / 8 := by
  have := c.isLt; rcases yn_val_cases c with ⟨h, e⟩ | ⟨h, e⟩ <;> omega

theorem xn_val_div8 (c : Dev 16) : (xn c).val / 8 = 1 - c.val / 8 := by
  have := c.isLt; rcases xn_val_cases c with ⟨h, e⟩ | ⟨h, e⟩ <;> omega

theorem yn_ycoord (c : Dev 16) : (yn c).val / 4 % 2 = 1 - c.val / 4 % 2 := by
  have := c.isLt; rcases yn_val_cases c with ⟨h, e⟩ | ⟨h, e⟩ <;> omega

theorem xn_ycoord (c : Dev 16) : (xn c).val / 4 % 2 = c.val / 4 % 2 := by
  have := c.isLt; rcases xn_val_cases c with ⟨h, e⟩ | ⟨h, e⟩ <;> omega

theorem yn_yn (c : Dev 16) : yn (yn c) = c := by
  apply Fin.ext
  have := c.isLt
  rcases yn_val_cases c with ⟨h, e⟩ | ⟨h, e⟩ <;>
    rcases yn_val_cases (yn c) with ⟨h', e'⟩ | ⟨h', e'⟩ <;> omega

theorem xn_xn (c : Dev 16) : xn (xn c) = c := by
  apply Fin.ext
  have := c.isLt
  rcases xn_val_cases c with ⟨h, e⟩ | ⟨h, e⟩ <;>
    rcases xn_val_cases (xn c) with ⟨h', e'⟩ | ⟨h', e'⟩ <;> omega

def rowY (c : Dev 16) (k : ℕ) : ℕ := if c.val / 8 = 0 then 32 * k else 2016 - 32 * k
def rowX (c : Dev 16) (k : ℕ) : ℕ := if c.val / 8 = 0 then 2016 - 32 * k else 32 * k

theorem rowY_x0 {c : Dev 16} (h : c.val / 8 = 0) (k : ℕ) : rowY c k = 32 * k := if_pos h
theorem rowY_x1 {c : Dev 16} (h : c.val / 8 = 1) (k : ℕ) : rowY c k = 2016 - 32 * k :=
  if_neg (by omega)
theorem rowX_x0 {c : Dev 16} (h : c.val / 8 = 0) (k : ℕ) : rowX c k = 2016 - 32 * k := if_pos h
theorem rowX_x1 {c : Dev 16} (h : c.val / 8 = 1) (k : ℕ) : rowX c k = 32 * k :=
  if_neg (by omega)

theorem rowY_yn (c : Dev 16) (k : ℕ) : rowY (yn c) k = rowY c k := by
  unfold rowY; rw [yn_val_div8]

theorem rowY_xn (c : Dev 16) (k : ℕ) : rowY (xn c) k = rowX c k := by
  have hx := xn_val_div8 c
  rcases div8_cases c with h | h
  · rw [rowY_x1 (c := xn c) (by omega), rowX_x0 h]
  · rw [rowY_x0 (c := xn c) (by omega), rowX_x1 h]

theorem rowX_xn (c : Dev 16) (k : ℕ) : rowX (xn c) k = rowY c k := by
  have hx := xn_val_div8 c
  rcases div8_cases c with h | h
  · rw [rowX_x1 (c := xn c) (by omega), rowY_x0 h]
  · rw [rowX_x0 (c := xn c) (by omega), rowY_x1 h]

theorem rows_cover (c : Dev 16) (r : ℕ) (hr : r < 2048) :
    (∃ k, k < 34 ∧ rowY c k ≤ r ∧ r < rowY c k + 32) ∨ (∃ k, k < 30 ∧ rowX c k ≤ r ∧ r < rowX c k + 32) := by
  rcases div8_cases c with h | h
  · by_cases hlt : r < 1088
    · refine Or.inl ⟨r / 32, by omega, ?_, ?_⟩ <;> rw [rowY_x0 h] <;> omega
    · refine Or.inr ⟨(2047 - r) / 32, by omega, ?_, ?_⟩ <;> rw [rowX_x0 h] <;> omega
  · by_cases hlt : r < 960
    · refine Or.inr ⟨r / 32, by omega, ?_, ?_⟩ <;> rw [rowX_x1 h] <;> omega
    · refine Or.inl ⟨(2047 - r) / 32, by omega, ?_, ?_⟩ <;> rw [rowY_x1 h] <;> omega

theorem rowY_disj (c : Dev 16) (k k' : ℕ) (hk : k < 34) (hk' : k' < 34) (h : k ≠ k') :
    rowY c k + 32 ≤ rowY c k' ∨ rowY c k' + 32 ≤ rowY c k := by
  rcases div8_cases c with hx | hx
  · rw [rowY_x0 hx, rowY_x0 hx]; omega
  · rw [rowY_x1 hx, rowY_x1 hx]; omega

theorem rowX_disj (c : Dev 16) (k k' : ℕ) (hk : k < 30) (hk' : k' < 30) (h : k ≠ k') :
    rowX c k + 32 ≤ rowX c k' ∨ rowX c k' + 32 ≤ rowX c k := by
  rcases div8_cases c with hx | hx
  · rw [rowX_x0 hx, rowX_x0 hx]; omega
  · rw [rowX_x1 hx, rowX_x1 hx]; omega

theorem rowY_rowX_disj (c : Dev 16) (k k' : ℕ) (hk : k < 34) (hk' : k' < 30) :
    rowY c k + 32 ≤ rowX c k' ∨ rowX c k' + 32 ≤ rowY c k := by
  rcases div8_cases c with hx | hx
  · rw [rowY_x0 hx, rowX_x0 hx]; omega
  · rw [rowY_x1 hx, rowX_x1 hx]; omega

end Cert.AR
-- ==== Proof.Spec.lean ====
import Idealize.ShloMosaic.PureOps.Ideal
import Idealize.ShloMosaic.Lib.Pipeline.Value

noncomputable section

namespace Cert.AR

open Idealize.ShloMosaic

variable {F : FTy → Type} [FloatOps F]

abbrev S2048x512 : Shape := ⟨2, ![2048, 512]⟩
abbrev S32x512 : Shape := ⟨2, ![32, 512]⟩
abbrev S4096x512 : Shape := ⟨2, ![4096, 512]⟩

theorem hsc : S32x512.ShapeCasts S32x512 := by decide
theorem hlt : FTy.bits .bf16 < FTy.bits .f32 := by decide

def P1 (v : Vec F S32x512 .f32) : FVec F S32x512 .bf16 :=
  shapeCast S32x512 (truncf .bf16 (shapeCast S32x512 v hsc) hlt) hsc

def P2 (x : Vec F S32x512 .f32) (r : Vec F S32x512 .bf16) : FVec F S32x512 .f32 :=
  addf (shapeCast S32x512 x hsc) (extf .f32 r hlt)

theorem P1_apply (v : Vec F S32x512 .f32) (j : S32x512.Idx) :
    P1 v j = FloatOps.truncf .bf16 hlt (v j) := by
  unfold P1
  rw [shapeCast_self, shapeCast_self]
  rfl

theorem P2_apply (x : Vec F S32x512 .f32) (r : Vec F S32x512 .bf16) (j : S32x512.Idx) :
    P2 x r j = FloatOps.addf (x j) (FloatOps.extf .f32 hlt (r j)) := by
  unfold P2
  rw [shapeCast_self]
  rfl

def outSpec (x x' : (⟨S2048x512, .f32⟩ : BufTy).Contents (Elt F)) :
    (⟨S2048x512, .f32⟩ : BufTy).Contents (Elt F) :=
  fun i => FloatOps.addf (x i) (FloatOps.extf .f32 hlt (FloatOps.truncf .bf16 hlt (x' i)))

theorem outSpec_block (x x' : (⟨S2048x512, .f32⟩ : BufTy).Contents (Elt F))
    (e : S32x512.Idx → S2048x512.Idx) :
    (fun j => outSpec x x' (e j)) = P2 (fun j => x (e j)) (P1 (fun j => x' (e j))) := by
  funext j
  rw [P2_apply, P1_apply]
  rfl

theorem outSpec_ideal (x x' : (⟨S2048x512, .f32⟩ : BufTy).Contents (Elt Ideal)) :
    outSpec x x' = fun i => (show EReal from x i) + (show EReal from x' i) := rfl

end Cert.AR

end
-- ==== Proof.SchedBits.lean ====
import proofs.«900712_g7700000000000713_dist_ar_v7x_xyz2x2x4_y_m2048_n512_bf16_1_alg».proof.Proof.Gen.Kernel
import proofs.«900712_g7700000000000713_dist_ar_v7x_xyz2x2x4_y_m2048_n512_bf16_1_alg».proof.Proof.Gen.Kernel.Launch
import proofs.«900712_g7700000000000713_dist_ar_v7x_xyz2x2x4_y_m2048_n512_bf16_1_alg».proof.Proof.Idx
import proofs.«900712_g7700000000000713_dist_ar_v7x_xyz2x2x4_y_m2048_n512_bf16_1_alg».proof.Proof.Spec
import Idealize.ShloMosaic.Lib.Pipeline.Launch
import Idealize.ShloMosaic.Lib.Pipeline.Kit
import Idealize.ShloMosaic.Lib.Tactic

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S2048x512 .f32 := Memref.whole cc0_stg0_0
abbrev oM : Memref sig .tc .vmem S2048x512 .f32 := Memref.whole cc0_stg1_0
abbrev bM : Memref sig .tc .vmem S1088x512 .bf16 := Memref.whole cc0_scratch0
abbrev rM : Memref sig .tc .vmem S2048x512 .bf16 := Memref.whole cc0_scratch1

theorem bOff_inb (k : Fin 34) : ∀ a, (![32 * k.val, 0] : Fin 2 → Nat) a + S32x512.size a ≤ S1088x512.size a := by
  have := k.isLt; intro a; fin_cases a <;> simp [Shape.size] <;> omega

abbrev rB (k : Fin 34) : Rect S1088x512 := Rect.unit (s := S1088x512) ![32 * k.val, 0] S32x512.size (bOff_inb k)
abbrev rY (c : Dev nD) (k : Fin 34) : Rect S2048x512 := Rect.unit (s := S2048x512) (k0_off1 c (BitVec.ofNat 32 k.val)) S32x512.size (k0_off1_inb c k)
abbrev rY2 (c : Dev nD) (k : Fin 34) : Rect S2048x512 := Rect.unit (s := S2048x512) (k0_off2 c (BitVec.ofNat 32 k.val)) S32x512.size (k0_off2_inb c k)
abbrev rX (c : Dev nD) (k : Fin 30) : Rect S2048x512 := Rect.unit (s := S2048x512) (k0_off3 c (BitVec.ofNat 32 k.val)) S32x512.size (k0_off3_inb c k)

def bSl (k : Fin 34) : Memref sig .tc .vmem S32x512 .bf16 := bM.slice (rB k) (fun _ => rfl)

def rSlY (c : Dev nD) (k : Fin 34) : Memref sig .tc .vmem S32x512 .bf16 :=
  rM.slice (rY2 c k) (fun _ => rfl)

def rSlX (c : Dev nD) (k : Fin 30) : Memref sig .tc .vmem S32x512 .bf16 :=
  rM.slice (rX c k) (fun _ => rfl)

abbrev barS : Sem sig := (SemArray.scalar (sig.barrier 0 rfl) : Sems sig S_).sem

theorem i34 (k : Fin 34) : ∀ a, (![k.val] : Fin 1 → Nat) a + S1.size a ≤ S34.size a := by
  have := k.isLt; intro a; fin_cases a; (try simp [Shape.size]) <;> (try omega)
theorem i30 (k : Fin 30) : ∀ a, (![k.val] : Fin 1 → Nat) a + S1.size a ≤ S30.size a := by
  have := k.isLt; intro a; fin_cases a; (try simp [Shape.size]) <;> (try omega)

def ysS (k : Fin 34) : DmaSem sig := ((cc0_scratch2.slice (Rect.unit (s := S34) ![k.val] S1.size (i34 k))).squeeze S_ squeezes_S1_S_).sem
def yrS (k : Fin 34) : DmaSem sig := ((cc0_scratch3.slice (Rect.unit (s := S34) ![k.val] S1.size (i34 k))).squeeze S_ squeezes_S1_S_).sem
def xsS (k : Fin 30) : DmaSem sig := ((cc0_scratch4.slice (Rect.unit (s := S30) ![k.val] S1.size (i30 k))).squeeze S_ squeezes_S1_S_).sem
def xrS (k : Fin 30) : DmaSem sig := ((cc0_scratch5.slice (Rect.unit (s := S30) ![k.val] S1.size (i30 k))).squeeze S_ squeezes_S1_S_).sem

abbrev barCell (c : Dev nD) : GSem nD τ sig := ((c : Thread nD τ), .reg barS)
abbrev ysCell (c : Dev nD) (k : Fin 34) : GSem nD τ sig := ((c : Thread nD τ), .dma (ysS k))
abbrev yrCell (c : Dev nD) (k : Fin 34) : GSem nD τ sig := ((c : Thread nD τ), .dma (yrS k))
abbrev xsCell (c : Dev nD) (k : Fin 30) : GSem nD τ sig := ((c : Thread nD τ), .dma (xsS k))
abbrev xrCell (c : Dev nD) (k : Fin 30) : GSem nD τ sig := ((c : Thread nD τ), .dma (xrS k))

inductive CK where
  | bar | ys (k : Fin 34) | yr (k : Fin 34) | xs (k : Fin 30) | xr (k : Fin 30) | other
deriving DecidableEq

def kind : SemLoc sig → CK
  | .reg _ => .bar
  | .dma s =>
    if h0 : s.val < 2 then .other
    else if h1 : s.val < 36 then .ys ⟨s.val - 2, by omega⟩
    else if h2 : s.val < 70 then .yr ⟨s.val - 36, by omega⟩
    else if h3 : s.val < 100 then .xs ⟨s.val - 70, by omega⟩
    else .xr ⟨s.val - 100, by have : s.val < 130 := s.isLt; omega⟩

theorem kind_ys : ∀ k : Fin 34, kind (.dma (ysS k)) = .ys k := by decide
theorem kind_yr : ∀ k : Fin 34, kind (.dma (yrS k)) = .yr k := by decide
theorem kind_xs : ∀ k : Fin 30, kind (.dma (xsS k)) = .xs k := by decide
theorem kind_xr : ∀ k : Fin 30, kind (.dma (xrS k)) = .xr k := by decide
theorem kind_bar : kind (.reg barS) = .bar := rfl

abbrev N : ℕ := (bSl 0).view.dmaCredit
theorem N_pos : 0 < N := View.dmaCredit_pos _ (by decide)

def xstg (c : Dev nD) : (cc0_stg0_0 : Ref sig .tc).ty.Contents (Elt F) :=
  (win0_0.blk (0 : Fin 1)).view.read (Elt F) ((s₀ m ρ).mem ((c : Thread nD τ).loc main_arg0))

def ydata (c : Dev nD) (k : Fin 34) : Vec F S32x512 .bf16 :=
  Cert.AR.P1 (xM.view.readAt (Elt F) (rY c k).toLoadRect (xstg m ρ c))

abbrev k34 (k : Fin 30) : Fin 34 := ⟨k.val, by have := k.isLt; omega⟩

def landY (c : Dev nD) (k : Fin 34) : Buf (Elt F) ((rSlY c k).view.loc (c : Thread nD τ)) :=
  (rSlY c k).view.write (Elt F) (m ((c : Thread nD τ).loc cc0_scratch1)) (ydata m ρ (yn c) k) Finset.univ
def landX (c : Dev nD) (k : Fin 30) : Buf (Elt F) ((rSlX c k).view.loc (c : Thread nD τ)) :=
  (rSlX c k).view.write (Elt F) (m ((c : Thread nD τ).loc cc0_scratch1)) (ydata m ρ (yn (xn c)) (k34 k)) Finset.univ

abbrev blkPts {S : Shape} {e : EltTy} (c : Dev nD) (v : Memref sig .tc .vmem S e) (q : PosShare TreeShare) (f : Buf (Elt F) (v.view.loc (c : Thread nD τ))) : sProp 𝕄 :=
  v.view.loc (c : Thread nD τ) ↦[v.view.set]{q} f

def barPayY (c : Dev nD) : sProp 𝕄 :=
  bigSep (Finset.univ : Finset (Fin 34)) fun k => iprop((∃ f, blkPts (yn c) (rSlY (yn c) k) fullShare f) ∗ reached ER (yrCell (yn c) k) 0)
def barPayX (c : Dev nD) : sProp 𝕄 :=
  bigSep (Finset.univ : Finset (Fin 30)) fun k => iprop((∃ f, blkPts (xn c) (rSlX (xn c) k) fullShare f) ∗ reached ER (xrCell (xn c) k) 0)

def ysPay (c : Dev nD) (k : Fin 34) : sProp 𝕄 := iprop(∃ f, blkPts c (bSl k) fullShare f)
def yrPay (c : Dev nD) (k : Fin 34) : sProp 𝕄 := blkPts c (rSlY c k) fullShare (landY m ρ c k)
def xsPay (c : Dev nD) (k : Fin 30) : sProp 𝕄 := blkPts c (rSlY c (k34 k)) fullShare.left (landY m ρ c (k34 k))
def xrPay (c : Dev nD) (k : Fin 30) : sProp 𝕄 := blkPts c (rSlX c k) fullShare (landX m ρ c k)

def arRd : Rounds.Schedule (GSem nD τ sig) Bool 𝕄 where
  duties g r := if r = 0 ∧ g.1.2 = .tc then (match kind g.2 with | .bar => Finset.univ | .other => ∅ | _ => {false}) else ∅
  unitless _ := False
  amount g _ _ := if g.2 = .reg barS then 1 else N
  payload g _ d := match kind g.2 with
    | .bar => if d then barPayX g.1.1 else barPayY g.1.1
    | .ys k => ysPay g.1.1 k
    | .yr k => yrPay m ρ g.1.1 k
    | .xs k => xsPay m ρ g.1.1 k
    | .xr k => xrPay m ρ g.1.1 k
    | .other => iprop(emp)
  amount_pos g _ _ _ := by
    by_cases h : g.2 = .reg barS
    · rw [if_pos h]; exact Nat.one_pos
    · rw [if_neg h]; exact N_pos

end Cert.Kernel.AR

end
-- ==== Proof.GenProgBits.lean ====
import proofs.«900712_g7700000000000713_dist_ar_v7x_xyz2x2x4_y_m2048_n512_bf16_1_alg».proof.Proof.SchedBits
import proofs.«900712_g7700000000000713_dist_ar_v7x_xyz2x2x4_y_m2048_n512_bf16_1_alg».proof.Proof.Gen.Kernel.Skeleton

noncomputable section

namespace Cert.Kernel.AR

open Cert.Kernel Cert.Kernel.Gen Cert.AR

open Idealize.ShloMosaic
open Idealize.ShloMosaic.TcCoe
open Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

def devY (c : Dev nD) (_ : Fin 34) : Dev nD := ⟨k0_dev3 c, k0_dev3_lt c⟩
def devX (c : Dev nD) (_ : Fin 30) : Dev nD := ⟨k0_dev37 c, k0_dev37_lt c⟩

theorem packedB : ∀ k : Fin 34, (rB k).PackedRows (EltTy.packing .bf16) := by decide
theorem wordsB : ∀ k : Fin 34, (rB k).WholeWords (EltTy.packing .bf16) := by decide

abbrev hwB : (Memref.whole cc0_scratch0 : Memref sig .tc .vmem S1088x512 .bf16).IsWhole := Memref.isWhole_whole _
abbrev hwR : (Memref.whole cc0_scratch1 : Memref sig .tc .vmem S2048x512 .bf16).IsWhole := Memref.isWhole_whole _

def iterA (c : Dev nD) (k : Fin 34) : Prog (TpuEff nD τ sig (Elt F) Λ₀ .tc) PUnit := do
  let v ← Prog.lift (.load xM (rY c k).toLoadRect (View.loadsAt_vmem h_S32x512))
  let _ ← Prog.lift (.load bM (rB k).toLoadRect (View.loadsAt_vmem h_S32x512))
  Prog.lift (.store bM (rB k) (Cert.AR.P1 v) Finset.univ (View.stores_vmem h_S32x512 (hwB.storeExact_slice rfl _ (packedB k)) (fun _ => rfl)) (.inl rfl))
  Prog.lift (.enqueueDma (bSl k) (.remote (Dev.tc (devY c k)) (rSlY c k) (.dma (ysS k))) (.dma (yrS k)) (hwB.wordExact_slice rfl _ (wordsB k)) (hwR.wordExact_slice rfl _ (k0_off2_wordsbf16 c k)) ⟨⟨rfl, Or.inl rfl⟩, trivial⟩)

def iterBrecv (c : Dev nD) (k : Fin 34) : Prog (TpuEff nD τ sig (Elt F) Λ₀ .tc) PUnit :=
  Prog.lift (.waitDma2 (yrS k) (bSl k) (rSlY c k) (hwB.wordExact_slice rfl _ (wordsB k)) (hwR.wordExact_slice rfl _ (k0_off2_wordsbf16 c k)))
def iterBadd (c : Dev nD) (k : Fin 34) : Prog (TpuEff nD τ sig (Elt F) Λ₀ .tc) PUnit := do
  let x ← Prog.lift (.load xM (rY c k).toLoadRect (View.loadsAt_vmem h_S32x512))
  let r ← Prog.lift (.load rM (rY c k).toLoadRect (View.loadsAt_vmem h_S32x512))
  let _ ← Prog.lift (.load oM (rY c k).toLoadRect (View.loadsAt_vmem h_S32x512))
  Prog.lift (.store oM (rY c k) (Cert.AR.P2 x r) Finset.univ (View.stores_vmem_bits_univ h_S32x512 rfl) (.inl rfl))
def iterBfwd (c : Dev nD) (k : Fin 30) : Prog (TpuEff nD τ sig (Elt F) Λ₀ .tc) PUnit :=
  Prog.lift (.enqueueDma (rSlY c (k34 k)) (.remote (Dev.tc (devX c k)) (rSlY c (k34 k)) (.dma (xsS k))) (.dma (xrS k)) (hwR.wordExact_slice rfl _ (k0_off2_wordsbf16 c (k34 k))) (hwR.wordExact_slice rfl _ (k0_off2_wordsbf16 c (k34 k))) ⟨⟨rfl, Or.inl rfl⟩, trivial⟩)

def iterCrecv (c : Dev nD) (k : Fin 30) : Prog (TpuEff nD τ sig (Elt F) Λ₀ .tc) PUnit :=
  Prog.lift (.waitDma2 (xrS k) (rSlY c (k34 k)) (rSlY c (k34 k)) (hwR.wordExact_slice rfl _ (k0_off2_wordsbf16 c (k34 k))) (hwR.wordExact_slice rfl _ (k0_off2_wordsbf16 c (k34 k))))
def iterCadd (c : Dev nD) (k : Fin 30) : Prog (TpuEff nD τ sig (Elt F) Λ₀ .tc) PUnit := do
  let x ← Prog.lift (.load xM (rX c k).toLoadRect (View.loadsAt_vmem h_S32x512))
  let r ← Prog.lift (.load rM (rX c k).toLoadRect (View.loadsAt_vmem h_S32x512))
  let _ ← Prog.lift (.load oM (rX c k).toLoadRect (View.loadsAt_vmem h_S32x512))
  Prog.lift (.store oM (rX c k) (Cert.AR.P2 x r) Finset.univ (View.stores_vmem_bits_univ h_S32x512 rfl) (.inl rfl))
def iterD (c : Dev nD) (k : Fin 34) : Prog (TpuEff nD τ sig (Elt F) Λ₀ .tc) PUnit :=
  Prog.lift (.waitDma2 (ysS k) (rSlY c k) (bSl k) (hwR.wordExact_slice rfl _ (k0_off2_wordsbf16 c k)) (hwB.wordExact_slice rfl _ (wordsB k)))
def iterE (c : Dev nD) (k : Fin 30) : Prog (TpuEff nD τ sig (Elt F) Λ₀ .tc) PUnit :=
  Prog.lift (.waitDma2 (xsS k) (rSlY c (k34 k)) (rSlY c (k34 k)) (hwR.wordExact_slice rfl _ (k0_off2_wordsbf16 c (k34 k))) (hwR.wordExact_slice rfl _ (k0_off2_wordsbf16 c (k34 k))))

def seqN (n : ℕ) (f : Fin n → Prog (TpuEff nD τ sig (Elt F) Λ₀ .tc) PUnit) : Prog (TpuEff nD τ sig (Elt F) Λ₀ .tc) PUnit :=
  Fin.foldr n (fun k acc => f k >>= fun _ => acc) (pure ⟨⟩)

def iterB (c : Dev nD) (k : Fin 34) : Prog (TpuEff nD τ sig (Elt F) Λ₀ .tc) PUnit := do
  iterBrecv c k
  if h : k.val < 30 then iterBfwd c ⟨k.val, h⟩ else pure ⟨⟩
  iterBadd c k

def phases (c : Dev nD) : Prog (TpuEff nD τ sig (Elt F) Λ₀ .tc) PUnit := do
  seqN 34 (iterA c)
  seqN 34 (iterB c)
  seqN 30 (fun k => do iterCrecv c k; iterCadd c k)
  seqN 34 (iterD c)
  seqN 30 (iterE c)

def bodyGen : Prog (TpuEff nD τ sig (Elt F) Λ₀ .tc) PUnit := do
  let d0 : Dev nD ← Prog.lift .deviceId
  semSignalWord (⟨k0_dev1 d0, k0_dev1_lt d0⟩ : Dev nD) barS 1#32 hamt_1
  semSignalWord (⟨k0_dev2 d0, k0_dev2_lt d0⟩ : Dev nD) barS 1#32 hamt_1
  semWaitWord barS 2#32 hamt_2
  phases d0

end Cert.Kernel.AR

end
-- ==== Proof.OffIdealBits.lean ====
import proofs.«900712_g7700000000000713_dist_ar_v7x_xyz2x2x4_y_m2048_n512_bf16_1_alg».proof.Proof.Gen.Kernel
import proofs.«900712_g7700000000000713_dist_ar_v7x_xyz2x2x4_y_m2048_n512_bf16_1_alg».proof.Proof.Idx

namespace Cert.Kernel.AR

open Idealize.ShloMosaic
open Cert.Kernel Cert.Kernel.Gen Cert.AR

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)

theorem off1_eq (c : Dev nD) (k : Fin 34) : k0_off1 c (BitVec.ofNat 32 k.val) = ![rowY c k.val, 0] := by
  revert c k
  decide +kernel

theorem off2_eq (c : Dev nD) (k : Fin 34) : k0_off2 c (BitVec.ofNat 32 k.val) = ![rowY c k.val, 0] :=
  off1_eq c k

theorem off3_eq (c : Dev nD) (k : Fin 30) : k0_off3 c (BitVec.ofNat 32 k.val) = ![rowX c k.val, 0] := by
  revert c k
  decide +kernel

end Cert.Kernel.AR
-- ==== Proof.OutDefBits.lean ====
import proofs.«900712_g7700000000000713_dist_ar_v7x_xyz2x2x4_y_m2048_n512_bf16_1_alg».proof.Proof.SchedBits

noncomputable section

namespace Cert.Kernel.AR

open Cert.Kernel Cert.Kernel.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

def inY (c : Dev nD) (r : ℕ) : Prop := if c.val / 8 = 0 then r < 1088 else 960 ≤ r

instance (c : Dev nD) (r : ℕ) : Decidable (inY c r) := by unfold inY; infer_instance

def outG (c : Dev nD) : (cc0_stg1_0 : Ref sig .tc).ty.Contents (Elt F) := fun i =>
  if inY c (i 0).val then Cert.AR.outSpec (xstg m ρ c) (xstg m ρ (yn c)) i else Cert.AR.outSpec (xstg m ρ c) (xstg m ρ (yn (xn c))) i

theorem outG_of_same (c : Dev nD) (h : xstg m ρ (yn (xn c)) = xstg m ρ (yn c)) : outG m ρ c = Cert.AR.outSpec (xstg m ρ c) (xstg m ρ (yn c)) := by
  funext i; unfold outG; rw [h]; split <;> rfl

end Cert.Kernel.AR

end
-- ==== Proof.OutValueBits.lean ====
import proofs.«900712_g7700000000000713_dist_ar_v7x_xyz2x2x4_y_m2048_n512_bf16_1_alg».proof.Proof.OutDefBits
import proofs.«900712_g7700000000000713_dist_ar_v7x_xyz2x2x4_y_m2048_n512_bf16_1_alg».proof.Proof.OffIdealBits

noncomputable section

namespace Cert.Kernel.AR

open Cert.Kernel Cert.Kernel.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

section WholeRect

variable {κ : Kind} {Val : EltTy → Type} (b : Ref sig κ) (r : Rect b.ty.shape)

theorem write_whole_emb (f : b.ty.Contents Val) (w : r.shape.Idx → Val b.ty.elt) (x : r.shape.Idx) :
    ((Memref.whole b).access r : View sig κ _ _ _).write Val f w Finset.univ (r.emb x) = w x :=
  View.write_emb_of_mem (v := ((Memref.whole b).access r : View sig κ _ _ _)) (Val := Val) f w
    (M := Finset.univ) (x := x) (Finset.mem_univ _)

theorem write_whole_of_not_mem (f : b.ty.Contents Val) (w : r.shape.Idx → Val b.ty.elt) {i : b.ty.Idx}
    (hi : i ∉ r.set) : ((Memref.whole b).access r : View sig κ _ _ _).write Val f w Finset.univ i = f i := by
  refine View.write_of_not_mem _ _ _ ?_
  rw [View.setOn_univ, View.set_slice_whole]
  exact hi

end WholeRect

def AgreeOn {ι α : Type} (P : ι → Prop) (f G : ι → α) : Prop := ∀ i, P i → f i = G i

theorem AgreeOn.mono {ι α : Type} {P Q : ι → Prop} {f G : ι → α} (h : AgreeOn P f G) (hQ : ∀ i, Q i → P i) :
    AgreeOn Q f G := fun i hi => h i (hQ i hi)

theorem agree_write {κ : Kind} {Val : EltTy → Type} (b : Ref sig κ) (r : Rect b.ty.shape) {P : b.ty.Idx → Prop}
    {f G : b.ty.Contents Val} (h : AgreeOn P f G) :
    AgreeOn (fun i => P i ∨ i ∈ r.set)
      (((Memref.whole b).access r : View sig κ _ _ _).write Val f
        ((Memref.whole b : Memref sig κ _ _ _).view.readAt Val r.toLoadRect G) Finset.univ) G := by
  intro i hi
  by_cases hm : i ∈ r.set
  · obtain ⟨x, rfl⟩ := r.toLoadRect.exists_idx_of_mem hm
    exact write_whole_emb b r f _ x
  · rw [write_whole_of_not_mem b r f _ hm]
    exact h i (hi.resolve_right hm)

theorem mem_unit_rows {off : Fin 2 → ℕ} {r₀ : ℕ} (hoff : off = ![r₀, 0]) (inb : ∀ a, off a + S32x512.size a ≤ S2048x512.size a)
    (i : S2048x512.Idx) :
    i ∈ (Rect.unit (s := S2048x512) off S32x512.size inb).set ↔ r₀ ≤ (i 0).val ∧ (i 0).val < r₀ + 32 := by
  subst hoff
  rw [Rect.mem_set_unit]
  have h1 : (i 1).val < 512 := (i 1).isLt
  constructor
  · intro h
    have h0 := h 0
    exact ⟨h0.1, h0.2⟩
  · intro h a
    match a with
    | ⟨0, _⟩ => exact ⟨h.1, h.2⟩
    | ⟨1, _⟩ => exact ⟨Nat.zero_le _, by show (i 1).val < 0 + 512; omega⟩

theorem mem_rY (c : Dev nD) (k : Fin 34) (i : S2048x512.Idx) :
    i ∈ (rY c k).set ↔ rowY c k.val ≤ (i 0).val ∧ (i 0).val < rowY c k.val + 32 :=
  mem_unit_rows (off1_eq c k) _ i

theorem mem_rX (c : Dev nD) (k : Fin 30) (i : S2048x512.Idx) :
    i ∈ (rX c k).set ↔ rowX c k.val ≤ (i 0).val ∧ (i 0).val < rowX c k.val + 32 :=
  mem_unit_rows (off3_eq c k) _ i

theorem emb_unit_row {off : Fin 2 → ℕ} {r₀ : ℕ} (hoff : off = ![r₀, 0]) (inb : ∀ a, off a + S32x512.size a ≤ S2048x512.size a)
    (j : S32x512.Idx) : ((Rect.unit (s := S2048x512) off S32x512.size inb).emb j 0).val = r₀ + (j 0).val := by
  subst hoff
  show r₀ + 1 * (j 0).val = r₀ + (j 0).val
  omega

theorem readAt_unit_congr {κ : Kind} {sp : Space} {s : Shape} {e : EltTy} {Val : EltTy → Type} (v : View sig κ sp s e)
    {off off' size : Fin s.rank → ℕ} (h : off = off') (p : ∀ a, off a + size a ≤ s.size a)
    (p' : ∀ a, off' a + size a ≤ s.size a) (f : v.ty.Contents Val) :
    v.readAt Val (Rect.unit off size p).toLoadRect f = v.readAt Val (Rect.unit off' size p').toLoadRect f := by
  subst h; rfl

theorem inY_rowY (c : Dev nD) (k : Fin 34) (j : ℕ) (hj : j < 32) : inY c (rowY c k.val + j) := by
  have hk := k.isLt
  unfold inY
  rcases div8_cases c with h | h
  · rw [if_pos h, rowY_x0 h]; omega
  · rw [if_neg (by omega), rowY_x1 h]; omega

theorem not_inY_rowX (c : Dev nD) (k : Fin 30) (j : ℕ) (hj : j < 32) : ¬ inY c (rowX c k.val + j) := by
  have hk := k.isLt
  unfold inY
  rcases div8_cases c with h | h
  · rw [if_pos h, rowX_x0 h]; omega
  · rw [if_neg (by omega), rowX_x1 h]; omega

-- Where the result is the sum with device `p`'s rows on a block, and `p` sends exactly those rows, the stored sum is the result's block.
theorem blockG (c p : Dev nD) (kp : Fin 34) {off : Fin 2 → ℕ} (inb : ∀ a, off a + S32x512.size a ≤ S2048x512.size a)
    (hoff : k0_off1 p (BitVec.ofNat 32 kp.val) = off) :
    let R := Rect.unit (s := S2048x512) off S32x512.size inb
    (∀ j, outG m ρ c (R.emb j) = Cert.AR.outSpec (xstg m ρ c) (xstg m ρ p) (R.emb j)) →
      P2 (xM.view.readAt (Elt F) R.toLoadRect (xstg m ρ c)) (ydata m ρ p kp) = oM.view.readAt (Elt F) R.toLoadRect (outG m ρ c) := by
  subst hoff
  intro R hG
  exact (Cert.AR.outSpec_block (F := F) (xstg m ρ c) (xstg m ρ p) fun j => R.emb j).symm.trans (funext fun j => (hG j).symm)
theorem blockG_Y (c : Dev nD) (k : Fin 34) :
    P2 (xM.view.readAt (Elt F) (rY c k).toLoadRect (xstg m ρ c)) (ydata m ρ (yn c) k)
      = oM.view.readAt (Elt F) (rY c k).toLoadRect (outG m ρ c) :=
  blockG m ρ c (yn c) k _ (by rw [off1_eq, off1_eq, rowY_yn]) fun j => by
    unfold outG
    rw [if_pos (by rw [emb_unit_row (off1_eq c k) _ j]; exact inY_rowY c k _ (j 0).isLt)]
theorem blockG_X (c : Dev nD) (k : Fin 30) :
    P2 (xM.view.readAt (Elt F) (rX c k).toLoadRect (xstg m ρ c)) (ydata m ρ (yn (xn c)) (k34 k))
      = oM.view.readAt (Elt F) (rX c k).toLoadRect (outG m ρ c) :=
  blockG m ρ c (yn (xn c)) (k34 k) _ (by rw [off1_eq, off3_eq, rowY_yn, rowY_xn]) fun j => by
    unfold outG
    rw [if_neg (by rw [emb_unit_row (off3_eq c k) _ j]; exact not_inY_rowX c k _ (j 0).isLt)]
def Cov (c : Dev nD) (dY : Finset (Fin 34)) (dX : Finset (Fin 30)) (i : (cc0_stg1_0 : Ref sig .tc).ty.Idx) : Prop :=
  (∃ k ∈ dY, i ∈ (rY c k).set) ∨ (∃ k ∈ dX, i ∈ (rX c k).set)

theorem agree_start (c : Dev nD) (f G : (cc0_stg1_0 : Ref sig .tc).ty.Contents (Elt F)) : AgreeOn (Cov c ∅ ∅) f G := by
  intro i hi
  rcases hi with ⟨k, hk, _⟩ | ⟨k, hk, _⟩ <;> exact absurd hk (Finset.notMem_empty k)

theorem agree_write_Y (c : Dev nD) (k : Fin 34) {dY : Finset (Fin 34)} {dX : Finset (Fin 30)}
    {f : (cc0_stg1_0 : Ref sig .tc).ty.Contents (Elt F)} (h : AgreeOn (Cov c dY dX) f (outG m ρ c)) :
    AgreeOn (Cov c (insert k dY) dX)
      ((oM.access (rY c k) : View sig .tc _ _ _).write (Elt F) f
        (P2 (xM.view.readAt (Elt F) (rY c k).toLoadRect (xstg m ρ c)) (ydata m ρ (yn c) k)) Finset.univ)
      (outG m ρ c) := by
  have e := blockG_Y m ρ c k
  rw [e]
  refine (agree_write cc0_stg1_0 (rY c k) h).mono ?_
  intro i hi
  rcases hi with ⟨k', hk', hi⟩ | ⟨k', hk', hi⟩
  · rcases Finset.mem_insert.mp hk' with rfl | hk'
    · exact Or.inr hi
    · exact Or.inl (Or.inl ⟨k', hk', hi⟩)
  · exact Or.inl (Or.inr ⟨k', hk', hi⟩)

theorem agree_write_X (c : Dev nD) (k : Fin 30) {dY : Finset (Fin 34)} {dX : Finset (Fin 30)}
    {f : (cc0_stg1_0 : Ref sig .tc).ty.Contents (Elt F)} (h : AgreeOn (Cov c dY dX) f (outG m ρ c)) :
    AgreeOn (Cov c dY (insert k dX))
      ((oM.access (rX c k) : View sig .tc _ _ _).write (Elt F) f
        (P2 (xM.view.readAt (Elt F) (rX c k).toLoadRect (xstg m ρ c)) (ydata m ρ (yn (xn c)) (k34 k))) Finset.univ)
      (outG m ρ c) := by
  have e := blockG_X m ρ c k
  rw [e]
  refine (agree_write cc0_stg1_0 (rX c k) h).mono ?_
  intro i hi
  rcases hi with ⟨k', hk', hi⟩ | ⟨k', hk', hi⟩
  · exact Or.inl (Or.inl ⟨k', hk', hi⟩)
  · rcases Finset.mem_insert.mp hk' with rfl | hk'
    · exact Or.inr hi
    · exact Or.inl (Or.inr ⟨k', hk', hi⟩)

theorem agree_done (c : Dev nD) {dY : Finset (Fin 34)} {dX : Finset (Fin 30)} (hY : ∀ k, k ∈ dY) (hX : ∀ k, k ∈ dX)
    {f G : (cc0_stg1_0 : Ref sig .tc).ty.Contents (Elt F)} (h : AgreeOn (Cov c dY dX) f G) : f = G := by
  funext i
  refine h i ?_
  have hr : (i 0).val < 2048 := (i 0).isLt
  rcases rows_cover c (i 0).val hr with ⟨k, hk, lo, hi⟩ | ⟨k, hk, lo, hi⟩
  · exact Or.inl ⟨⟨k, hk⟩, hY _, (mem_rY c ⟨k, hk⟩ i).mpr ⟨lo, hi⟩⟩
  · exact Or.inr ⟨⟨k, hk⟩, hX _, (mem_rX c ⟨k, hk⟩ i).mpr ⟨lo, hi⟩⟩

end Cert.Kernel.AR

end
-- ==== Proof.BlocksBits.lean ====
import proofs.«900712_g7700000000000713_dist_ar_v7x_xyz2x2x4_y_m2048_n512_bf16_1_alg».proof.Proof.SchedBits
import proofs.«900712_g7700000000000713_dist_ar_v7x_xyz2x2x4_y_m2048_n512_bf16_1_alg».proof.Proof.OffIdealBits
import proofs.«900712_g7700000000000713_dist_ar_v7x_xyz2x2x4_y_m2048_n512_bf16_1_alg».proof.Proof.OutValueBits
import Idealize.ShloMosaic.Lib.Ring

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem slice_unit_congr {sp : Space} {s : Shape} {e : EltTy} (M : Memref sig .tc sp s e)
    {off off' size : Fin s.rank → ℕ} (h : off = off')
    (p : ∀ a, off a + size a ≤ s.size a) (p' : ∀ a, off' a + size a ≤ s.size a) :
    M.slice (Rect.unit off size p) (fun _ => rfl) = M.slice (Rect.unit off' size p') (fun _ => rfl) := by
  subst h; rfl

theorem rSlY_yn (c : Dev nD) (k : Fin 34) : rSlY (yn c) k = rSlY c k := by
  unfold rSlY
  exact slice_unit_congr rM ((off2_eq (yn c) k).trans ((congrArg (fun r => (![r, 0] : Fin 2 → ℕ)) (rowY_yn c k.val)).trans (off2_eq c k).symm)) _ _

theorem rSlX_xn (c : Dev nD) (k : Fin 30) : rSlX (xn c) k = rSlY c (k34 k) := by
  unfold rSlX rSlY
  exact slice_unit_congr rM ((off3_eq (xn c) k).trans ((congrArg (fun r => (![r, 0] : Fin 2 → ℕ)) (rowX_xn c k.val)).trans (off2_eq c (k34 k)).symm)) _ _

theorem blk_congr {S : Shape} {e : EltTy} (c : Dev nD) (v : Memref sig .tc .vmem S e) (q : PosShare TreeShare)
    (fd fd' : Buf (Elt F) (v.view.loc (c : Thread nD τ))) (d : S.Idx → Elt F e) :
    blkPts c v q (v.view.write (Elt F) fd d Finset.univ) = blkPts c v q (v.view.write (Elt F) fd' d Finset.univ) := by
  refine pointsTo_congr fun i hi => ?_
  obtain ⟨x, -, rfl⟩ := Finset.mem_map.mp hi
  rw [View.write_emb_of_mem _ _ (Finset.mem_univ x), View.write_emb_of_mem _ _ (Finset.mem_univ x)]

theorem blk_halves {S : Shape} {e : EltTy} (c : Dev nD) (v : Memref sig .tc .vmem S e)
    (f : Buf (Elt F) (v.view.loc (c : Thread nD τ))) :
    blkPts c v fullShare f ⊣⊢ iprop(blkPts c v fullShare.left f ∗ blkPts c v fullShare.right f) :=
  pointsTo_share (PosShare.mem_left_op_right fullShare)

theorem blk_read_landed {S : Shape} {e : EltTy} (c : Dev nD) (v : Memref sig .tc .vmem S e)
    (fd : Buf (Elt F) (v.view.loc (c : Thread nD τ))) (d : S.Idx → Elt F e) :
    v.view.read (Elt F) (v.view.write (Elt F) fd d Finset.univ) = d :=
  View.read_write_univ (v := v.view) fd d

theorem set_rSlY (c : Dev nD) (k : Fin 34) : (rSlY c k).view.set = (rY2 c k).set :=
  View.set_slice_whole cc0_scratch1 _

theorem set_rSlX (c : Dev nD) (k : Fin 30) : (rSlX c k).view.set = (rX c k).set :=
  View.set_slice_whole cc0_scratch1 _

theorem mem_rectY (c : Dev nD) (k : Fin 34) (i : S2048x512.Idx) :
    i ∈ (rY2 c k).set ↔ rowY c k.val ≤ (i 0).val ∧ (i 0).val < rowY c k.val + 32 :=
  mem_unit_rows (off2_eq c k) _ i

theorem rectY_disjoint (c : Dev nD) (k k' : Fin 34) (h : k ≠ k') : Disjoint (rY2 c k).set (rY2 c k').set := by
  refine Finset.disjoint_left.mpr fun i hi hi' => ?_
  rw [mem_rectY] at hi hi'
  have := rowY_disj c k.val k'.val k.isLt k'.isLt (fun e => h (Fin.ext e))
  omega

theorem rectX_disjoint (c : Dev nD) (k k' : Fin 30) (h : k ≠ k') : Disjoint (rX c k).set (rX c k').set := by
  refine Finset.disjoint_left.mpr fun i hi hi' => ?_
  rw [mem_rX] at hi hi'
  have := rowX_disj c k.val k'.val k.isLt k'.isLt (fun e => h (Fin.ext e))
  omega

theorem rectY_rectX_disjoint (c : Dev nD) (k : Fin 34) (k' : Fin 30) : Disjoint (rY2 c k).set (rX c k').set := by
  refine Finset.disjoint_left.mpr fun i hi hi' => ?_
  rw [mem_rectY] at hi
  rw [mem_rX] at hi'
  have := rowY_rowX_disj c k.val k'.val k.isLt k'.isLt
  omega

theorem rect_cover (c : Dev nD) :
    (Finset.univ.biUnion fun k : Fin 34 => (rY2 c k).set) ∪ (Finset.univ.biUnion fun k : Fin 30 => (rX c k).set)
      = (Finset.univ : Finset S2048x512.Idx) := by
  refine Finset.eq_univ_iff_forall.mpr fun i => ?_
  have hi : (i 0).val < 2048 := (i 0).isLt
  rcases rows_cover c (i 0).val hi with ⟨k, hk, h1, h2⟩ | ⟨k, hk, h1, h2⟩
  · exact Finset.mem_union_left _ (Finset.mem_biUnion.mpr ⟨⟨k, hk⟩, Finset.mem_univ _, (mem_rectY c ⟨k, hk⟩ i).mpr ⟨h1, h2⟩⟩)
  · exact Finset.mem_union_right _ (Finset.mem_biUnion.mpr ⟨⟨k, hk⟩, Finset.mem_univ _, (mem_rX c ⟨k, hk⟩ i).mpr ⟨h1, h2⟩⟩)

theorem rM_split (c : Dev nD) (f : Buf (Elt F) ((c : Thread nD τ).loc cc0_scratch1)) :
    (((c : Thread nD τ).loc cc0_scratch1) ↦{fullShare} f : sProp 𝕄) ⊣⊢
      iprop((bigSep (Finset.univ : Finset (Fin 34)) fun k => blkPts c (rSlY c k) fullShare f) ∗
        (bigSep (Finset.univ : Finset (Fin 30)) fun k => blkPts c (rSlX c k) fullShare f)) := by
  have hY : (((c : Thread nD τ).loc cc0_scratch1) ↦[Finset.univ.biUnion fun k : Fin 34 => (rY2 c k).set]{fullShare} f : sProp 𝕄)
      = bigSep (Finset.univ : Finset (Fin 34)) fun k => blkPts c (rSlY c k) fullShare f := by
    rw [pointsTo_biUnion Finset.univ _ fun k _ k' _ h => rectY_disjoint c k k' h]
    exact bigSep_congr fun k _ => by unfold blkPts; rw [set_rSlY]; rfl
  have hX : (((c : Thread nD τ).loc cc0_scratch1) ↦[Finset.univ.biUnion fun k : Fin 30 => (rX c k).set]{fullShare} f : sProp 𝕄)
      = bigSep (Finset.univ : Finset (Fin 30)) fun k => blkPts c (rSlX c k) fullShare f := by
    rw [pointsTo_biUnion Finset.univ _ fun k _ k' _ h => rectX_disjoint c k k' h]
    exact bigSep_congr fun k _ => by unfold blkPts; rw [set_rSlX]; rfl
  have hD : Disjoint (Finset.univ.biUnion fun k : Fin 34 => (rY2 c k).set) (Finset.univ.biUnion fun k : Fin 30 => (rX c k).set) :=
    (Finset.disjoint_biUnion_left _ _ _).mpr fun k _ => (Finset.disjoint_biUnion_right _ _ _).mpr fun k' _ => rectY_rectX_disjoint c k k'
  rw [← hY, ← hX]
  have hU := pointsTo_union (nD := nD) (τ := τ) (sig := sig) (Ix := Unit) (Val := Elt F) (Name := ℕ) (U := UU) (Lvl := ℕ)
    (ℓ := (c : Thread nD τ).loc cc0_scratch1) (q := fullShare) (f := f) hD
  rw [rect_cover c] at hU
  exact hU

theorem set_bSl (k : Fin 34) : (bSl k).view.set = (rB k).set :=
  View.set_slice_whole cc0_scratch0 _

theorem mem_rectB (k : Fin 34) (i : S1088x512.Idx) :
    i ∈ (rB k).set ↔ 32 * k.val ≤ (i 0).val ∧ (i 0).val < 32 * k.val + 32 := by
  have h1 : (i 1).val < 512 := (i 1).isLt
  rw [Rect.mem_set_unit, Fin.forall_fin_two]
  simp only [Matrix.cons_val_zero, Matrix.cons_val_one, Shape.size]
  omega

theorem rectB_disjoint (k k' : Fin 34) (h : k ≠ k') : Disjoint (rB k).set (rB k').set := by
  refine Finset.disjoint_left.mpr fun i hi hi' => ?_
  rw [mem_rectB] at hi hi'
  have : k.val ≠ k'.val := fun e => h (Fin.ext e)
  omega

theorem rectB_cover :
    (Finset.univ.biUnion fun k : Fin 34 => (rB k).set) = (Finset.univ : Finset S1088x512.Idx) := by
  refine Finset.eq_univ_iff_forall.mpr fun i => ?_
  have hi : (i 0).val < 1088 := (i 0).isLt
  have hk : (i 0).val / 32 < 34 := by omega
  exact Finset.mem_biUnion.mpr ⟨⟨(i 0).val / 32, hk⟩, Finset.mem_univ _,
    (mem_rectB ⟨(i 0).val / 32, hk⟩ i).mpr ⟨by show 32 * ((i 0).val / 32) ≤ _; omega, by show _ < 32 * ((i 0).val / 32) + 32; omega⟩⟩

theorem bM_split (c : Dev nD) (f : Buf (Elt F) ((c : Thread nD τ).loc cc0_scratch0)) :
    (((c : Thread nD τ).loc cc0_scratch0) ↦{fullShare} f : sProp 𝕄) ⊣⊢
      bigSep (Finset.univ : Finset (Fin 34)) fun k => blkPts c (bSl k) fullShare f := by
  have hB : (((c : Thread nD τ).loc cc0_scratch0) ↦[Finset.univ.biUnion fun k : Fin 34 => (rB k).set]{fullShare} f : sProp 𝕄)
      = bigSep (Finset.univ : Finset (Fin 34)) fun k => blkPts c (bSl k) fullShare f := by
    rw [pointsTo_biUnion Finset.univ _ fun k _ k' _ h => rectB_disjoint k k' h]
    exact bigSep_congr fun k _ => by unfold blkPts; rw [set_bSl]; rfl
  rw [rectB_cover] at hB
  exact ⟨Entails.of_eq hB, Entails.of_eq hB.symm⟩

end Cert.Kernel.AR

end
-- ==== Proof.TablesBits.lean ====
import proofs.«900712_g7700000000000713_dist_ar_v7x_xyz2x2x4_y_m2048_n512_bf16_1_alg».proof.Proof.SchedBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem duties_bar : (arRd (F := F) m ρ).duties (barCell c) 0 = Finset.univ := by
  dsimp only [arRd]; rw [if_pos ⟨rfl, rfl⟩]; rfl
theorem duties_ys (k : Fin 34) : (arRd (F := F) m ρ).duties (ysCell c k) 0 = {false} := by
  dsimp only [arRd]; rw [if_pos ⟨rfl, rfl⟩, kind_ys]
theorem duties_yr (k : Fin 34) : (arRd (F := F) m ρ).duties (yrCell c k) 0 = {false} := by
  dsimp only [arRd]; rw [if_pos ⟨rfl, rfl⟩, kind_yr]
theorem duties_xs (k : Fin 30) : (arRd (F := F) m ρ).duties (xsCell c k) 0 = {false} := by
  dsimp only [arRd]; rw [if_pos ⟨rfl, rfl⟩, kind_xs]
theorem duties_xr (k : Fin 30) : (arRd (F := F) m ρ).duties (xrCell c k) 0 = {false} := by
  dsimp only [arRd]; rw [if_pos ⟨rfl, rfl⟩, kind_xr]
theorem duties_later (g : GSem nD τ sig) : ∀ r, 1 ≤ r → (arRd (F := F) m ρ).duties g r = ∅ :=
  fun r hr => by dsimp only [arRd]; rw [if_neg fun h => by omega]

theorem amount_bar (d : Bool) : (arRd (F := F) m ρ).amount (barCell c) 0 d = 1 := by dsimp only [arRd]; exact if_pos rfl
theorem amount_dma (s : DmaSem sig) (r : ℕ) (d : Bool) : (arRd (F := F) m ρ).amount ((c : Thread nD τ), .dma s) r d = N := by
  dsimp only [arRd]; exact if_neg (fun h => by cases h)

theorem expect_bar : (arRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_ys (k : Fin 34) : (arRd (F := F) m ρ).expect (ysCell c k) 0 = N := by
  unfold Schedule.expect Schedule.amountOf; rw [duties_ys, Finset.sum_singleton, amount_dma]
theorem expect_yr (k : Fin 34) : (arRd (F := F) m ρ).expect (yrCell c k) 0 = N := by
  unfold Schedule.expect Schedule.amountOf; rw [duties_yr, Finset.sum_singleton, amount_dma]
theorem expect_xs (k : Fin 30) : (arRd (F := F) m ρ).expect (xsCell c k) 0 = N := by
  unfold Schedule.expect Schedule.amountOf; rw [duties_xs, Finset.sum_singleton, amount_dma]
theorem expect_xr (k : Fin 30) : (arRd (F := F) m ρ).expect (xrCell c k) 0 = N := by
  unfold Schedule.expect Schedule.amountOf; rw [duties_xr, Finset.sum_singleton, amount_dma]

theorem payload_bar_false : (arRd (F := F) m ρ).payload (barCell c) 0 false = barPayY c := by
  dsimp only [arRd]; rfl
theorem payload_bar_true : (arRd (F := F) m ρ).payload (barCell c) 0 true = barPayX c := by
  dsimp only [arRd]; rfl
theorem payload_ys (k : Fin 34) (d : Bool) : (arRd (F := F) m ρ).payload (ysCell c k) 0 d = ysPay c k := by
  dsimp only [arRd]; rw [kind_ys]
theorem payload_yr (k : Fin 34) (d : Bool) : (arRd (F := F) m ρ).payload (yrCell c k) 0 d = yrPay m ρ c k := by
  dsimp only [arRd]; rw [kind_yr]
theorem payload_xs (k : Fin 30) (d : Bool) : (arRd (F := F) m ρ).payload (xsCell c k) 0 d = xsPay m ρ c k := by
  dsimp only [arRd]; rw [kind_xs]
theorem payload_xr (k : Fin 30) (d : Bool) : (arRd (F := F) m ρ).payload (xrCell c k) 0 d = xrPay m ρ c k := by
  dsimp only [arRd]; rw [kind_xr]

theorem rest_bar : bigSep ((arRd (F := F) m ρ).duties (barCell c) 0 \ ∅) (fun d => (arRd (F := F) m ρ).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_ys (k : Fin 34) : bigSep ((arRd (F := F) m ρ).duties (ysCell c k) 0 \ ∅) (fun d => (arRd (F := F) m ρ).payload (ysCell c k) 0 d) = ysPay c k := by
  rw [Finset.sdiff_empty, duties_ys, bigSep_singleton, payload_ys]
theorem rest_yr (k : Fin 34) : bigSep ((arRd (F := F) m ρ).duties (yrCell c k) 0 \ ∅) (fun d => (arRd (F := F) m ρ).payload (yrCell c k) 0 d) = yrPay m ρ c k := by
  rw [Finset.sdiff_empty, duties_yr, bigSep_singleton, payload_yr]
theorem rest_xs (k : Fin 30) : bigSep ((arRd (F := F) m ρ).duties (xsCell c k) 0 \ ∅) (fun d => (arRd (F := F) m ρ).payload (xsCell c k) 0 d) = xsPay m ρ c k := by
  rw [Finset.sdiff_empty, duties_xs, bigSep_singleton, payload_xs]
theorem rest_xr (k : Fin 30) : bigSep ((arRd (F := F) m ρ).duties (xrCell c k) 0 \ ∅) (fun d => (arRd (F := F) m ρ).payload (xrCell c k) 0 d) = xrPay m ρ c k := by
  rw [Finset.sdiff_empty, duties_xr, bigSep_singleton, payload_xr]

end Tables

end Cert.Kernel.AR

end
-- ==== Proof.DataBits.lean ====
import proofs.«900712_g7700000000000713_dist_ar_v7x_xyz2x2x4_y_m2048_n512_bf16_1_alg».proof.Proof.TablesBits
import proofs.«900712_g7700000000000713_dist_ar_v7x_xyz2x2x4_y_m2048_n512_bf16_1_alg».proof.Proof.OutDefBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def oweY (c : Dev nD) (n : ℕ) : CellTallies nD τ sig Unit :=
  ∑ k ∈ (Finset.univ : Finset (Fin 34)).filter (fun k => n ≤ k.val), tallyAt (yrCell (yn c) k) () N
def oweX (c : Dev nD) (n : ℕ) : CellTallies nD τ sig Unit :=
  ∑ k ∈ (Finset.univ : Finset (Fin 30)).filter (fun k => n ≤ k.val), tallyAt (xrCell (xn c) k) () N

/-- Splitting the least index off a sum over the indices from `k` on. -/
theorem sum_from_succ {n : ℕ} {A : Type*} [AddCommMonoid A] (f : Fin n → A) (k : Fin n) :
    ∑ j ∈ Finset.univ.filter (fun j => k.val ≤ j.val), f j = ∑ j ∈ Finset.univ.filter (fun j => k.val + 1 ≤ j.val), f j + f k := by
  rw [show (Finset.univ.filter fun j : Fin n => k.val ≤ j.val) = insert k (Finset.univ.filter fun j => k.val + 1 ≤ j.val) from by
    ext j; simp only [Finset.mem_filter, Finset.mem_univ, true_and, Finset.mem_insert, Fin.ext_iff]; omega,
    Finset.sum_insert (by simp), add_comm]
theorem oweY_succ (c : Dev nD) (k : Fin 34) : oweY c k.val = oweY c (k.val + 1) + tallyAt (yrCell (yn c) k) () N := sum_from_succ _ k
theorem oweX_succ (c : Dev nD) (k : Fin 30) : oweX c k.val = oweX c (k.val + 1) + tallyAt (xrCell (xn c) k) () N := sum_from_succ _ k
theorem oweY_end (c : Dev nD) : oweY c 34 = 0 := by
  unfold oweY; rw [Finset.filter_false_of_mem (fun k _ => by have := k.isLt; omega), Finset.sum_empty]

def O₂ (c : Dev nD) : CellTallies nD τ sig Unit := oweX c 0 + oweY c 0
def O₁ (c : Dev nD) : CellTallies nD τ sig Unit := O₂ c + tallyAt (barCell (xn c)) () 1
def O₀ (c : Dev nD) : CellTallies nD τ sig Unit := O₁ c + tallyAt (barCell (yn c)) () 1

def L (g : GSem nD τ sig) : Finset Unit := if g.1.2 = .tc then {()} else ∅
def lv (g : GSem nD τ sig) (_ : Unit) : ℕ := match kind g.2 with | .bar => 1 | .yr _ => 2 | .xr _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

def records (K : GSem nD τ sig → ℕ) : sProp 𝕄 :=
  iprop(bigSep (Finset.univ : Finset (Dev nD)) fun c =>
    iprop((cellInv ER (arRd m ρ) (K (barCell c)) (barCell c) ∗ reached ER (barCell c) 0)
      ∗ (bigSep (Finset.univ : Finset (Fin 34)) fun k => iprop((cellInv ER (arRd m ρ) (K (ysCell c k)) (ysCell c k) ∗ reached ER (ysCell c k) 0)
            ∗ (cellInv ER (arRd m ρ) (K (yrCell c k)) (yrCell c k) ∗ reached ER (yrCell c k) 0)))
      ∗ (bigSep (Finset.univ : Finset (Fin 30)) fun k => iprop((cellInv ER (arRd m ρ) (K (xsCell c k)) (xsCell c k) ∗ reached ER (xsCell c k) 0)
            ∗ (cellInv ER (arRd m ρ) (K (xrCell c k)) (xrCell c k) ∗ reached ER (xrCell c k) 0)))))

instance records_persistent (K : GSem nD τ sig → ℕ) : BI.Persistent (records m ρ K) := by unfold records; infer_instance

def payToks (c : Dev nD) : sProp 𝕄 :=
  iprop(dutyTok ER (barCell (yn c)) 0 false ∗ dutyTok ER (barCell (xn c)) 0 true
    ∗ (bigSep (Finset.univ : Finset (Fin 34)) fun k => iprop(dutyTok ER (ysCell c k) 0 false ∗ dutyTok ER (yrCell (yn c) k) 0 false))
    ∗ (bigSep (Finset.univ : Finset (Fin 30)) fun k => iprop(dutyTok ER (xsCell c k) 0 false ∗ dutyTok ER (xrCell (xn c) k) 0 false)))

def positions (c : Dev nD) : sProp 𝕄 :=
  iprop(atPos ER (barCell c) 0 ∅ 0
    ∗ (bigSep (Finset.univ : Finset (Fin 34)) fun k => iprop(atPos ER (ysCell c k) 0 ∅ 0 ∗ atPos ER (yrCell c k) 0 ∅ 0))
    ∗ (bigSep (Finset.univ : Finset (Fin 30)) fun k => iprop(atPos ER (xsCell c k) 0 ∅ 0 ∗ atPos ER (xrCell c k) 0 ∅ 0)))

def ghost (K : GSem nD τ sig → ℕ) (c : Dev nD) : sProp 𝕄 := iprop(records m ρ K ∗ positions c ∗ payToks c)

def creds (c : Dev nD) : sProp 𝕄 :=
  iprop(cred (tallyAt (barCell c) () 2)
    ∗ (bigSep (Finset.univ : Finset (Fin 34)) fun k => cred (tallyAt (yrCell c k) () N))
    ∗ (bigSep (Finset.univ : Finset (Fin 30)) fun k => cred (tallyAt (xrCell c k) () N)))

def start (c : Dev nD) : sProp 𝕄 := iprop((∃ K, ghost m ρ K c) ∗ creds c ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep (Finset.univ : Finset (Fin 34)) fun k => iprop(semVal (ysCell c k) 0 ∗ semVal (yrCell c k) 0))
    ∗ (bigSep (Finset.univ : Finset (Fin 30)) fun k => iprop(semVal (xsCell c k) 0 ∗ semVal (xrCell c k) 0)))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev outAt (c : Dev nD) : (cc0_stg1_0 : Ref sig .tc).ty.Contents (Elt F) := outG m ρ c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m ρ K c ∗ creds c ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.Kernel.AR

end
-- ==== Proof.LevelsBits.lean ====
import proofs.«900712_g7700000000000713_dist_ar_v7x_xyz2x2x4_y_m2048_n512_bf16_1_alg».proof.Proof.DataBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- Everything owed in `O` is owed at a level strictly above `n`. -/
def Above (n : ℕ) (O : CellTallies nD τ sig Unit) : Prop := ∀ g u, 0 < O g u → u ∈ L g ∧ n < lv g u

def lvK : CK → ℕ | .bar => 1 | .yr _ => 2 | .xr _ => 3 | _ => 0

theorem lv_of {t : Thread nD τ} {s : SemLoc sig} {K : CK} (h : kind s = K) (u : Unit) : lv (t, s) u = lvK K := by
  subst h; rfl

theorem Above.tally {d : Dev nD} {s : SemLoc sig} {K : CK} (hK : kind s = K) {n a : ℕ}
    (h : n < lvK K) : Above n (tallyAt ((d : Thread nD τ), s) () a) := fun g u hg => by
  rw [tallyAt_apply] at hg
  by_cases e : g = ((d : Thread nD τ), s) ∧ u = ()
  · rw [e.1, L_tc, lv_of hK]; exact ⟨Finset.mem_singleton_self _, h⟩
  · rw [if_neg e] at hg; exact absurd hg (Nat.lt_irrefl 0)

theorem Above.add {n : ℕ} {A B : CellTallies nD τ sig Unit} (hA : Above n A) (hB : Above n B) : Above n (A + B) :=
  fun g u h => (Pipeline.add_pos_cases h).elim (hA g u) (hB g u)

theorem Above.sum {n : ℕ} {α : Type} {S : Finset α} {f : α → CellTallies nD τ sig Unit} (h : ∀ k, Above n (f k)) : Above n (∑ k ∈ S, f k) :=
  fun g u hg => by obtain ⟨k, -, hk⟩ := Pipeline.sum_pos_exists hg; exact h k g u hk

theorem above_oweX (c : Dev nD) (a : ℕ) {n : ℕ} (h : n < 3) : Above n (oweX c a) := .sum fun k => .tally (kind_xr k) h
theorem above_oweY (c : Dev nD) (a : ℕ) {n : ℕ} (h : n < 2) : Above n (oweY c a) := .sum fun k => .tally (kind_yr k) h
theorem above_O₂ (c : Dev nD) {n : ℕ} (h : n < 2) : Above n (O₂ c) := .add (above_oweX c 0 (h.trans (by decide))) (above_oweY c 0 h)
theorem above_O₀ (c : Dev nD) : Above 0 (O₀ c) :=
  .add (.add (above_O₂ c (by decide)) (.tally kind_bar (by decide))) (.tally kind_bar (by decide))

/-- A device may wait on a cell of level at most `n` while all it owes lies above `n`. -/
theorem mayWait_of {c : Dev nD} {s : SemLoc sig} {K : CK} (hK : kind s = K) {O : CellTallies nD τ sig Unit} {n : ℕ}
    (hn : lvK K ≤ n) (hO : Above n O) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact (lv_of hK _).le.trans hn)
    (fun g u hg => (hO g u hg).2)

theorem mayWait_bar (c : Dev nD) : (levAts L lv : sProp 𝕄) ⊢ MayWait (c : Thread nD τ) (.reg barS) () (O₂ c) :=
  mayWait_of kind_bar (le_refl 1) (above_O₂ c (by decide))

theorem mayWait_yr (c : Dev nD) (k : Fin 34) (n : ℕ) : (levAts L lv : sProp 𝕄) ⊢ MayWait (c : Thread nD τ) (.dma (yrS k)) () (oweX c n) :=
  mayWait_of (kind_yr k) (le_refl 2) (above_oweX c n (by decide))

theorem mayWait_stage (c : Dev nD) (q : DmaSem sig) (hq : kind (.dma q) = .other ∨ (∃ k, q = ysS k) ∨ (∃ k, q = xsS k))
    (O : CellTallies nD τ sig Unit) (hO : O = O₀ c ∨ O = 0) :
    (levAts L lv : sProp 𝕄) ⊢ MayWait (c : Thread nD τ) (.dma q) () O := by
  rcases hO with rfl | rfl
  · rcases hq with h | ⟨k, rfl⟩ | ⟨k, rfl⟩
    exacts [mayWait_of h (le_refl 0) (above_O₀ c), mayWait_of (kind_ys k) (le_refl 0) (above_O₀ c), mayWait_of (kind_xs k) (le_refl 0) (above_O₀ c)]
  · rw [MayWait_zero]; iintro -; iempintro

end Cert.Kernel.AR

end
-- ==== Proof.RecBits.lean ====
import proofs.«900712_g7700000000000713_dist_ar_v7x_xyz2x2x4_y_m2048_n512_bf16_1_alg».proof.Proof.DataBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem fst {P Q : sProp 𝕄} : iprop(P ∗ Q) ⊢ P := by iintro ⟨H, -⟩; iexact H
theorem snd {P Q : sProp 𝕄} : iprop(P ∗ Q) ⊢ Q := by iintro ⟨-, H⟩; iexact H

theorem rec_bar (K : GSem nD τ sig → ℕ) (c' : Dev nD) :
    records m ρ K ⊢ iprop(cellInv ER (arRd m ρ) (K (barCell c')) (barCell c') ∗ reached ER (barCell c') 0) :=
  (bigSep_elim (Finset.mem_univ c')).trans fst
theorem rec_ys (K : GSem nD τ sig → ℕ) (c' : Dev nD) (k : Fin 34) :
    records m ρ K ⊢ iprop(cellInv ER (arRd m ρ) (K (ysCell c' k)) (ysCell c' k) ∗ reached ER (ysCell c' k) 0) :=
  (bigSep_elim (Finset.mem_univ c')).trans <| snd.trans <| fst.trans <| (bigSep_elim (Finset.mem_univ k)).trans fst
theorem rec_yr (K : GSem nD τ sig → ℕ) (c' : Dev nD) (k : Fin 34) :
    records m ρ K ⊢ iprop(cellInv ER (arRd m ρ) (K (yrCell c' k)) (yrCell c' k) ∗ reached ER (yrCell c' k) 0) :=
  (bigSep_elim (Finset.mem_univ c')).trans <| snd.trans <| fst.trans <| (bigSep_elim (Finset.mem_univ k)).trans snd
theorem rec_xs (K : GSem nD τ sig → ℕ) (c' : Dev nD) (k : Fin 30) :
    records m ρ K ⊢ iprop(cellInv ER (arRd m ρ) (K (xsCell c' k)) (xsCell c' k) ∗ reached ER (xsCell c' k) 0) :=
  (bigSep_elim (Finset.mem_univ c')).trans <| snd.trans <| snd.trans <| (bigSep_elim (Finset.mem_univ k)).trans fst
theorem rec_xr (K : GSem nD τ sig → ℕ) (c' : Dev nD) (k : Fin 30) :
    records m ρ K ⊢ iprop(cellInv ER (arRd m ρ) (K (xrCell c' k)) (xrCell c' k) ∗ reached ER (xrCell c' k) 0) :=
  (bigSep_elim (Finset.mem_univ c')).trans <| snd.trans <| snd.trans <| (bigSep_elim (Finset.mem_univ k)).trans snd

end Cert.Kernel.AR

end
-- ==== Proof.StepsBits.lean ====
import proofs.«900712_g7700000000000713_dist_ar_v7x_xyz2x2x4_y_m2048_n512_bf16_1_alg».proof.Proof.BlocksBits
import proofs.«900712_g7700000000000713_dist_ar_v7x_xyz2x2x4_y_m2048_n512_bf16_1_alg».proof.Proof.TablesBits
import proofs.«900712_g7700000000000713_dist_ar_v7x_xyz2x2x4_y_m2048_n512_bf16_1_alg».proof.Proof.LevelsBits
import proofs.«900712_g7700000000000713_dist_ar_v7x_xyz2x2x4_y_m2048_n512_bf16_1_alg».proof.Proof.RecBits

noncomputable section

namespace Cert.Kernel.AR

open Cert.Kernel Cert.Kernel.Gen Cert.AR

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem credY (c : Dev nD) (k : Fin 34) : (rSlY c k).view.dmaCredit = N := rfl

-- What a write through a view leaves under it does not depend on what lay there before, nor on how the view is spelt.
theorem blk_write_congr {S : Shape} {e : EltTy} (c : Dev nD) (v v' : Memref sig .tc .vmem S e) (h : v = v') (q : PosShare TreeShare)
    (fd : Buf (Elt F) (v.view.loc (c : Thread nD τ))) (fd' : Buf (Elt F) (v'.view.loc (c : Thread nD τ))) (d : S.Idx → Elt F e) :
    blkPts c v q (v.view.write (Elt F) fd d Finset.univ) = blkPts c v' q (v'.view.write (Elt F) fd' d Finset.univ) := by
  subst h; exact blk_congr c v q fd fd' d

-- A copy of a block to a neighbour pays two duties: the sender's send cell holds the source lent, the neighbour's receive cell the landing block written.
theorem wp_sendBlk (K : GSem nD τ sig → ℕ) (c n c' : Dev nD) (hn : n = c') (sS sR : DmaSem sig) (src dst : Memref sig .tc .vmem S32x512 .bf16)
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {cont : PUnit → Prog (TpuEff nD τ sig (Elt F) Λ₀ .tc) α}
    (q : PosShare TreeShare) (fs : Buf (Elt F) (src.view.loc (c : Thread nD τ))) (fd : Buf (Elt F) (dst.view.loc (c' : Thread nD τ)))
    (O : CellTallies nD τ sig Unit) (W : Waits sig Unit)
    (hS : (arRd (F := F) m ρ).duties ((c : Thread nD τ), .dma sS) 0 = {false}) (hR : (arRd (F := F) m ρ).duties ((c' : Thread nD τ), .dma sR) 0 = {false})
    (hN : dst.view.amount (.dma sR) = N)
    (hpS : (blkPts c src q fs : sProp 𝕄) ⊢ (arRd (F := F) m ρ).payload ((c : Thread nD τ), .dma sS) 0 false)
    (hpR : (blkPts c' dst fullShare (dst.view.write (Elt F) fd (src.view.read (Elt F) fs) Finset.univ) : sProp 𝕄) ⊢ (arRd (F := F) m ρ).payload ((c' : Thread nD τ), .dma sR) 0 false) :
    iprop(cellInv ER (arRd m ρ) (K ((c : Thread nD τ), .dma sS)) ((c : Thread nD τ), .dma sS) ∗ cellInv ER (arRd m ρ) (K ((c' : Thread nD τ), .dma sR)) ((c' : Thread nD τ), .dma sR)
        ∗ blkPts c src q fs ∗ blkPts c' dst fullShare fd
        ∗ owes (c : Thread nD τ) (O + tallyAt ((c' : Thread nD τ), .dma sR) () N) W
        ∗ dutyTok ER ((c : Thread nD τ), .dma sS) 0 false ∗ reached ER ((c : Thread nD τ), .dma sS) 0
        ∗ dutyTok ER ((c' : Thread nD τ), .dma sR) 0 false ∗ reached ER ((c' : Thread nD τ), .dma sR) 0)
      ⊢ iprop(((cred (tallyAt ((c : Thread nD τ), .dma sS) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) cont) Q) := by
  subst hn
  exact Rounds.wp_send_pointsTo 𝒱₀ ER (arRd m ρ) (c : Thread nD τ) none
    (c' := (n : Thread nD τ)) (src := src) (dst := dst) (sS := .dma sS) (sem := .dma sR) (q := q) (fs := fs) (fd := fd)
    (κ₁ := K ((c : Thread nD τ), .dma sS)) (κ₂ := K ((n : Thread nD τ), .dma sR)) (r₁ := 0) (r₂ := 0) (d₁ := false) (d₂ := false)
    (by rw [hS]; exact Finset.mem_singleton_self _) (by rw [hR]; exact Finset.mem_singleton_self _)
    () () N hN (amount_dma m ρ c sS 0 false) (amount_dma m ρ n sR 0 false) O rfl (W := W) hpS hpR

-- A device's own cells have one round of one block's credit: a wait for that credit ends the round and hands over its payloads.
theorem wp_waitCell (K : GSem nD τ sig → ℕ) (c : Dev nD) (s : DmaSem sig) (O : CellTallies nD τ sig Unit) (W : Waits sig Unit)
    {sp' : Space} {s' : Shape} {e' : EltTy} {src : Memref sig .tc sp' s' e'} {dst : Memref sig .tc .vmem S32x512 .bf16}
    {hs : src.view.WordExact} {hd : dst.view.WordExact}
    {α : Type} {Q : α → sProp 𝕄} {cont : PUnit → Prog (TpuEff nD τ sig (Elt F) Λ₀ .tc) α}
    (hcr : dst.view.dmaCredit = N) (hex : (arRd (F := F) m ρ).expect ((c : Thread nD τ), .dma s) 0 = N) :
    iprop(cellInv ER (arRd m ρ) (K ((c : Thread nD τ), .dma s)) ((c : Thread nD τ), .dma s) ∗ cred (tallyAt ((c : Thread nD τ), .dma s) () N) ∗ owes (c : Thread nD τ) O W
        ∗ MayWait (c : Thread nD τ) (.dma s) () O ∗ atPos ER ((c : Thread nD τ), .dma s) 0 ∅ 0)
      ⊢ iprop(((owes (c : Thread nD τ) O (insert (SemLoc.dma s, ()) W) ∗ atPos ER ((c : Thread nD τ), .dma s) 1 ∅ 0 ∗ reached ER ((c : Thread nD τ), .dma s) 1
              ∗ bigSep ((arRd (F := F) m ρ).duties ((c : Thread nD τ), .dma s) 0 \ ∅) (fun d => (arRd (F := F) m ρ).payload ((c : Thread nD τ), .dma s) 0 d))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s src dst hs hd) cont) Q) := by
  have h := Rounds.wp_wait_rest_token (defs := defs₀ (F := F)) 𝒱₀ ER (arRd m ρ) (c : Thread nD τ) none (κ := K ((c : Thread nD τ), .dma s))
    (w := .waitDma2 s src dst hs hd) (sm := .dma s) (k' := dst.view.dmaCredit) (Q := Q) (k := cont)
    (wpE_waitDma2_eq (defs := defs₀ (F := F)) 𝒱₀ (c : Thread nD τ) none Set.univ) (Set.mem_univ _) () (O := O) (W := W) (R := 0) (m := 0) (T := ∅)
    (by rw [Nat.zero_add, hcr, hex])
  rw [hcr] at h
  exact h

end Cert.Kernel.AR

end
-- ==== Proof.BlockFactsBits.lean ====
import proofs.«900712_g7700000000000713_dist_ar_v7x_xyz2x2x4_y_m2048_n512_bf16_1_alg».proof.Proof.OutValueBits
import proofs.«900712_g7700000000000713_dist_ar_v7x_xyz2x2x4_y_m2048_n512_bf16_1_alg».proof.Proof.TablesBits

noncomputable section

namespace Cert.Kernel.AR

open Cert.Kernel Cert.Kernel.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

theorem off1_eq_off2 (c : Dev nD) (k : Fin 34) : k0_off1 c (BitVec.ofNat 32 k.val) = k0_off2 c (BitVec.ofNat 32 k.val) := by
  rw [off1_eq, off2_eq]

theorem rY_eq_rY2 (c : Dev nD) (k : Fin 34) : rY c k = rY2 c k := Rect.unit_congr (off1_eq_off2 c k) _ _

theorem bSl_load_sub (c : Dev nD) (k : Fin 34) : bM.view.setOn (rB k).toLoadRect.set ⊆ (bSl k).view.set :=
  (View.set_slice bM.view (rB k)).ge

theorem bSl_store_sub (c : Dev nD) (k : Fin 34) :
    (bM.access (rB k) : View sig .tc _ _ _).setOn Finset.univ ⊆ (bSl k).view.set :=
  Finset.Subset.refl _

theorem bSl_read_store (c : Dev nD) (k : Fin 34) (f : (bSl k).view.ty.Contents (Elt F)) (w : Vec F S32x512 .bf16) :
    (bSl k).view.read (Elt F) ((bM.access (rB k) : View sig .tc _ _ _).write (Elt F) f w Finset.univ) = w :=
  View.read_write_univ (v := (bSl k).view) f w

theorem rSlY_load_sub (c : Dev nD) (k : Fin 34) : rM.view.setOn (rY c k).toLoadRect.set ⊆ (rSlY c k).view.set := by
  rw [rY_eq_rY2]
  exact (View.set_slice rM.view (rY2 c k)).ge

theorem rSlX_load_sub (c : Dev nD) (k : Fin 30) : rM.view.setOn (rX c k).toLoadRect.set ⊆ (rSlX c k).view.set :=
  (View.set_slice rM.view (rX c k)).ge

theorem read_landY (c : Dev nD) (k : Fin 34) :
    rM.view.readAt (Elt F) (rY c k).toLoadRect (landY m ρ c k) = ydata m ρ (yn c) k :=
  (readAt_unit_congr rM.view (off1_eq_off2 c k) (k0_off1_inb c k) (k0_off2_inb c k) (landY m ρ c k)).trans
    (View.read_write_univ (v := (rSlY c k).view) _ _)

theorem read_landX (c : Dev nD) (k : Fin 30) :
    rM.view.readAt (Elt F) (rX c k).toLoadRect (landX m ρ c k) = ydata m ρ (yn (xn c)) (k34 k) :=
  View.read_write_univ (v := (rSlX c k).view) _ _

theorem ydata_eq (c : Dev nD) (k : Fin 34) :
    ydata m ρ c k = P1 (xM.view.readAt (Elt F) (rY c k).toLoadRect (xstg m ρ c)) := rfl

end Cert.Kernel.AR

end
-- ==== Proof.IterABits.lean ====
import proofs.«900712_g7700000000000713_dist_ar_v7x_xyz2x2x4_y_m2048_n512_bf16_1_alg».proof.Proof.GenProgBits
import proofs.«900712_g7700000000000713_dist_ar_v7x_xyz2x2x4_y_m2048_n512_bf16_1_alg».proof.Proof.StepsBits
import proofs.«900712_g7700000000000713_dist_ar_v7x_xyz2x2x4_y_m2048_n512_bf16_1_alg».proof.Proof.BlockFactsBits

noncomputable section

namespace Cert.Kernel.AR

open Cert.Kernel Cert.Kernel.Gen Cert.AR

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem wp_loadB (c : Dev nD) (k : Fin 34) {α : Type} {Q : α → sProp 𝕄} {hl : bM.view.LoadsAt (rB k).toLoadRect}
    {cont : ((rB k).toLoadRect.shape.Idx → Elt F .bf16) → Prog (TpuEff nD τ sig (Elt F) Λ₀ .tc) α}
    (f : Buf (Elt F) ((bSl k).view.loc (c : Thread nD τ))) :
    (blkPts c (bSl k) fullShare f : sProp 𝕄)
      ⊢ iprop((blkPts c (bSl k) fullShare f
            -∗ wp frame (wpE (defs₀ (F := F)) 𝒱₀ (c : Thread nD τ) none) Set.univ (cont (bM.view.readAt (Elt F) (rB k).toLoadRect f)) Q)
          -∗ wp frame (wpE (defs₀ (F := F)) 𝒱₀ (c : Thread nD τ) none) Set.univ (.op (.load bM (rB k).toLoadRect hl) cont) Q) :=
  wp_load 𝒱₀ (c : Thread nD τ) none Set.univ (m := bM) (bSl_load_sub c k)

theorem wp_storeB (c : Dev nD) (k : Fin 34) {α : Type} {Q : α → sProp 𝕄} (w : Vec F S32x512 .bf16)
    {hx : (bM.access (rB k) : View sig .tc _ _ _).Stores Finset.univ} {hm : (Finset.univ : Finset (rB k).shape.Idx) = Finset.univ ∨ ∀ a, (rB k).stride a = 1}
    {cont : PUnit → Prog (TpuEff nD τ sig (Elt F) Λ₀ .tc) α}
    (f : Buf (Elt F) ((bSl k).view.loc (c : Thread nD τ))) :
    (blkPts c (bSl k) fullShare f : sProp 𝕄)
      ⊢ iprop((blkPts c (bSl k) fullShare ((bM.access (rB k) : View sig .tc _ _ _).write (Elt F) f w Finset.univ)
            -∗ wp frame (wpE (defs₀ (F := F)) 𝒱₀ (c : Thread nD τ) none) Set.univ (cont ⟨⟩) Q)
          -∗ wp frame (wpE (defs₀ (F := F)) 𝒱₀ (c : Thread nD τ) none) Set.univ (.op (.store bM (rB k) w Finset.univ hx hm) cont) Q) :=
  wp_store 𝒱₀ (c : Thread nD τ) none Set.univ (m := bM) (r := rB k) (Mk := Finset.univ) (bSl_store_sub c k)

theorem devY_eq (c : Dev nD) (k : Fin 34) : devY c k = yn c := Fin.ext (k0_dev3_eq c)

theorem iterA_spec (K : GSem nD τ sig → ℕ) (c : Dev nD) (k : Fin 34) {α : Type} (Q : α → sProp 𝕄)
    (rest : Prog (TpuEff nD τ sig (Elt F) Λ₀ .tc) α) (O : CellTallies nD τ sig Unit) (W : Waits sig Unit) :
    iprop(records m ρ K ∗ ((c : Thread nD τ).loc cc0_stg0_0 ↦{fullShare} xstg m ρ c)
        ∗ (∃ f, blkPts c (bSl k) fullShare f) ∗ (∃ f, blkPts (yn c) (rSlY (yn c) k) fullShare f)
        ∗ dutyTok ER (ysCell c k) 0 false ∗ dutyTok ER (yrCell (yn c) k) 0 false
        ∗ owes (c : Thread nD τ) (O + tallyAt (yrCell (yn c) k) () N) W
        ∗ ((((c : Thread nD τ).loc cc0_stg0_0 ↦{fullShare} xstg m ρ c) ∗ cred (tallyAt (ysCell c k) () N) ∗ owes (c : Thread nD τ) O W)
            -∗ wp frame (wpE (defs₀ (F := F)) 𝒱₀ (c : Thread nD τ) none) Set.univ rest Q))
      ⊢ wp frame (wpE (defs₀ (F := F)) 𝒱₀ (c : Thread nD τ) none) Set.univ (iterA c k >>= fun _ => rest) Q := by
  rw [rSlY_yn c k]
  iintro ⟨#Hrec, Hx, ⟨%fb, Hb⟩, ⟨%fd, Hd⟩, HtS, HtR, HO, Hk⟩
  ihave ⟨#HIs, #Hrs⟩ := (rec_ys m ρ K c k) $$ Hrec
  ihave ⟨#HIr, #Hrr⟩ := (rec_yr m ρ K (yn c) k) $$ Hrec
  unfold iterA
  simp only [Prog.bind_lift, Prog.bind_op]
  iapply (wp_load 𝒱₀ (c : Thread nD τ) none Set.univ (m := xM) (Finset.subset_univ _)) $$ Hx; iintro Hx
  iapply (wp_loadB c k fb) $$ Hb; iintro Hb
  iapply (wp_storeB c k _ fb) $$ Hb; iintro Hb
  have hS : ∀ f, (blkPts c (bSl k) fullShare f : sProp 𝕄) ⊢ (arRd (F := F) m ρ).payload (ysCell c k) 0 false := fun f => by
    rw [payload_ys]; unfold ysPay; iintro H; iexists f; iexact H
  have hR : ∀ fs, (bSl k).view.read (Elt F) fs = ydata m ρ c k →
      (blkPts (yn c) (rSlY c k) fullShare ((rSlY c k).view.write (Elt F) fd ((bSl k).view.read (Elt F) fs) Finset.univ) : sProp 𝕄)
        ⊢ (arRd (F := F) m ρ).payload (yrCell (yn c) k) 0 false := fun fs hfs => by
    rw [payload_yr, hfs]; unfold yrPay landY; rw [yn_yn]
    exact Entails.of_eq (blk_write_congr (yn c) (rSlY c k) (rSlY (yn c) k) (rSlY_yn c k).symm fullShare fd _ _)
  iapply (wp_sendBlk m ρ K c (devY c k) (yn c) (devY_eq c k) (ysS k) (yrS k) (bSl k) (rSlY c k) fullShare _ fd O W
      (duties_ys m ρ c k) (duties_yr m ρ (yn c) k) rfl (hS _) (hR _ ((bSl_read_store c k fb _).trans (ydata_eq m ρ c k).symm))) $$ [Hb Hd HO HtS HtR]
  · iframe # ∗
  iintro ⟨Hc, HO⟩
  iapply Hk; iframe

end Cert.Kernel.AR

end
-- ==== Proof.SeqNBits.lean ====
import proofs.«900712_g7700000000000713_dist_ar_v7x_xyz2x2x4_y_m2048_n512_bf16_1_alg».proof.Proof.GenProgBits
import proofs.«900712_g7700000000000713_dist_ar_v7x_xyz2x2x4_y_m2048_n512_bf16_1_alg».proof.Proof.DataBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem wp_seqN {α : Type} (n : ℕ) (f : Fin n → Prog (TpuEff nD τ sig (Elt F) Λ₀ .tc) PUnit) (I : ℕ → sProp 𝕄) (c : Dev nD) (Q : α → sProp 𝕄)
    (hstep : ∀ (k : Fin n) (rest : Prog (TpuEff nD τ sig (Elt F) Λ₀ .tc) α),
      iprop(I k.val ∗ (I (k.val + 1) -∗ wp frame (wpE (defs₀ (F := F)) 𝒱₀ (c : Thread nD τ) none) Set.univ rest Q))
        ⊢ wp frame (wpE (defs₀ (F := F)) 𝒱₀ (c : Thread nD τ) none) Set.univ (f k >>= fun _ => rest) Q)
    (rest : Prog (TpuEff nD τ sig (Elt F) Λ₀ .tc) α) :
    iprop(I 0 ∗ (I n -∗ wp frame (wpE (defs₀ (F := F)) 𝒱₀ (c : Thread nD τ) none) Set.univ rest Q))
      ⊢ wp frame (wpE (defs₀ (F := F)) 𝒱₀ (c : Thread nD τ) none) Set.univ (seqN n f >>= fun _ => rest) Q := by
  induction n generalizing I with
  | zero =>

    have e : (seqN 0 f >>= fun _ => rest) = rest := by
      unfold seqN; rw [Fin.foldr_zero]; rfl
    rw [e]
    iintro ⟨H0, Hr⟩
    iapply Hr; iexact H0
  | succ n ih =>

    have e : (seqN (n + 1) f >>= fun _ => rest) = (f 0 >>= fun _ => (seqN n (fun k => f k.succ) >>= fun _ => rest)) := by
      unfold seqN; rw [Fin.foldr_succ, Prog.bind_assoc]
    rw [e]
    have h0 := hstep 0 (seqN n (fun k => f k.succ) >>= fun _ => rest)
    rw [Fin.val_zero] at h0
    refine BIBase.Entails.trans ?_ h0
    iintro ⟨H0, Hr⟩
    isplitl [H0]
    · iexact H0
    iintro H1
    iapply (ih (fun k => f k.succ) (fun j => I (j + 1)) (fun k rest' => hstep k.succ rest'))
    isplitl [H1]
    · iexact H1
    iexact Hr

theorem sep_swap (X Y : sProp 𝕄) : (BI.sep X Y : sProp 𝕄) = iprop(Y ∗ X) :=
  BI.Entails.antisymm (show iprop(X ∗ Y) ⊢ iprop(Y ∗ X) from by iintro ⟨H, H'⟩; isplitl [H'] <;> iassumption)
    (show iprop(Y ∗ X) ⊢ iprop(X ∗ Y) from by iintro ⟨H, H'⟩; isplitl [H'] <;> iassumption)

theorem filter_ge_succ {n : ℕ} (k : Fin n) :
    (Finset.univ : Finset (Fin n)).filter (fun i => k.val ≤ i.val) = insert k ((Finset.univ : Finset (Fin n)).filter (fun i => k.val + 1 ≤ i.val)) := by
  ext j; simp only [Finset.mem_filter, Finset.mem_univ, true_and, Finset.mem_insert, Fin.ext_iff]; omega

theorem filter_lt_succ {n : ℕ} (k : Fin n) :
    (Finset.univ : Finset (Fin n)).filter (fun i => i.val < k.val + 1) = insert k ((Finset.univ : Finset (Fin n)).filter (fun i => i.val < k.val)) := by
  ext j; simp only [Finset.mem_filter, Finset.mem_univ, true_and, Finset.mem_insert, Fin.ext_iff]; omega

theorem bigSep_ge_succ_eq {n : ℕ} (Φ : Fin n → sProp 𝕄) (k : Fin n) :
    bigSep ((Finset.univ : Finset (Fin n)).filter (fun i => k.val ≤ i.val)) Φ
      = iprop(Φ k ∗ bigSep ((Finset.univ : Finset (Fin n)).filter (fun i => k.val + 1 ≤ i.val)) Φ) := by
  rw [filter_ge_succ k, bigSep_insert (by simp)]; rfl
theorem bigSep_lt_succ_eq {n : ℕ} (Φ : Fin n → sProp 𝕄) (k : Fin n) :
    bigSep ((Finset.univ : Finset (Fin n)).filter (fun i => i.val < k.val + 1)) Φ
      = iprop(bigSep ((Finset.univ : Finset (Fin n)).filter (fun i => i.val < k.val)) Φ ∗ Φ k) := by
  rw [filter_lt_succ k, bigSep_insert (by simp)]
  exact sep_swap _ _
theorem bigSep_ge_zero {n : ℕ} (Φ : Fin n → sProp 𝕄) :
    bigSep ((Finset.univ : Finset (Fin n)).filter (fun i => 0 ≤ i.val)) Φ = bigSep Finset.univ Φ := by
  rw [Finset.filter_true_of_mem (fun i _ => Nat.zero_le _)]
theorem bigSep_lt_zero {n : ℕ} (Φ : Fin n → sProp 𝕄) :
    bigSep ((Finset.univ : Finset (Fin n)).filter (fun i => i.val < 0)) Φ = iprop(emp) := by
  rw [Finset.filter_false_of_mem (fun i _ => Nat.not_lt_zero _), bigSep_empty]; rfl
theorem bigSep_ge_end {n : ℕ} (Φ : Fin n → sProp 𝕄) :
    bigSep ((Finset.univ : Finset (Fin n)).filter (fun i => n ≤ i.val)) Φ = iprop(emp) := by
  rw [Finset.filter_false_of_mem (fun i _ => by have := i.isLt; omega), bigSep_empty]; rfl
theorem bigSep_lt_end {n : ℕ} (Φ : Fin n → sProp 𝕄) :
    bigSep ((Finset.univ : Finset (Fin n)).filter (fun i => i.val < n)) Φ = bigSep Finset.univ Φ := by
  rw [Finset.filter_true_of_mem (fun i _ => i.isLt)]

-- A phase of `n` steps: step `k` turns `pre k` into `post k` and moves the rest `R` from `k` to `k + 1`.
theorem wp_phase {α : Type} (n : ℕ) (f : Fin n → Prog (TpuEff nD τ sig (Elt F) Λ₀ .tc) PUnit) (R : ℕ → sProp 𝕄) (pre post : Fin n → sProp 𝕄)
    (c : Dev nD) (Q : α → sProp 𝕄)
    (hstep : ∀ (k : Fin n) (rest : Prog (TpuEff nD τ sig (Elt F) Λ₀ .tc) α),
      iprop(R k.val ∗ pre k ∗ (R (k.val + 1) ∗ post k -∗ wp frame (wpE (defs₀ (F := F)) 𝒱₀ (c : Thread nD τ) none) Set.univ rest Q))
        ⊢ wp frame (wpE (defs₀ (F := F)) 𝒱₀ (c : Thread nD τ) none) Set.univ (f k >>= fun _ => rest) Q)
    (rest : Prog (TpuEff nD τ sig (Elt F) Λ₀ .tc) α) :
    iprop(R 0 ∗ bigSep Finset.univ pre ∗ (R n ∗ bigSep Finset.univ post -∗ wp frame (wpE (defs₀ (F := F)) 𝒱₀ (c : Thread nD τ) none) Set.univ rest Q))
      ⊢ wp frame (wpE (defs₀ (F := F)) 𝒱₀ (c : Thread nD τ) none) Set.univ (seqN n f >>= fun _ => rest) Q := by
  refine .trans ?_ (wp_seqN n f (fun j => iprop(R j ∗ bigSep (Finset.univ.filter fun i => j ≤ i.val) pre
    ∗ bigSep (Finset.univ.filter fun i => i.val < j) post)) c Q (fun k rest' => ?_) rest)
  · dsimp only
    rw [bigSep_ge_zero, bigSep_lt_zero, bigSep_ge_end, bigSep_lt_end]
    iintro ⟨HR, Hp, Hk⟩
    iframe HR Hp
    iintro ⟨HR, -, Hq⟩
    iapply Hk; iframe
  · dsimp only
    rw [bigSep_ge_succ_eq pre k, bigSep_lt_succ_eq post k]
    iintro ⟨⟨HR, ⟨Hp, Hps⟩, Hqs⟩, Hk⟩
    iapply (hstep k rest')
    iframe HR Hp
    iintro ⟨HR, Hq⟩
    iapply Hk; iframe

end Cert.Kernel.AR

end
-- ==== Proof.PhaseABits.lean ====
import proofs.«900712_g7700000000000713_dist_ar_v7x_xyz2x2x4_y_m2048_n512_bf16_1_alg».proof.Proof.IterABits
import proofs.«900712_g7700000000000713_dist_ar_v7x_xyz2x2x4_y_m2048_n512_bf16_1_alg».proof.Proof.SeqNBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def preA (c : Dev nD) (k : Fin 34) : sProp 𝕄 :=
  iprop((∃ f, blkPts c (bSl k) fullShare f) ∗ (∃ f, blkPts (yn c) (rSlY (yn c) k) fullShare f)
    ∗ dutyTok ER (ysCell c k) 0 false ∗ dutyTok ER (yrCell (yn c) k) 0 false)

theorem phaseA_spec (K : GSem nD τ sig → ℕ) (c : Dev nD) {α : Type} (Q : α → sProp 𝕄)
    (rest : Prog (TpuEff nD τ sig (Elt F) Λ₀ .tc) α) :
    iprop(records m ρ K ∗ ((c : Thread nD τ).loc cc0_stg0_0 ↦{fullShare} xstg m ρ c)
        ∗ (∃ W, owes (c : Thread nD τ) (oweX c 0 + oweY c 0) W) ∗ bigSep Finset.univ (preA (F := F) c)
        ∗ ((((c : Thread nD τ).loc cc0_stg0_0 ↦{fullShare} xstg m ρ c) ∗ (∃ W, owes (c : Thread nD τ) (oweX c 0) W)
              ∗ (bigSep (Finset.univ : Finset (Fin 34)) fun k => cred (tallyAt (ysCell c k) () N)))
            -∗ wp frame (wpE (defs₀ (F := F)) 𝒱₀ (c : Thread nD τ) none) Set.univ rest Q))
      ⊢ wp frame (wpE (defs₀ (F := F)) 𝒱₀ (c : Thread nD τ) none) Set.univ (seqN 34 (iterA c) >>= fun _ => rest) Q := by
  refine .trans ?_ (wp_phase 34 (iterA c) (fun j => iprop(records m ρ K ∗ ((c : Thread nD τ).loc cc0_stg0_0 ↦{fullShare} xstg m ρ c)
    ∗ ∃ W, owes (c : Thread nD τ) (oweX c 0 + oweY c j) W)) (preA c) (fun k => cred (tallyAt (ysCell c k) () N)) c Q (fun k rest' => ?_) rest)
  · dsimp only
    rw [oweY_end, add_zero]
    iintro ⟨#Hrec, Hx, HO, Hpre, Hk⟩
    iframe # ∗
    iintro ⟨⟨-, Hx, HO⟩, Hq⟩
    iapply Hk; iframe
  · dsimp only
    rw [oweY_succ c k, ← add_assoc]
    unfold preA
    iintro ⟨⟨#Hrec, Hx, ⟨%W, HO⟩⟩, ⟨Hb, Hd, HtS, HtR⟩, Hk⟩
    iapply (iterA_spec m ρ K c k Q rest' _ W)
    iframe # ∗
    iintro ⟨Hx, Hc, HO⟩
    iapply Hk; iframe # ∗
    iexists W; iexact HO

end Cert.Kernel.AR

end
-- ==== Proof.IterBCBits.lean ====
import proofs.«900712_g7700000000000713_dist_ar_v7x_xyz2x2x4_y_m2048_n512_bf16_1_alg».proof.Proof.StepsBits
import proofs.«900712_g7700000000000713_dist_ar_v7x_xyz2x2x4_y_m2048_n512_bf16_1_alg».proof.Proof.BlockFactsBits
import proofs.«900712_g7700000000000713_dist_ar_v7x_xyz2x2x4_y_m2048_n512_bf16_1_alg».proof.Proof.OutValueBits
import proofs.«900712_g7700000000000713_dist_ar_v7x_xyz2x2x4_y_m2048_n512_bf16_1_alg».proof.Proof.BlocksBits
import proofs.«900712_g7700000000000713_dist_ar_v7x_xyz2x2x4_y_m2048_n512_bf16_1_alg».proof.Proof.GenProgBits

noncomputable section

namespace Cert.Kernel.AR

open Cert.Kernel Cert.Kernel.Gen Cert.AR

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem devX_eq (c : Dev nD) (k : Fin 30) : devX c k = xn c := Fin.ext (k0_dev37_eq c)

omit [FloatOps F] in
theorem oweX_ge (c : Dev nD) (n : ℕ) (hn : 30 ≤ n) : oweX c n = 0 := by
  unfold oweX; rw [Finset.filter_false_of_mem (fun k _ => by have := k.isLt; omega), Finset.sum_empty]

def outSt (c : Dev nD) (dY : Finset (Fin 34)) (dX : Finset (Fin 30)) : sProp 𝕄 :=
  iprop(∃ g : Buf (Elt F) ((c : Thread nD τ).loc cc0_stg1_0), ⌜AgreeOn (Cov c dY dX) g (outG m ρ c)⌝ ∗ (((c : Thread nD τ).loc cc0_stg1_0) ↦{fullShare} g))

theorem iterB_fwd_spec (K : GSem nD τ sig → ℕ) (c : Dev nD) (k : Fin 34) (h : k.val < 30) {α : Type} (Q : α → sProp 𝕄)
    (rest : Prog (TpuEff nD τ sig (Elt F) Λ₀ .tc) α) (dY : Finset (Fin 34)) (W : Waits sig Unit) :
    iprop(records m ρ K ∗ levAts L lv ∗ ((c : Thread nD τ).loc cc0_stg0_0 ↦{fullShare} xstg m ρ c) ∗ outSt m ρ c dY ∅
        ∗ cred (tallyAt (yrCell c k) () N) ∗ atPos ER (yrCell c k) 0 ∅ 0
        ∗ dutyTok ER (xsCell c ⟨k.val, h⟩) 0 false ∗ dutyTok ER (xrCell (xn c) ⟨k.val, h⟩) 0 false ∗ (∃ f, blkPts (xn c) (rSlX (xn c) ⟨k.val, h⟩) fullShare f)
        ∗ owes (c : Thread nD τ) (oweX c k.val) W
        ∗ ((((c : Thread nD τ).loc cc0_stg0_0 ↦{fullShare} xstg m ρ c) ∗ outSt m ρ c (insert k dY) ∅ ∗ atPos ER (yrCell c k) 1 ∅ 0 ∗ blkPts c (rSlY c k) fullShare.right (landY m ρ c k)
              ∗ cred (tallyAt (xsCell c ⟨k.val, h⟩) () N) ∗ owes (c : Thread nD τ) (oweX c (k.val + 1)) (insert (SemLoc.dma (yrS k), ()) W)) -∗ wp frame (wpE (defs₀ (F := F)) 𝒱₀ (c : Thread nD τ) none) Set.univ (rest) Q))
      ⊢ wp frame (wpE (defs₀ (F := F)) 𝒱₀ (c : Thread nD τ) none) Set.univ (iterB c k >>= fun _ => rest) Q := by
  have hk : k34 ⟨k.val, h⟩ = k := rfl
  unfold iterB iterBrecv iterBfwd iterBadd
  rw [dif_pos h, rSlX_xn c ⟨k.val, h⟩]
  simp only [Prog.lift, Prog.bind_op, Prog.bind_ret, Prog.pure_eq_ret, bind_pure_comp, hk]
  unfold outSt
  iintro ⟨#Hrec, #Hlev, HX, ⟨%g, %hg, Hout⟩, Hc, Hat, Ht1, Ht2, ⟨%fx, Hdst⟩, HO, Hk⟩
  ihave ⟨#HIyr, -⟩ := (rec_yr m ρ K c k) $$ Hrec
  ihave ⟨#HIxs, #Hrxs⟩ := (rec_xs m ρ K c ⟨k.val, h⟩) $$ Hrec
  ihave ⟨#HIxr, #Hrxr⟩ := (rec_xr m ρ K (xn c) ⟨k.val, h⟩) $$ Hrec
  iapply (wp_waitCell m ρ K c (yrS k) (oweX c k.val) W (credY c k) (expect_yr m ρ c k)) $$ [Hc HO Hat]
  · iframe # ∗; iapply (mayWait_yr (F := F) c k k.val); iexact Hlev
  rw [rest_yr]; iintro ⟨HO, Hat, -, Hpay⟩
  unfold yrPay
  ihave ⟨HL, HR⟩ := (blk_halves c (rSlY c k) (landY m ρ c k)).1 $$ Hpay
  rw [show oweX c k.val = oweX c (k.val + 1) + tallyAt (xrCell (xn c) ⟨k.val, h⟩) () N from oweX_succ c ⟨k.val, h⟩]
  iapply (wp_sendBlk m ρ K c (devX c ⟨k.val, h⟩) (xn c) (devX_eq c ⟨k.val, h⟩) (xsS ⟨k.val, h⟩) (xrS ⟨k.val, h⟩) (rSlY c k) (rSlY c k) fullShare.left (landY m ρ c k) fx
      (oweX c (k.val + 1)) (insert (SemLoc.dma (yrS k), ()) W) (duties_xs m ρ c _) (duties_xr m ρ (xn c) _) rfl
      (by rw [payload_xs]; exact Entails.of_eq rfl)
      (by
        rw [payload_xr]; unfold xrPay landX
        rw [xn_xn, show (rSlY c k).view.read (Elt F) (landY m ρ c k) = ydata m ρ (yn c) k from blk_read_landed c (rSlY c k) _ _]
        exact Entails.of_eq (blk_write_congr (xn c) (rSlY c k) (rSlX (xn c) ⟨k.val, h⟩) (rSlX_xn c ⟨k.val, h⟩).symm fullShare fx _ _))) $$ [HL Hdst HO Ht1 Ht2]
  · iframe # ∗
  iintro ⟨HcS, HO⟩
  iapply (wp_load 𝒱₀ (c : Thread nD τ) none Set.univ (m := xM) (Finset.subset_univ _)) $$ HX; iintro HX
  have eR : (blkPts c (rSlY c k) fullShare.right (landY m ρ c k) : sProp 𝕄)
      = (rM.view.loc (c : Thread nD τ) ↦[(rSlY c k).view.set]{fullShare.right} landY m ρ c k) := rfl
  ihave HR := (Entails.of_eq eR) $$ HR
  iapply (wp_load 𝒱₀ (c : Thread nD τ) none Set.univ (m := rM) (S := (rSlY c k).view.set) (q := fullShare.right) (f := landY m ρ c k) (rSlY_load_sub c k)) $$ HR; iintro HR
  ihave HR := (Entails.of_eq eR.symm) $$ HR
  rw [read_landY m ρ c k]
  iapply (wp_load 𝒱₀ (c : Thread nD τ) none Set.univ (m := oM) (Finset.subset_univ _)) $$ Hout; iintro Hout
  iapply (wp_store 𝒱₀ (c : Thread nD τ) none Set.univ (m := oM) (r := rY c k) (Mk := Finset.univ) (Finset.subset_univ _)) $$ Hout; iintro Hout
  iapply Hk; iframe
  iexists _; iframe; ipureintro; exact agree_write_Y m ρ c k hg

theorem iterB_last_spec (K : GSem nD τ sig → ℕ) (c : Dev nD) (k : Fin 34) (h : 30 ≤ k.val) {α : Type} (Q : α → sProp 𝕄)
    (rest : Prog (TpuEff nD τ sig (Elt F) Λ₀ .tc) α) (dY : Finset (Fin 34)) (W : Waits sig Unit) :
    iprop(records m ρ K ∗ levAts L lv ∗ ((c : Thread nD τ).loc cc0_stg0_0 ↦{fullShare} xstg m ρ c) ∗ outSt m ρ c dY ∅ ∗ cred (tallyAt (yrCell c k) () N) ∗ atPos ER (yrCell c k) 0 ∅ 0 ∗ owes (c : Thread nD τ) (oweX c k.val) W
        ∗ ((((c : Thread nD τ).loc cc0_stg0_0 ↦{fullShare} xstg m ρ c) ∗ outSt m ρ c (insert k dY) ∅ ∗ atPos ER (yrCell c k) 1 ∅ 0 ∗ blkPts c (rSlY c k) fullShare (landY m ρ c k) ∗ owes (c : Thread nD τ) (oweX c (k.val + 1)) (insert (SemLoc.dma (yrS k), ()) W)) -∗ wp frame (wpE (defs₀ (F := F)) 𝒱₀ (c : Thread nD τ) none) Set.univ (rest) Q))
      ⊢ wp frame (wpE (defs₀ (F := F)) 𝒱₀ (c : Thread nD τ) none) Set.univ (iterB c k >>= fun _ => rest) Q := by
  unfold iterB iterBrecv iterBadd
  rw [dif_neg (Nat.not_lt.mpr h)]
  simp only [Prog.lift, Prog.bind_op, Prog.bind_ret, Prog.pure_eq_ret, bind_pure_comp]
  rw [show oweX c (k.val + 1) = oweX c k.val from (oweX_ge c _ (by omega)).trans (oweX_ge c _ h).symm]
  unfold outSt
  iintro ⟨#Hrec, #Hlev, HX, ⟨%g, %hg, Hout⟩, Hc, Hat, HO, Hk⟩
  ihave ⟨#HIyr, -⟩ := (rec_yr m ρ K c k) $$ Hrec
  iapply (wp_waitCell m ρ K c (yrS k) (oweX c k.val) W (credY c k) (expect_yr m ρ c k)) $$ [Hc HO Hat]
  · iframe # ∗; iapply (mayWait_yr (F := F) c k k.val); iexact Hlev
  rw [rest_yr]; iintro ⟨HO, Hat, -, Hpay⟩
  unfold yrPay
  iapply (wp_load 𝒱₀ (c : Thread nD τ) none Set.univ (m := xM) (Finset.subset_univ _)) $$ HX; iintro HX
  have eR : (blkPts c (rSlY c k) fullShare (landY m ρ c k) : sProp 𝕄)
      = (rM.view.loc (c : Thread nD τ) ↦[(rSlY c k).view.set]{fullShare} landY m ρ c k) := rfl
  ihave Hpay := (Entails.of_eq eR) $$ Hpay
  iapply (wp_load 𝒱₀ (c : Thread nD τ) none Set.univ (m := rM) (S := (rSlY c k).view.set) (q := fullShare) (f := landY m ρ c k) (rSlY_load_sub c k)) $$ Hpay; iintro Hpay
  ihave Hpay := (Entails.of_eq eR.symm) $$ Hpay
  rw [read_landY m ρ c k]
  iapply (wp_load 𝒱₀ (c : Thread nD τ) none Set.univ (m := oM) (Finset.subset_univ _)) $$ Hout; iintro Hout
  iapply (wp_store 𝒱₀ (c : Thread nD τ) none Set.univ (m := oM) (r := rY c k) (Mk := Finset.univ) (Finset.subset_univ _)) $$ Hout; iintro Hout
  iapply Hk; iframe
  iexists _; iframe; ipureintro; exact agree_write_Y m ρ c k hg

theorem iterC_spec (K : GSem nD τ sig → ℕ) (c : Dev nD) (k : Fin 30) {α : Type} (Q : α → sProp 𝕄)
    (rest : Prog (TpuEff nD τ sig (Elt F) Λ₀ .tc) α) (dY : Finset (Fin 34)) (dX : Finset (Fin 30)) (W : Waits sig Unit) :
    iprop(records m ρ K ∗ ((c : Thread nD τ).loc cc0_stg0_0 ↦{fullShare} xstg m ρ c) ∗ outSt m ρ c dY dX ∗ cred (tallyAt (xrCell c k) () N) ∗ atPos ER (xrCell c k) 0 ∅ 0 ∗ owes (c : Thread nD τ) 0 W
        ∗ ((((c : Thread nD τ).loc cc0_stg0_0 ↦{fullShare} xstg m ρ c) ∗ outSt m ρ c dY (insert k dX) ∗ atPos ER (xrCell c k) 1 ∅ 0 ∗ blkPts c (rSlX c k) fullShare (landX m ρ c k) ∗ owes (c : Thread nD τ) 0 (insert (SemLoc.dma (xrS k), ()) W)) -∗ wp frame (wpE (defs₀ (F := F)) 𝒱₀ (c : Thread nD τ) none) Set.univ (rest) Q))
      ⊢ wp frame (wpE (defs₀ (F := F)) 𝒱₀ (c : Thread nD τ) none) Set.univ ((do iterCrecv c k; iterCadd c k) >>= fun _ => rest) Q := by
  unfold iterCrecv iterCadd
  simp only [Prog.lift, Prog.bind_op, Prog.bind_ret, Prog.pure_eq_ret, bind_pure_comp]
  unfold outSt
  iintro ⟨#Hrec, HX, ⟨%g, %hg, Hout⟩, Hc, Hat, HO, Hk⟩
  ihave ⟨#HIxr, -⟩ := (rec_xr m ρ K c k) $$ Hrec
  iapply (wp_waitCell m ρ K c (xrS k) 0 W (credY c (k34 k)) (expect_xr m ρ c k)) $$ [Hc HO Hat]
  · rw [MayWait_zero]; iframe # ∗; iempintro
  rw [rest_xr]; iintro ⟨HO, Hat, -, Hpay⟩
  unfold xrPay
  iapply (wp_load 𝒱₀ (c : Thread nD τ) none Set.univ (m := xM) (Finset.subset_univ _)) $$ HX; iintro HX
  have eR : (blkPts c (rSlX c k) fullShare (landX m ρ c k) : sProp 𝕄)
      = (rM.view.loc (c : Thread nD τ) ↦[(rSlX c k).view.set]{fullShare} landX m ρ c k) := rfl
  ihave Hpay := (Entails.of_eq eR) $$ Hpay
  iapply (wp_load 𝒱₀ (c : Thread nD τ) none Set.univ (m := rM) (S := (rSlX c k).view.set) (q := fullShare) (f := landX m ρ c k) (rSlX_load_sub c k)) $$ Hpay; iintro Hpay
  ihave Hpay := (Entails.of_eq eR.symm) $$ Hpay
  rw [read_landX m ρ c k]
  iapply (wp_load 𝒱₀ (c : Thread nD τ) none Set.univ (m := oM) (Finset.subset_univ _)) $$ Hout; iintro Hout
  iapply (wp_store 𝒱₀ (c : Thread nD τ) none Set.univ (m := oM) (r := rX c k) (Mk := Finset.univ) (Finset.subset_univ _)) $$ Hout; iintro Hout
  iapply Hk; iframe
  iexists _; iframe; ipureintro; exact agree_write_X m ρ c k hg

end Cert.Kernel.AR

end
-- ==== Proof.PhaseBCBits.lean ====
import proofs.«900712_g7700000000000713_dist_ar_v7x_xyz2x2x4_y_m2048_n512_bf16_1_alg».proof.Proof.IterBCBits
import proofs.«900712_g7700000000000713_dist_ar_v7x_xyz2x2x4_y_m2048_n512_bf16_1_alg».proof.Proof.SeqNBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem filter_lt_zero {n : ℕ} : (Finset.univ : Finset (Fin n)).filter (fun i => i.val < 0) = ∅ :=
  Finset.filter_false_of_mem fun _ _ => Nat.not_lt_zero _

-- Past the end of `Fin n` every index is below, none is above.
theorem filter_lt_past {n : ℕ} (j : ℕ) (h : n ≤ j) : (Finset.univ : Finset (Fin n)).filter (fun i => i.val < j) = Finset.univ :=
  Finset.filter_true_of_mem fun i _ => i.isLt.trans_le h

theorem filter_ge_past {n : ℕ} (j : ℕ) (h : n ≤ j) : (Finset.univ : Finset (Fin n)).filter (fun i => j ≤ i.val) = ∅ :=
  Finset.filter_false_of_mem fun i _ hi => absurd (i.isLt.trans_le (h.trans hi)) (lt_irrefl _)

def preYr (c : Dev nD) (k : Fin 34) : sProp 𝕄 := iprop(cred (tallyAt (yrCell c k) () N) ∗ atPos ER (yrCell c k) 0 ∅ 0)
def preXs (c : Dev nD) (k : Fin 30) : sProp 𝕄 :=
  iprop(dutyTok ER (xsCell c k) 0 false ∗ dutyTok ER (xrCell (xn c) k) 0 false ∗ (∃ f, blkPts (xn c) (rSlX (xn c) k) fullShare f))
def postXs (c : Dev nD) (k : Fin 30) : sProp 𝕄 :=
  iprop(blkPts c (rSlY c (k34 k)) fullShare.right (landY m ρ c (k34 k)) ∗ cred (tallyAt (xsCell c k) () N))

-- The y link's receive phase: the first 30 blocks are forwarded over the x link, the last 4 kept whole.
theorem phaseB_spec (K : GSem nD τ sig → ℕ) (c : Dev nD) {α : Type} (Q : α → sProp 𝕄)
    (rest : Prog (TpuEff nD τ sig (Elt F) Λ₀ .tc) α) :
    iprop(records m ρ K ∗ levAts L lv ∗ ((c : Thread nD τ).loc cc0_stg0_0 ↦{fullShare} xstg m ρ c) ∗ outSt m ρ c ∅ ∅
        ∗ (∃ W, owes (c : Thread nD τ) (oweX c 0) W) ∗ bigSep Finset.univ (preYr (F := F) c) ∗ bigSep Finset.univ (preXs (F := F) c)
        ∗ ((((c : Thread nD τ).loc cc0_stg0_0 ↦{fullShare} xstg m ρ c) ∗ outSt m ρ c Finset.univ ∅ ∗ (∃ W, owes (c : Thread nD τ) 0 W)
              ∗ (bigSep (Finset.univ : Finset (Fin 34)) fun k => atPos ER (yrCell c k) 1 ∅ 0) ∗ bigSep Finset.univ (postXs m ρ c)
              ∗ (bigSep ((Finset.univ : Finset (Fin 34)).filter fun k => 30 ≤ k.val) fun k => iprop(∃ f, blkPts c (rSlY c k) fullShare f)))
            -∗ wp frame (wpE (defs₀ (F := F)) 𝒱₀ (c : Thread nD τ) none) Set.univ rest Q))
      ⊢ wp frame (wpE (defs₀ (F := F)) 𝒱₀ (c : Thread nD τ) none) Set.univ (seqN 34 (iterB c) >>= fun _ => rest) Q := by
  refine .trans ?_ (wp_phase 34 (iterB c) (fun j => iprop(records m ρ K ∗ levAts L lv ∗ ((c : Thread nD τ).loc cc0_stg0_0 ↦{fullShare} xstg m ρ c)
      ∗ outSt m ρ c (Finset.univ.filter fun i => i.val < j) ∅ ∗ (∃ W, owes (c : Thread nD τ) (oweX c j) W)
      ∗ bigSep (Finset.univ.filter fun i => j ≤ i.val) (preXs (F := F) c) ∗ bigSep (Finset.univ.filter fun i => i.val < j) (postXs m ρ c)))
    (preYr c) (fun k => iprop(atPos ER (yrCell c k) 1 ∅ 0 ∗ if 30 ≤ k.val then iprop(∃ f, blkPts c (rSlY c k) fullShare f) else BI.emp))
    c Q (fun k rest' => ?_) rest)
  · dsimp only
    rw [bigSep_ge_zero, bigSep_lt_zero, filter_lt_zero, filter_lt_past (n := 34) 34 le_rfl, filter_ge_past (n := 30) 34 (by decide),
      filter_lt_past (n := 30) 34 (by decide), bigSep_empty, oweX_ge c 34 (by decide), bigSep_sep', bigSep_filter]
    iintro ⟨#Hrec, #Hlev, Hx, Hout, HO, HpY, HpX, Hk⟩
    iframe # ∗
    iintro ⟨⟨-, -, Hx, Hout, HO, -, HqX⟩, HqY, Hkept⟩
    iapply Hk; iframe
  · dsimp only
    rw [filter_lt_succ k]
    unfold preYr
    by_cases h : k.val < 30
    · rw [bigSep_ge_succ_eq (preXs (F := F) c) ⟨k.val, h⟩, bigSep_lt_succ_eq (postXs m ρ c) ⟨k.val, h⟩, if_neg (Nat.not_le.2 h)]
      unfold preXs postXs
      iintro ⟨⟨#Hrec, #Hlev, Hx, Hout, ⟨%W, HO⟩, ⟨⟨Ht1, Ht2, Hd⟩, HpX⟩, HqX⟩, ⟨Hc, Hat⟩, Hk⟩
      iapply (iterB_fwd_spec m ρ K c k h Q rest' _ W)
      iframe # ∗
      iintro ⟨Hx, Hout, Hat, HR, HcS, HO⟩
      iapply Hk; iframe # ∗
      isplitl [HO]; · iexists _; iexact HO
      iempintro
    · have h' := Nat.le_of_not_lt h
      rw [filter_ge_past k.val h', filter_ge_past (k.val + 1) (h'.trans (Nat.le_succ _)), filter_lt_past k.val h',
        filter_lt_past (k.val + 1) (h'.trans (Nat.le_succ _)), if_pos h']
      iintro ⟨⟨#Hrec, #Hlev, Hx, Hout, ⟨%W, HO⟩, HpX, HqX⟩, ⟨Hc, Hat⟩, Hk⟩
      iapply (iterB_last_spec m ρ K c k h' Q rest' _ W)
      iframe # ∗
      iintro ⟨Hx, Hout, Hat, HR, HO⟩
      iapply Hk; iframe # ∗
      isplitl [HO] <;> iexists _ <;> iassumption

def preXr (c : Dev nD) (k : Fin 30) : sProp 𝕄 := iprop(cred (tallyAt (xrCell c k) () N) ∗ atPos ER (xrCell c k) 0 ∅ 0)
def postXr (c : Dev nD) (k : Fin 30) : sProp 𝕄 :=
  iprop(atPos ER (xrCell c k) 1 ∅ 0 ∗ ∃ f, blkPts c (rSlX c k) fullShare f)

theorem phaseC_spec (K : GSem nD τ sig → ℕ) (c : Dev nD) {α : Type} (Q : α → sProp 𝕄)
    (rest : Prog (TpuEff nD τ sig (Elt F) Λ₀ .tc) α) :
    iprop(records m ρ K ∗ ((c : Thread nD τ).loc cc0_stg0_0 ↦{fullShare} xstg m ρ c) ∗ outSt m ρ c Finset.univ ∅
        ∗ (∃ W, owes (c : Thread nD τ) 0 W) ∗ bigSep Finset.univ (preXr (F := F) c)
        ∗ ((((c : Thread nD τ).loc cc0_stg0_0 ↦{fullShare} xstg m ρ c) ∗ outSt m ρ c Finset.univ Finset.univ ∗ (∃ W, owes (c : Thread nD τ) 0 W)
              ∗ bigSep Finset.univ (postXr (F := F) c))
            -∗ wp frame (wpE (defs₀ (F := F)) 𝒱₀ (c : Thread nD τ) none) Set.univ rest Q))
      ⊢ wp frame (wpE (defs₀ (F := F)) 𝒱₀ (c : Thread nD τ) none) Set.univ (seqN 30 (fun k => do iterCrecv c k; iterCadd c k) >>= fun _ => rest) Q := by
  refine .trans ?_ (wp_phase 30 _ (fun j => iprop(records m ρ K ∗ ((c : Thread nD τ).loc cc0_stg0_0 ↦{fullShare} xstg m ρ c)
      ∗ outSt m ρ c Finset.univ (Finset.univ.filter fun i => i.val < j) ∗ ∃ W, owes (c : Thread nD τ) 0 W))
    (preXr c) (postXr c) c Q (fun k rest' => ?_) rest)
  · dsimp only
    rw [filter_lt_zero, filter_lt_past 30 le_rfl]
    iintro ⟨#Hrec, Hx, Hout, HO, Hp, Hk⟩
    iframe # ∗
    iintro ⟨⟨-, Hx, Hout, HO⟩, Hq⟩
    iapply Hk; iframe
  · dsimp only
    rw [filter_lt_succ k]
    unfold preXr postXr
    iintro ⟨⟨#Hrec, Hx, Hout, ⟨%W, HO⟩⟩, ⟨Hc, Hat⟩, Hk⟩
    iapply (iterC_spec m ρ K c k Q rest' _ _ W)
    iframe # ∗
    iintro ⟨Hx, Hout, Hat, HR, HO⟩
    iapply Hk; iframe # ∗
    isplitl [HO] <;> iexists _ <;> iassumption

end Cert.Kernel.AR

end
-- ==== Proof.UnrollBits.lean ====
import proofs.«900712_g7700000000000713_dist_ar_v7x_xyz2x2x4_y_m2048_n512_bf16_1_alg».proof.Proof.LevelsBits
import proofs.«900712_g7700000000000713_dist_ar_v7x_xyz2x2x4_y_m2048_n512_bf16_1_alg».proof.Proof.RecBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem close_cell (K : GSem nD τ sig → ℕ) (c : Dev nD) (s : DmaSem sig) :
    iprop(cellInv ER (arRd m ρ) (K ((c : Thread nD τ), .dma s)) ((c : Thread nD τ), .dma s) ∗ atPos ER ((c : Thread nD τ), .dma s) 1 ∅ 0)
      ⊢ (iprop(|={Set.univ}=> semVal ((c : Thread nD τ), .dma s) 0) : sProp 𝕄) :=
  Rounds.cell_close ER (arRd m ρ) (Set.mem_univ _) (fun h => h) (R := 0 + 1) (duties_later m ρ _)

end Cert.Kernel.AR

end
-- ==== Proof.IterDEBits.lean ====
import proofs.«900712_g7700000000000713_dist_ar_v7x_xyz2x2x4_y_m2048_n512_bf16_1_alg».proof.Proof.GenProgBits
import proofs.«900712_g7700000000000713_dist_ar_v7x_xyz2x2x4_y_m2048_n512_bf16_1_alg».proof.Proof.StepsBits
import proofs.«900712_g7700000000000713_dist_ar_v7x_xyz2x2x4_y_m2048_n512_bf16_1_alg».proof.Proof.RecBits
import proofs.«900712_g7700000000000713_dist_ar_v7x_xyz2x2x4_y_m2048_n512_bf16_1_alg».proof.Proof.SeqNBits
import proofs.«900712_g7700000000000713_dist_ar_v7x_xyz2x2x4_y_m2048_n512_bf16_1_alg».proof.Proof.UnrollBits

noncomputable section

namespace Cert.Kernel.AR

open Cert.Kernel Cert.Kernel.Gen Cert.AR

open Idealize.ShloMosaic
open Idealize.ShloMosaic.TcCoe
open Idealize.SL Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

-- The send waits of one link, owing nothing: wait `k` spends cell `s k`'s credit and hands back the payload of its one round.
theorem phaseW (K : GSem nD τ sig → ℕ) (c : Dev nD) {n : ℕ} (s : Fin n → DmaSem sig) (pay : Fin n → sProp 𝕄)
    (src dst : Fin n → Memref sig .tc .vmem S32x512 .bf16) (hs : ∀ k, (src k).view.WordExact) (hd : ∀ k, (dst k).view.WordExact) (hcr : ∀ k, (dst k).view.dmaCredit = N)
    (hex : ∀ k, (arRd (F := F) m ρ).expect ((c : Thread nD τ), .dma (s k)) 0 = N)
    (hpay : ∀ k, bigSep ((arRd (F := F) m ρ).duties ((c : Thread nD τ), .dma (s k)) 0 \ ∅) (fun d => (arRd (F := F) m ρ).payload ((c : Thread nD τ), .dma (s k)) 0 d) = pay k)
    (hrec : ∀ k, records m ρ K ⊢ iprop(cellInv ER (arRd m ρ) (K ((c : Thread nD τ), .dma (s k))) ((c : Thread nD τ), .dma (s k)) ∗ reached ER ((c : Thread nD τ), .dma (s k)) 0))
    {α : Type} (Q : α → sProp 𝕄) (rest : Prog (TpuEff nD τ sig (Elt F) Λ₀ .tc) α) :
    iprop(records m ρ K ∗ (∃ W, owes (c : Thread nD τ) 0 W)
        ∗ (bigSep (Finset.univ : Finset (Fin n)) fun k => iprop(cred (tallyAt ((c : Thread nD τ), .dma (s k)) () N) ∗ atPos ER ((c : Thread nD τ), .dma (s k)) 0 ∅ 0))
        ∗ (((∃ W, owes (c : Thread nD τ) 0 W) ∗ (bigSep (Finset.univ : Finset (Fin n)) fun k => iprop(atPos ER ((c : Thread nD τ), .dma (s k)) 1 ∅ 0 ∗ pay k)))
            -∗ wp frame (wpE (defs₀ (F := F)) 𝒱₀ (c : Thread nD τ) none) Set.univ rest Q))
      ⊢ wp frame (wpE (defs₀ (F := F)) 𝒱₀ (c : Thread nD τ) none) Set.univ (seqN n (fun k => Prog.lift (.waitDma2 (s k) (src k) (dst k) (hs k) (hd k))) >>= fun _ => rest) Q := by
  refine .trans ?_ (wp_phase n _ (fun _ => iprop(records m ρ K ∗ ∃ W, owes (c : Thread nD τ) 0 W))
    (fun k => iprop(cred (tallyAt ((c : Thread nD τ), .dma (s k)) () N) ∗ atPos ER ((c : Thread nD τ), .dma (s k)) 0 ∅ 0)) (fun k => iprop(atPos ER ((c : Thread nD τ), .dma (s k)) 1 ∅ 0 ∗ pay k))
    c Q (fun k rest' => ?_) rest)
  · iintro ⟨#Hrec, HW, Hpre, Hk⟩
    iframe # ∗
    iintro ⟨⟨-, HW⟩, Hpost⟩
    iapply Hk; iframe
  · iintro ⟨⟨#Hrec, %W, How⟩, ⟨Hcr, Hat⟩, Hk⟩
    ihave ⟨Hinv, -⟩ := (hrec k) $$ Hrec
    rw [Prog.bind_lift]
    iapply (wp_waitCell m ρ K c (s k) 0 W (hcr k) (hex k)) $$ [Hcr How Hat]
    · rw [MayWait_zero]; iframe # ∗; iempintro
    rw [hpay k]
    iintro ⟨How, Hat, -, Hpay⟩
    iapply Hk; iframe # ∗
    iexists _; iexact How

theorem phaseD_spec (K : GSem nD τ sig → ℕ) (c : Dev nD) {α : Type} (Q : α → sProp 𝕄) (rest : Prog (TpuEff nD τ sig (Elt F) Λ₀ .tc) α) :
    iprop(records m ρ K ∗ (∃ W, owes (c : Thread nD τ) 0 W)
        ∗ (bigSep (Finset.univ : Finset (Fin 34)) fun k => iprop(cred (tallyAt (ysCell c k) () N) ∗ atPos ER (ysCell c k) 0 ∅ 0))
        ∗ (((∃ W, owes (c : Thread nD τ) 0 W) ∗ (bigSep (Finset.univ : Finset (Fin 34)) fun k => iprop(atPos ER (ysCell c k) 1 ∅ 0 ∗ ysPay c k)))
            -∗ wp frame (wpE (defs₀ (F := F)) 𝒱₀ (c : Thread nD τ) none) Set.univ rest Q))
      ⊢ wp frame (wpE (defs₀ (F := F)) 𝒱₀ (c : Thread nD τ) none) Set.univ (seqN 34 (iterD c) >>= fun _ => rest) Q :=
  phaseW m ρ K c ysS (ysPay c) (rSlY c) bSl _ _ (fun _ => rfl) (expect_ys m ρ c) (rest_ys m ρ c) (rec_ys m ρ K c) Q rest

theorem phaseE_spec (K : GSem nD τ sig → ℕ) (c : Dev nD) {α : Type} (Q : α → sProp 𝕄) (rest : Prog (TpuEff nD τ sig (Elt F) Λ₀ .tc) α) :
    iprop(records m ρ K ∗ (∃ W, owes (c : Thread nD τ) 0 W)
        ∗ (bigSep (Finset.univ : Finset (Fin 30)) fun k => iprop(cred (tallyAt (xsCell c k) () N) ∗ atPos ER (xsCell c k) 0 ∅ 0))
        ∗ (((∃ W, owes (c : Thread nD τ) 0 W) ∗ (bigSep (Finset.univ : Finset (Fin 30)) fun k => iprop(atPos ER (xsCell c k) 1 ∅ 0 ∗ xsPay m ρ c k)))
            -∗ wp frame (wpE (defs₀ (F := F)) 𝒱₀ (c : Thread nD τ) none) Set.univ rest Q))
      ⊢ wp frame (wpE (defs₀ (F := F)) 𝒱₀ (c : Thread nD τ) none) Set.univ (seqN 30 (iterE c) >>= fun _ => rest) Q :=
  phaseW m ρ K c xsS (xsPay m ρ c) (fun k => rSlY c (k34 k)) (fun k => rSlY c (k34 k)) _ _ (fun _ => rfl) (expect_xs m ρ c) (rest_xs m ρ c) (rec_xs m ρ K c) Q rest

-- A cell standing at round 1 has no later round: its owner closes it and takes the counter back at zero.  Both cells of every block of a link.
theorem close_link (K : GSem nD τ sig → ℕ) (c : Dev nD) {n : ℕ} (s r : Fin n → DmaSem sig)
    (hs : ∀ k, records m ρ K ⊢ iprop(cellInv ER (arRd m ρ) (K ((c : Thread nD τ), .dma (s k))) ((c : Thread nD τ), .dma (s k)) ∗ reached ER ((c : Thread nD τ), .dma (s k)) 0))
    (hr : ∀ k, records m ρ K ⊢ iprop(cellInv ER (arRd m ρ) (K ((c : Thread nD τ), .dma (r k))) ((c : Thread nD τ), .dma (r k)) ∗ reached ER ((c : Thread nD τ), .dma (r k)) 0)) :
    iprop(records m ρ K ∗ bigSep (Finset.univ : Finset (Fin n)) fun k => iprop(atPos ER ((c : Thread nD τ), .dma (s k)) 1 ∅ 0 ∗ atPos ER ((c : Thread nD τ), .dma (r k)) 1 ∅ 0))
      ⊢ (iprop(|={Set.univ}=> bigSep (Finset.univ : Finset (Fin n)) fun k => iprop(semVal ((c : Thread nD τ), .dma (s k)) 0 ∗ semVal ((c : Thread nD τ), .dma (r k)) 0)) : sProp 𝕄) := by
  refine (bigSep_with_persistent fun k _ => ?_).trans (bigSep_fupd _ _)
  refine .trans ?_ (fupd_sep (E₂ := Set.univ))
  iintro ⟨#Hrec, Hs, Hr⟩
  ihave ⟨I1, -⟩ := (hs k) $$ Hrec
  ihave ⟨I2, -⟩ := (hr k) $$ Hrec
  isplitl [Hs]
  · iapply (close_cell m ρ K c (s k)); iframe # ∗
  · iapply (close_cell m ρ K c (r k)); iframe # ∗

theorem close_all (K : GSem nD τ sig → ℕ) (c : Dev nD) :
    iprop(records m ρ K
        ∗ (bigSep (Finset.univ : Finset (Fin 34)) fun k => iprop(atPos ER (ysCell c k) 1 ∅ 0 ∗ atPos ER (yrCell c k) 1 ∅ 0))
        ∗ (bigSep (Finset.univ : Finset (Fin 30)) fun k => iprop(atPos ER (xsCell c k) 1 ∅ 0 ∗ atPos ER (xrCell c k) 1 ∅ 0)))
      ⊢ (iprop(|={Set.univ}=> ((bigSep (Finset.univ : Finset (Fin 34)) fun k => iprop(semVal (ysCell c k) 0 ∗ semVal (yrCell c k) 0))
          ∗ (bigSep (Finset.univ : Finset (Fin 30)) fun k => iprop(semVal (xsCell c k) 0 ∗ semVal (xrCell c k) 0)))) : sProp 𝕄) := by
  refine .trans ?_ (fupd_sep (E₂ := Set.univ))
  iintro ⟨#Hrec, HY, HX⟩
  isplitl [HY]
  · iapply (close_link m ρ K c ysS yrS (rec_ys m ρ K c) (rec_yr m ρ K c)); iframe # ∗
  · iapply (close_link m ρ K c xsS xrS (rec_xs m ρ K c) (rec_xr m ρ K c)); iframe # ∗

end Cert.Kernel.AR

end
-- ==== Proof.RejoinBits.lean ====
import proofs.«900712_g7700000000000713_dist_ar_v7x_xyz2x2x4_y_m2048_n512_bf16_1_alg».proof.Proof.BlocksBits
import proofs.«900712_g7700000000000713_dist_ar_v7x_xyz2x2x4_y_m2048_n512_bf16_1_alg».proof.Proof.BlockFactsBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def zeroB (c : Dev nD) : Buf (Elt F) ((c : Thread nD τ).loc cc0_scratch0) := fun _ => (FloatOps.ofBits .bf16 0 : F .bf16)
def zeroR (c : Dev nD) : Buf (Elt F) ((c : Thread nD τ).loc cc0_scratch1) := fun _ => (FloatOps.ofBits .bf16 0 : F .bf16)

theorem blk_join_halves {S : Shape} {e : EltTy} (c : Dev nD) (v : Memref sig .tc .vmem S e)
    (f : Buf (Elt F) (v.view.loc (c : Thread nD τ))) :
    iprop(blkPts c v fullShare.left f ∗ blkPts c v fullShare.right f) ⊢ (blkPts c v fullShare f : sProp 𝕄) :=
  (blk_halves c v f).2

theorem blocksY_eq (c : Dev nD) :
    (bigSep (Finset.univ : Finset (Fin 34)) fun k => iprop(∃ f, blkPts c (rSlY c k) fullShare f) : sProp 𝕄)
      = bigSep (Finset.univ : Finset (Fin 34)) fun k =>
          iprop(∃ f : Buf (Elt F) ((c : Thread nD τ).loc cc0_scratch1), ((c : Thread nD τ).loc cc0_scratch1) ↦[(rY2 c k).set]{fullShare} f) :=
  bigSep_congr fun k _ => by unfold blkPts; rw [set_rSlY]; rfl

theorem blocksX_eq (c : Dev nD) :
    (bigSep (Finset.univ : Finset (Fin 30)) fun k => iprop(∃ f, blkPts c (rSlX c k) fullShare f) : sProp 𝕄)
      = bigSep (Finset.univ : Finset (Fin 30)) fun k =>
          iprop(∃ f : Buf (Elt F) ((c : Thread nD τ).loc cc0_scratch1), ((c : Thread nD τ).loc cc0_scratch1) ↦[(rX c k).set]{fullShare} f) :=
  bigSep_congr fun k _ => by unfold blkPts; rw [set_rSlX]; rfl

theorem rejoin_b (c : Dev nD) :
    (bigSep (Finset.univ : Finset (Fin 34)) fun k => iprop(∃ f, blkPts c (bSl k) fullShare f) : sProp 𝕄)
      ⊢ iprop(∃ f : Buf (Elt F) ((c : Thread nD τ).loc cc0_scratch0), ((c : Thread nD τ).loc cc0_scratch0) ↦{fullShare} f) := by
  simp only [blkPts, set_bSl]
  haveI : Nonempty (Buf (Elt F) ((c : Thread nD τ).loc cc0_scratch0)) := ⟨zeroB c⟩
  refine (BI.bigSep_exists_pi Finset.univ (fun (k : Fin 34) (f : Buf (Elt F) ((c : Thread nD τ).loc cc0_scratch0)) =>
    (((c : Thread nD τ).loc cc0_scratch0) ↦[(rB k).set]{fullShare} f : sProp 𝕄))).trans ?_
  iintro ⟨%fs, H⟩
  ihave H' := (pointsTo_biUnion_join Finset.univ (fun k : Fin 34 => (rB k).set) fs (zeroB c)
    (fun k _ k' _ h => rectB_disjoint k k' h)) $$ H
  icases H' with ⟨%g, -, H'⟩
  iexists g
  rw [rectB_cover]
  iexact H'

theorem rejoin_r (c : Dev nD) :
    iprop((bigSep (Finset.univ : Finset (Fin 34)) fun k => iprop(∃ f, blkPts c (rSlY c k) fullShare f)) ∗
        (bigSep (Finset.univ : Finset (Fin 30)) fun k => iprop(∃ f, blkPts c (rSlX c k) fullShare f)))
      ⊢ (iprop(∃ f : Buf (Elt F) ((c : Thread nD τ).loc cc0_scratch1), ((c : Thread nD τ).loc cc0_scratch1) ↦{fullShare} f) : sProp 𝕄) := by
  rw [blocksY_eq, blocksX_eq]
  haveI : Nonempty (Buf (Elt F) ((c : Thread nD τ).loc cc0_scratch1)) := ⟨zeroR c⟩
  have hD : Disjoint (Finset.univ.biUnion fun k : Fin 34 => (rY2 c k).set) (Finset.univ.biUnion fun k : Fin 30 => (rX c k).set) :=
    (Finset.disjoint_biUnion_left _ _ _).mpr fun k _ => (Finset.disjoint_biUnion_right _ _ _).mpr fun k' _ => rectY_rectX_disjoint c k k'
  iintro ⟨HY, HX⟩
  ihave HY := (BI.bigSep_exists_pi Finset.univ (fun (k : Fin 34) (f : Buf (Elt F) ((c : Thread nD τ).loc cc0_scratch1)) =>
    (((c : Thread nD τ).loc cc0_scratch1) ↦[(rY2 c k).set]{fullShare} f : sProp 𝕄))) $$ HY
  icases HY with ⟨%fY, HY⟩
  ihave HY := (pointsTo_biUnion_join Finset.univ (fun k : Fin 34 => (rY2 c k).set) fY (zeroR c)
    (fun k _ k' _ h => rectY_disjoint c k k' h)) $$ HY
  icases HY with ⟨%gY, -, HY⟩
  ihave HX := (BI.bigSep_exists_pi Finset.univ (fun (k : Fin 30) (f : Buf (Elt F) ((c : Thread nD τ).loc cc0_scratch1)) =>
    (((c : Thread nD τ).loc cc0_scratch1) ↦[(rX c k).set]{fullShare} f : sProp 𝕄))) $$ HX
  icases HX with ⟨%fX, HX⟩
  ihave HX := (pointsTo_biUnion_join Finset.univ (fun k : Fin 30 => (rX c k).set) fX (zeroR c)
    (fun k _ k' _ h => rectX_disjoint c k k' h)) $$ HX
  icases HX with ⟨%gX, -, HX⟩
  iexists (Finset.univ.biUnion fun k : Fin 30 => (rX c k).set).piecewise gX gY
  have hj := pointsTo_join (nD := nD) (τ := τ) (sig := sig) (Ix := Unit) (Val := Elt F) (Name := ℕ) (U := UU) (Lvl := ℕ)
    (ℓ := (c : Thread nD τ).loc cc0_scratch1) (q := fullShare) (f := gY) (g := gX) hD
  rw [rect_cover c] at hj
  iapply hj
  isplitl [HY]
  · iexact HY
  · iexact HX

theorem split_r (c : Dev nD) (f : Buf (Elt F) ((c : Thread nD τ).loc cc0_scratch1)) :
    (((c : Thread nD τ).loc cc0_scratch1) ↦{fullShare} f : sProp 𝕄)
      ⊢ iprop((bigSep (Finset.univ : Finset (Fin 34)) fun k => iprop(∃ f', blkPts c (rSlY c k) fullShare f')) ∗
          (bigSep (Finset.univ : Finset (Fin 30)) fun k => iprop(∃ f', blkPts c (rSlX c k) fullShare f'))) :=
  (rM_split c f).1.trans (Idealize.SL.BI.sep_mono (bigSep_mono fun k _ => exists_intro (Φ := fun f' => blkPts c (rSlY c k) fullShare f') f)
    (bigSep_mono fun k _ => exists_intro (Φ := fun f' => blkPts c (rSlX c k) fullShare f') f))

theorem split_b (c : Dev nD) (f : Buf (Elt F) ((c : Thread nD τ).loc cc0_scratch0)) :
    (((c : Thread nD τ).loc cc0_scratch0) ↦{fullShare} f : sProp 𝕄)
      ⊢ bigSep (Finset.univ : Finset (Fin 34)) fun k => iprop(∃ f', blkPts c (bSl k) fullShare f') :=
  (bM_split c f).1.trans (bigSep_mono fun k _ => exists_intro (Φ := fun f' => blkPts c (bSl k) fullShare f') f)

end Cert.Kernel.AR

end
-- ==== Proof.EpilogueBits.lean ====
import proofs.«900712_g7700000000000713_dist_ar_v7x_xyz2x2x4_y_m2048_n512_bf16_1_alg».proof.Proof.IterBCBits
import proofs.«900712_g7700000000000713_dist_ar_v7x_xyz2x2x4_y_m2048_n512_bf16_1_alg».proof.Proof.RejoinBits
import proofs.«900712_g7700000000000713_dist_ar_v7x_xyz2x2x4_y_m2048_n512_bf16_1_alg».proof.Proof.UnrollBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

def e34 : Fin 30 ↪ Fin 34 := ⟨k34, fun _ _ h => Fin.ext (Fin.val_eq_of_eq h :)⟩

omit [FloatOps F] in
theorem map_e34 : (Finset.univ : Finset (Fin 30)).map e34 = (Finset.univ : Finset (Fin 34)).filter (fun k => ¬ 30 ≤ k.val) := by
  ext k
  simp only [Finset.mem_map, Finset.mem_univ, true_and, Finset.mem_filter]
  constructor
  · rintro ⟨j, rfl⟩; exact Nat.not_le.2 j.isLt
  · intro h; exact ⟨⟨k.val, Nat.not_le.1 h⟩, Fin.ext rfl⟩

-- The 34 blocks of the y link are its last 4 and its first 30, the ones forwarded over the x link.
theorem bigSep34_of_30 (Φ : Fin 34 → sProp 𝕄) :
    iprop(bigSep ((Finset.univ : Finset (Fin 34)).filter fun k => 30 ≤ k.val) Φ ∗ bigSep (Finset.univ : Finset (Fin 30)) fun k => Φ (k34 k))
      ⊢ bigSep (Finset.univ : Finset (Fin 34)) Φ := by
  rw [bigSep_filter_split Finset.univ (fun k : Fin 34 => 30 ≤ k.val), ← map_e34, bigSep_map]
  exact Entails.of_eq rfl

-- Two halves of one block at the same contents make the block.
theorem join_fwd (c : Dev nD) :
    (bigSep Finset.univ fun k : Fin 30 => iprop(xsPay m ρ c k ∗ blkPts c (rSlY c (k34 k)) fullShare.right (landY m ρ c (k34 k))))
      ⊢ bigSep Finset.univ fun k : Fin 30 => iprop(∃ f, blkPts c (rSlY c (k34 k)) fullShare f) := by
  unfold xsPay
  exact bigSep_mono fun k _ => (blk_join_halves c (rSlY c (k34 k)) (landY m ρ c (k34 k))).trans
    (exists_intro (Φ := fun f => blkPts c (rSlY c (k34 k)) fullShare f) (landY m ρ c (k34 k)))

theorem give_back_r (c : Dev nD) :
    iprop((bigSep Finset.univ (fun k : Fin 30 => xsPay m ρ c k)
          ∗ bigSep Finset.univ fun k : Fin 30 => blkPts c (rSlY c (k34 k)) fullShare.right (landY m ρ c (k34 k)))
        ∗ bigSep ((Finset.univ : Finset (Fin 34)).filter fun k => 30 ≤ k.val) (fun k => iprop(∃ f, blkPts c (rSlY c k) fullShare f))
        ∗ bigSep Finset.univ (fun k : Fin 30 => iprop(∃ f, blkPts c (rSlX c k) fullShare f)))
      ⊢ iprop(∃ f : Buf (Elt F) ((c : Thread nD τ).loc cc0_scratch1), ((c : Thread nD τ).loc cc0_scratch1) ↦{fullShare} f) := by
  rw [← bigSep_sep']
  iintro ⟨HZ, HK, HX⟩
  iapply (rejoin_r (F := F) c); iframe HX
  iapply (bigSep34_of_30 (F := F) fun k => iprop(∃ f, blkPts c (rSlY c k) fullShare f)); iframe HK
  iapply (join_fwd m ρ c); iexact HZ

-- Agreement on every block is equality.
theorem out_done (c : Dev nD) :
    outSt m ρ c Finset.univ Finset.univ ⊢ (((c : Thread nD τ).loc cc0_stg1_0) ↦{fullShare} outG m ρ c : sProp 𝕄) := by
  unfold outSt
  iintro ⟨%g, %hg, H⟩
  rw [agree_done c Finset.mem_univ Finset.mem_univ hg]
  iexact H

end Cert.Kernel.AR

end
-- ==== Proof.BodyGenBits.lean ====
import proofs.«900712_g7700000000000713_dist_ar_v7x_xyz2x2x4_y_m2048_n512_bf16_1_alg».proof.Proof.PhaseABits
import proofs.«900712_g7700000000000713_dist_ar_v7x_xyz2x2x4_y_m2048_n512_bf16_1_alg».proof.Proof.PhaseBCBits
import proofs.«900712_g7700000000000713_dist_ar_v7x_xyz2x2x4_y_m2048_n512_bf16_1_alg».proof.Proof.IterDEBits
import proofs.«900712_g7700000000000713_dist_ar_v7x_xyz2x2x4_y_m2048_n512_bf16_1_alg».proof.Proof.EpilogueBits
import proofs.«900712_g7700000000000713_dist_ar_v7x_xyz2x2x4_y_m2048_n512_bf16_1_alg».proof.Proof.OffIdealBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Before the first send each neighbour is given this device's landing blocks, and the device theirs.
theorem prologue (K : GSem nD τ sig → ℕ) (c : Dev nD) {α : Type} (Q : α → sProp 𝕄) (rest : Prog (TpuEff nD τ sig (Elt F) Λ₀ .tc) α)
    (fr : Buf (Elt F) ((c : Thread nD τ).loc cc0_scratch1)) (W : Waits sig Unit) :
    iprop(records m ρ K ∗ levAts L lv ∗ atPos ER (barCell c) 0 ∅ 0 ∗ dutyTok ER (barCell (yn c)) 0 false ∗ dutyTok ER (barCell (xn c)) 0 true
        ∗ cred (tallyAt (barCell c) () 2) ∗ (((c : Thread nD τ).loc cc0_scratch1) ↦{fullShare} fr) ∗ owes (c : Thread nD τ) (O₀ c) W
        ∗ (((bigSep (Finset.univ : Finset (Fin 34)) fun k => iprop(∃ f, blkPts (yn c) (rSlY (yn c) k) fullShare f))
            ∗ (bigSep (Finset.univ : Finset (Fin 30)) fun k => iprop(∃ f, blkPts (xn c) (rSlX (xn c) k) fullShare f))
            ∗ ∃ W, owes (c : Thread nD τ) (oweX c 0 + oweY c 0) W)
            -∗ wp frame (wpE (defs₀ (F := F)) 𝒱₀ (c : Thread nD τ) none) Set.univ rest Q))
      ⊢ wp frame (wpE (defs₀ (F := F)) 𝒱₀ (c : Thread nD τ) none) Set.univ (.op (.semSignal (yn c : Thread nD τ) barS (1#32).toNat) fun _ => .op (.semSignal (xn c : Thread nD τ) barS (1#32).toNat) fun _ =>
            .op (.semWait barS (2#32).toNat) fun _ => rest) Q := by
  iintro ⟨#Hrec, #Hlev, HatB, HtBY, HtBX, HcB, Hr, HO, Hk⟩
  ihave ⟨HrY, HrX⟩ := (split_r (F := F) c fr) $$ Hr
  ihave ⟨#HIbarY, #HrBarY⟩ := (rec_bar m ρ K (yn c)) $$ Hrec
  unfold O₀
  iapply (Rounds.wp_signal 𝒱₀ ER (arRd m ρ) (c : Thread nD τ) none (dst := (yn c : Thread nD τ)) (κ := K (barCell (yn c)))
      (d := false) (by rw [duties_bar]; exact Finset.mem_univ _) ((amount_bar m ρ (yn c) false).trans (by decide)) () (O₁ c) rfl)
    $$ [HO HtBY HrY]
  · rw [payload_bar_false]; unfold barPayY; rw [yn_yn]
    iframe # ∗
    isplitl [HO]; · iexact HO
    iapply (BI.bigSep_with_persistent (R := records m ρ K) (Φ := fun k : Fin 34 => iprop(∃ f, blkPts c (rSlY c k) fullShare f)) fun k _ => by
      iintro ⟨#Hrec', H⟩
      ihave ⟨-, #Hq⟩ := (rec_yr m ρ K c k) $$ Hrec'
      iframe # ∗)
    iframe # ∗
  iintro HO
  ihave ⟨#HIbarX, #HrBarX⟩ := (rec_bar m ρ K (xn c)) $$ Hrec
  unfold O₁
  iapply (Rounds.wp_signal 𝒱₀ ER (arRd m ρ) (c : Thread nD τ) none (dst := (xn c : Thread nD τ)) (κ := K (barCell (xn c)))
      (d := true) (by rw [duties_bar]; exact Finset.mem_univ _) ((amount_bar m ρ (xn c) true).trans (by decide)) () (O₂ c) rfl)
    $$ [HO HtBX HrX]
  · rw [payload_bar_true]; unfold barPayX; rw [xn_xn]
    iframe # ∗
    isplitl [HO]; · iexact HO
    iapply (BI.bigSep_with_persistent (R := records m ρ K) (Φ := fun k : Fin 30 => iprop(∃ f, blkPts c (rSlX c k) fullShare f)) fun k _ => by
      iintro ⟨#Hrec', H⟩
      ihave ⟨-, #Hq⟩ := (rec_xr m ρ K c k) $$ Hrec'
      iframe # ∗)
    iframe # ∗
  iintro HO
  ihave ⟨#HIbar, -⟩ := (rec_bar m ρ K c) $$ Hrec
  iapply (Rounds.wp_wait_rest_token 𝒱₀ ER (arRd m ρ) (c : Thread nD τ) none (κ := K (barCell c))
      (wpE_semWait_eq 𝒱₀ (c : Thread nD τ) none Set.univ) (Set.mem_univ _) () (O := O₂ c) (W := W) (R := 0) (m := 0) (T := ∅)
      (by rw [expect_bar]; decide)) $$ [HcB HO HatB]
  · iframe # ∗
    isplitl [HcB]; · iexact HcB
    iapply (mayWait_bar (F := F) c); iexact Hlev
  rw [rest_bar m ρ c]; unfold barPayY barPayX O₂; rw [bigSep_sep', bigSep_sep']
  iintro ⟨HO, -, -, ⟨HpY, -⟩, HpX, -⟩
  iapply Hk; iframe
  iexists _; iexact HO

theorem fetch_0 (t : Fin cfg0.N) : (cfg0.win (0 : Fin 2)).fetch t = true := by rw [fin_N t]; rfl

theorem sound_gen (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyGen (F := F)) Kt := by
  have hA := phaseA_spec m ρ K c Kt
  have hB := phaseB_spec m ρ K c Kt
  have hC := phaseC_spec m ρ K c Kt
  have hD := phaseD_spec m ρ K c Kt
  have hE := phaseE_spec m ρ K c Kt
  have hZ := close_all m ρ K c
  unfold preA at hA
  unfold preYr preXs postXs at hB
  unfold preXr postXr at hC
  unfold ysPay at hD
  simp only [bigSep_sep'] at hA hB hC hD hE hZ
  unfold bodyPre bodyPost ghost positions payToks creds Φ₁ Dat.owesAt Pipeline.owesWithin
  simp only [bigSep_sep']
  rw [show (dats m ρ 0 c).owed t₀.castSucc = O₀ c from rfl, show (dats m ρ 0 c).owed t₀.succ = 0 from rfl]
  iintro ⟨⟨⟨⟨#Hrec, ⟨HatB, ⟨HaYs, HaYr⟩, HaXs, HaXr⟩, HtBY, HtBX, ⟨HtYs, HtYr⟩, HtXs, HtXr⟩, ⟨HcB, HcY, HcX⟩, #Hlev, ⟨%fb, Hb⟩, ⟨%fr, Hr⟩⟩,
    ⟨%W, %hW, HO⟩, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold bodyGen
  simp only [semSignalWord, semWaitWord, Prog.lift, Prog.bind_op, Prog.bind_ret, Prog.pure_eq_ret, wp_deviceId]
  simp only [dev1_eq c, dev2_eq c]
  iapply (prologue m ρ K c Kt (phases c) fr W); iframe # ∗
  iintro ⟨HdY, HdX, HO⟩
  unfold phases
  simp only [bind_assoc]
  ihave Hbs := (split_b (F := F) c fb) $$ Hb
  iapply (hA _); iframe # ∗
  iintro ⟨Hx, HO, HcYs⟩
  iapply (hB _); iframe # ∗
  isplitl [Hout]
  · unfold outSt; iexists g1; iframe
    ipureintro; exact agree_start c g1 _
  iintro ⟨Hx, Hout, HO, HaYr1, ⟨HRight, HcXs⟩, HBlast⟩
  iapply (hC _); iframe # ∗
  iintro ⟨Hx, Hout, HO, HaXr1, HXblk⟩
  iapply (hD _); iframe # ∗
  iintro ⟨HO, HaYs1, HysP⟩
  rw [← Prog.bind_pure (seqN 30 (iterE c))]
  iapply (hE _); iframe # ∗
  iintro ⟨HO, HaXs1, HxsP⟩
  ihave Hbw := (rejoin_b (F := F) c) $$ HysP
  ihave Hrw := (give_back_r m ρ c) $$ [HxsP HRight HBlast HXblk]
  · iframe
  imod hZ $$ [HaYs1 HaYr1 HaXs1 HaXr1] with ⟨⟨HzYs, HzYr⟩, HzXs, HzXr⟩
  · iframe # ∗
  ihave Houtf := (out_done m ρ c) $$ Hout
  rw [Prog.pure_eq_ret, wp_ret]; imodintro
  iapply Hk; iframe
  icases HO with ⟨%W', HO⟩
  isplitl [HO]
  · iexists W'; iframe
    ipureintro; exact fun _ _ => Or.inl trivial
  isplitl [Hx] <;> iexists _ <;> iframe <;> (ipureintro; rfl)

end Cert.Kernel.AR

end
-- ==== Proof.BridgeBits.lean ====
import proofs.«900712_g7700000000000713_dist_ar_v7x_xyz2x2x4_y_m2048_n512_bf16_1_alg».proof.Proof.GenProgBits
import Idealize.ShloMosaic.Lib.Pipeline.Regions

noncomputable section

namespace Cert.Kernel.AR

open Cert.Kernel Cert.Kernel.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

theorem body_eq : cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5 = bodyGen := by
  chain_rfl

/-- info: 'Cert.Kernel.AR.body_eq' depends on axioms: [propext, Classical.choice, Quot.sound] -/
#guard_msgs in #print axioms body_eq

end Cert.Kernel.AR

end
-- ==== Proof.BodyBits.lean ====
import proofs.«900712_g7700000000000713_dist_ar_v7x_xyz2x2x4_y_m2048_n512_bf16_1_alg».proof.Proof.BodyGenBits
import proofs.«900712_g7700000000000713_dist_ar_v7x_xyz2x2x4_y_m2048_n512_bf16_1_alg».proof.Proof.BridgeBits

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem sound_body (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  rw [body_eq]
  exact sound_gen m ρ K c Kt

end Cert.Kernel.AR

end
-- ==== Proof.LaunchBits.lean ====
import proofs.«900712_g7700000000000713_dist_ar_v7x_xyz2x2x4_y_m2048_n512_bf16_1_alg».proof.Proof.BodyBits
import proofs.«900712_g7700000000000713_dist_ar_v7x_xyz2x2x4_y_m2048_n512_bf16_1_alg».proof.Proof.Gen.Kernel.Points

noncomputable section

namespace Cert.Kernel.AR

open Cert.Kernel Cert.Kernel.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

set_option maxRecDepth 100000 in
theorem body_obligation (c : Dev nD) : BodyObligation (dats (F := F) m ρ 0 c) (defs₀ (F := F)) 𝒱₀ () Set.univ := fun t => by
  rw [fin_N t, bigSep_W0, bigSep_W0]
  simp only [owns_whole_eq]
  show iprop(Φ₀ m ρ c ∗ _ ∗ (∃ d, stg c cc0_stg0_0 _) ∗ ∃ d, stg c cc0_stg1_0 _) ⊢ wp _ _ _ _ fun _ => bodyPost m ρ c
  unfold Φ₀ start
  iintro ⟨⟨⟨⟨%K, Hg⟩, Hcr, Hlev⟩, Hb, Hr⟩, Ho, Hx, Hout⟩
  iapply (sound_body m ρ K c fun _ => bodyPost m ρ c)
  unfold bodyPre
  iframe
  iintro H; iexact H

abbrev OI : Type := (Fin 34 × Bool) ⊕ (Fin 30 × Bool)
abbrev CI : Type := Unit ⊕ OI

def csem : CI → SemLoc sig
  | .inl _ => .reg barS
  | .inr (.inl (k, false)) => .dma (ysS k)
  | .inr (.inl (k, true)) => .dma (yrS k)
  | .inr (.inr (k, false)) => .dma (xsS k)
  | .inr (.inr (k, true)) => .dma (xrS k)
abbrev osem (i : OI) : SemLoc sig := csem (.inr i)
abbrev kcell (ck : Dev nD × CI) : GSem nD τ sig := ((ck.1 : Thread nD τ), csem ck.2)

/-- The index of a kind: a left inverse of `kind ∘ csem`, so `csem` is injective. -/
def ofKind : CK → CI
  | .ys k => .inr (.inl (k, false))
  | .yr k => .inr (.inl (k, true))
  | .xs k => .inr (.inr (k, false))
  | .xr k => .inr (.inr (k, true))
  | _ => .inl ()
theorem ofKind_csem (i : CI) : ofKind (kind (csem i)) = i := by
  rcases i with _ | ⟨k, _ | _⟩ | ⟨k, _ | _⟩
  exacts [rfl, congrArg ofKind (kind_ys k), congrArg ofKind (kind_yr k), congrArg ofKind (kind_xs k), congrArg ofKind (kind_xr k)]
theorem csem_injective : Function.Injective csem := Function.LeftInverse.injective (g := fun s => ofKind (kind s)) ofKind_csem

theorem stage_kind : ∀ (w : Fin cfg0.W) (s : Fin (cfg0.win w).nbuf), kind (.dma ((cfg0.win w).sem s)) = .other := by decide

theorem ownSemFacts : Pipeline.OwnSemFacts cfg0.spec osem where
  isScoped i := by
    have h : ∀ s : DmaSem sig, (SemLoc.dma s : SemLoc sig).isScoped .tc = true := by decide
    rcases i with ⟨k, _ | _⟩ | ⟨k, _ | _⟩ <;> exact h _
  inj i j h := Sum.inr_injective (csem_injective h)
  disj i w s h := by
    have e : ofKind (kind (osem i)) = .inr i := ofKind_csem (.inr i)
    rw [h, stage_kind] at e; cases e

theorem kcell_injective : Function.Injective (kcell : Dev nD × CI → GSem nD τ sig) := by
  rintro ⟨c, i⟩ ⟨c', i'⟩ h
  obtain rfl : c = c' := congrArg (fun g : GSem nD τ sig => g.1.1) h
  exact congrArg (Prod.mk c) (csem_injective (congrArg Prod.snd h))
def arCells : Finset (GSem nD τ sig) := Finset.univ.map ⟨kcell, kcell_injective⟩

abbrev tokOf (cj : Dev nD × (CI ⊕ Unit)) : GSem nD τ sig × ℕ × Bool := match cj.2 with
  | .inl i => (kcell (cj.1, i), 0, false)
  | .inr _ => (barCell cj.1, 0, true)
theorem tokOf_injective : Function.Injective (tokOf : Dev nD × (CI ⊕ Unit) → GSem nD τ sig × ℕ × Bool) := by
  rintro ⟨c, i | _⟩ ⟨c', i' | _⟩ h
  · cases kcell_injective (a₁ := (c, i)) (a₂ := (c', i')) (congrArg Prod.fst h); rfl
  · cases congrArg (fun x : GSem nD τ sig × ℕ × Bool => x.2.2) h
  · cases congrArg (fun x : GSem nD τ sig × ℕ × Bool => x.2.2) h
  · obtain rfl : c = c' := congrArg (fun x : GSem nD τ sig × ℕ × Bool => x.1.1.1) h
    rfl
def arToks : Finset (GSem nD τ sig × ℕ × Bool) := Finset.univ.map ⟨tokOf, tokOf_injective⟩

def u₀ : UU :=
  (initOf (Pipeline.cells cfgs cellOf_inj) (Pipeline.launchToks cfgs cellOf_inj), initOf arCells arToks)

theorem bigSep_bool' {M : Type} [URA M] (Φ : Bool → sProp M) : bigSep Finset.univ Φ = iprop(Φ false ∗ Φ true) := by
  rw [bigSep_univ_eq_bigSepL [false, true] (by decide) (by decide), bigSepL_cons_cons, bigSepL_singleton]
  rfl

theorem bigSep_OI {M : Type} [URA M] (Φ : OI → sProp M) :
    bigSep Finset.univ Φ
      = iprop((bigSep (Finset.univ : Finset (Fin 34)) fun k => iprop(Φ (.inl (k, false)) ∗ Φ (.inl (k, true))))
          ∗ (bigSep (Finset.univ : Finset (Fin 30)) fun k => iprop(Φ (.inr (k, false)) ∗ Φ (.inr (k, true))))) := by
  rw [bigSep_univ_sum, bigSep_univ_prod, bigSep_univ_prod]; simp only [bigSep_bool']; rfl

theorem bigSep_CI {M : Type} [URA M] (Φ : CI → sProp M) : bigSep Finset.univ Φ = iprop(Φ (.inl ()) ∗ bigSep Finset.univ fun i : OI => Φ (.inr i)) := by
  rw [bigSep_univ_sum, bigSep_univ_of_subsingleton ()]; rfl

instance arRd_payload_storable (g : GSem nD τ sig) (r : ℕ) (d : Bool) :
    BI.Storable (upEmb : UEmb _ 𝕄) ((arRd (F := F) m ρ).payload g r d) := by
  dsimp only [arRd]
  unfold barPayX barPayY ysPay yrPay xsPay xrPay
  (repeat' split) <;> infer_instance

def toks (c : Dev nD) : sProp 𝕄 :=
  iprop((dutyTok ER (barCell c) 0 false
      ∗ (bigSep (Finset.univ : Finset (Fin 34)) fun k => iprop(dutyTok ER (ysCell c k) 0 false ∗ dutyTok ER (yrCell c k) 0 false))
      ∗ (bigSep (Finset.univ : Finset (Fin 30)) fun k => iprop(dutyTok ER (xsCell c k) 0 false ∗ dutyTok ER (xrCell c k) 0 false)))
    ∗ dutyTok ER (barCell c) 0 true)

/-- What passes through the allocation of the invariants unchanged: positions, round-0 marks, tokens. -/
def R (c : Dev nD) : sProp 𝕄 :=
  iprop((bigSep Finset.univ fun i : CI => iprop(atPos ER (kcell (c, i)) 0 ∅ 0 ∗ reached ER (kcell (c, i)) 0)) ∗ toks c)

def G (c : Dev nD) : sProp 𝕄 := iprop((bigSep Finset.univ fun i : CI => roundState ER (arRd m ρ) (kcell (c, i)) 0) ∗ R c)

def G₁ (c : Dev nD) : sProp 𝕄 := iprop((bigSep Finset.univ fun i : CI => iprop(∃ κ : ℕ, cellInv ER (arRd m ρ) κ (kcell (c, i)))) ∗ R c)

def G' (c : Dev nD) : sProp 𝕄 := iprop(∃ K, ghost m ρ K c)

theorem bigSep_arCells (Φ : GSem nD τ sig → sProp 𝕄) :
    bigSep arCells Φ = bigSep Finset.univ fun c : Dev nD => bigSep Finset.univ fun i : CI => Φ (kcell (c, i)) := by
  unfold arCells; rw [bigSep_map, bigSep_univ_prod]; rfl

theorem bigSep_arToks : bigSep arToks (fun x => (dutyTok ER x.1 x.2.1 x.2.2 : sProp 𝕄)) = bigSep Finset.univ fun c : Dev nD => toks c := by
  unfold arToks; rw [bigSep_map, bigSep_univ_prod]
  exact bigSep_congr fun c _ => by unfold toks; rw [bigSep_univ_sum, bigSep_CI, bigSep_OI, bigSep_univ_of_subsingleton ()]; rfl

theorem fund_ar : BI.own (ER (initOf arCells arToks)) ⊢ (|==> bigSep Finset.univ (G m ρ) : sProp 𝕄) := by
  iintro HX
  imod (Rounds.fund ER (arRd m ρ) arCells arToks) $$ HX with ⟨Hst, Hr, Hat, Htok⟩
  imodintro
  unfold G R; simp only [bigSep_sep']
  rw [← bigSep_arCells fun g => roundState ER (arRd m ρ) g 0, ← bigSep_arCells fun g => atPos ER g 0 ∅ 0,
    ← bigSep_arCells fun g => reached ER g 0, ← bigSep_arToks (F := F)]
  iframe

abbrev own0 (c : Dev nD) : sProp 𝕄 := Pipeline.ownSems0 (Ix := Unit) (Name := ℕ) (U := UU) (Lvl := ℕ) (Val := Elt F) (τ := τ) osem c

theorem ownSems0_eq (c : Dev nD) : own0 (F := F) c
    = iprop((bigSep (Finset.univ : Finset (Fin 34)) fun k => iprop(semVal (ysCell c k) 0 ∗ semVal (yrCell c k) 0))
        ∗ (bigSep (Finset.univ : Finset (Fin 30)) fun k => iprop(semVal (xsCell c k) 0 ∗ semVal (xrCell c k) 0))) := by
  unfold own0 Pipeline.ownSems0; rw [bigSep_OI]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(own0 (F := F) c ∗ unscopedSems0 c)
      ⊢ (bigSep Finset.univ fun i : CI => semVal (kcell (c, i)) 0 : sProp 𝕄) := by
  rw [unscopedSems0_eq, bigSep_CI]
  unfold own0 Pipeline.ownSems0
  show _ ⊢ iprop(semVal (barCell c) 0 ∗ bigSep Finset.univ fun i : OI => semVal ((c : Thread nD τ), osem i) 0)
  iintro ⟨HS, HB⟩
  iframe

theorem core_alloc (c : Dev nD) : iprop(own0 (F := F) c ∗ unscopedSems0 c ∗ G m ρ c) ⊢ |={Set.univ}=> G₁ m ρ c := by
  unfold G G₁
  iintro ⟨Hos, Hus, Hst, HR⟩
  ihave Hv := (sems0_eq (F := F) c) $$ [Hos Hus]
  · iframe
  imod (show iprop((bigSep Finset.univ fun i : CI => semVal (kcell (c, i)) 0) ∗ bigSep Finset.univ fun i : CI => roundState ER (arRd m ρ) (kcell (c, i)) 0)
      ⊢ (|={Set.univ}=> bigSep Finset.univ fun i : CI => iprop(∃ κ : ℕ, cellInv ER (arRd m ρ) κ (kcell (c, i))) : sProp 𝕄) from by
        rw [← bigSep_sep']
        exact (bigSep_mono fun i _ => (Rounds.body_intro ER (arRd m ρ) (kcell (c, i))).trans inv_alloc).trans (bigSep_fupd _ _)) $$ [Hv Hst] with Hinv
  · iframe
  imodintro
  iframe

theorem records_eq (K : GSem nD τ sig → ℕ) :
    records m ρ K = bigSep Finset.univ fun c : Dev nD => bigSep Finset.univ fun i : CI =>
      iprop(cellInv ER (arRd m ρ) (K (kcell (c, i))) (kcell (c, i)) ∗ reached ER (kcell (c, i)) 0) := by
  unfold records
  exact bigSep_congr fun c _ => by rw [bigSep_CI, bigSep_OI]; rfl

theorem positions_eq (c : Dev nD) : (positions c : sProp 𝕄) = bigSep Finset.univ fun i : CI => atPos ER (kcell (c, i)) 0 ∅ 0 := by
  unfold positions; rw [bigSep_CI, bigSep_OI]; rfl

def ynE : Dev nD ≃ Dev nD := ⟨yn, yn, yn_yn, yn_yn⟩
def xnE : Dev nD ≃ Dev nD := ⟨xn, xn, xn_xn, xn_xn⟩

theorem toks_around : (bigSep Finset.univ fun c : Dev nD => (toks c : sProp 𝕄)) ⊢ bigSep Finset.univ fun c : Dev nD => payToks c := by
  unfold toks payToks
  simp only [bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => bigSep Finset.univ fun k : Fin 34 => (dutyTok ER (yrCell c k) 0 false : sProp 𝕄)),
    bigSep_univ_equiv xnE (fun c : Dev nD => bigSep Finset.univ fun k : Fin 30 => (dutyTok ER (xrCell c k) 0 false : sProp 𝕄))]
  simp only [ynE, xnE, Equiv.coe_fn_mk]
  iintro ⟨⟨H1, ⟨H3, H4⟩, H5, H6⟩, H2⟩
  iframe

theorem regroup : (bigSep Finset.univ fun c : Dev nD => G₁ m ρ c) ⊢ bigSep Finset.univ (G' m ρ) := by
  unfold G₁ R
  simp only [bigSep_sep']
  rw [← bigSep_arCells fun g => iprop(∃ κ : ℕ, cellInv ER (arRd m ρ) κ g)]
  iintro ⟨HI, ⟨Hat, #HR⟩, Htok⟩
  ihave HK := (BI.bigSep_exists_pi arCells (fun (g : GSem nD τ sig) (κ : ℕ) => (cellInv ER (arRd m ρ) κ g : sProp 𝕄))) $$ HI
  icases HK with ⟨%K, #HI⟩
  ihave Htk := (toks_around (F := F)) $$ Htok
  iapply (BI.bigSep_with_persistent (R := records m ρ K) (Φ := fun c => iprop(positions c ∗ payToks c)) fun c _ => by
    unfold G' ghost
    iintro ⟨HR, HP⟩
    iexists K
    iframe)
  rw [records_eq]
  simp only [bigSep_sep']
  rw [← bigSep_arCells (fun g => cellInv ER (arRd m ρ) (K g) g), bigSep_congr (s := Finset.univ) fun (c : Dev nD) _ => positions_eq (F := F) c]
  iframe HI HR Hat Htk

theorem glob : (bigSep Finset.univ fun c => iprop(own0 (F := F) c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem O₀_eq : (O₀ : Dev nD → CellTallies nD τ sig Unit)
    = fun d => ((oweX d 0 + oweY d 0) + tallyAt (barCell (xn d)) () 1) + tallyAt (barCell (yn d)) () 1 := rfl

/-- Credit owed across an involution `f` of the devices comes back to each device's own cells. -/
theorem cred_owe {n : ℕ} (s : Fin n → DmaSem sig) (f : Dev nD → Dev nD) (hf : ∀ d, f (f d) = d) (c : Dev nD) :
    (Pipeline.launchCred (fun d : Dev nD => ∑ k ∈ Finset.univ.filter (fun k : Fin n => 0 ≤ k.val), tallyAt ((f d : Thread nD τ), .dma (s k)) () N) c : sProp 𝕄)
      ⊢ bigSep Finset.univ fun k => cred (tallyAt ((c : Thread nD τ), .dma (s k)) () N) := by
  rw [Pipeline.launchCred_sum, Finset.filter_true_of_mem fun k _ => Nat.zero_le _]
  exact bigSep_mono fun k _ => Pipeline.launchCred_tallyAt (.dma (s k)) f f hf hf () N c

theorem creds_intro (c : Dev nD) : (Pipeline.launchCred O₀ c : sProp 𝕄) ⊢ creds c := by
  rw [O₀_eq, Pipeline.launchCred_add, Pipeline.launchCred_add, Pipeline.launchCred_add]
  unfold creds
  iintro ⟨⟨⟨HX, HY⟩, HbX⟩, HbY⟩
  ihave HbX' := (Pipeline.launchCred_tallyAt (SemLoc.reg barS) xn xn xn_xn xn_xn () 1 c) $$ HbX
  ihave HbY' := (Pipeline.launchCred_tallyAt (SemLoc.reg barS) yn yn yn_yn yn_yn () 1 c) $$ HbY
  isplitl [HbX' HbY']
  · rw [← tallyAt_add (barCell c) () 1 1]
    iapply (cred_add _ _).2
    iframe
  isplitl [HY]
  · iapply (cred_owe (F := F) yrS yn yn_yn c); iexact HY
  · iapply (cred_owe (F := F) xrS xn xn_xn c); iexact HX

theorem waits (c : Dev nD) : (levAts L lv : sProp 𝕄) ⊢ Pipeline.cellsWaits cfgs (dats m ρ) () 0 c :=
  Pipeline.cellsWaits_intro cfgs (dats m ρ) () 0 c fun w s t =>
    mayWait_stage c _ (Or.inl (stage_kind w s)) _ (by
      rcases t with ⟨_ | _, ht⟩
      · exact Or.inl rfl
      · exact Or.inr rfl)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  iframe

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hb, Hr⟩
  iframe

theorem phi1_exit (c : Dev nD) :
    (dats m ρ 0 c).Φ (Fin.last cfg0.N) ⊢ iprop(emp ∗ own0 (F := F) c ∗ Pipeline.scopedRest cfg0.spec c) := by
  rw [show (dats m ρ 0 c).Φ (Fin.last cfg0.N) = Φ₁ (F := F) c from rfl, scopedRest0_eq, ownSems0_eq]
  unfold Φ₁
  iintro ⟨Hb, Hr, HY, HX⟩
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ar m ρ) $$ HX with HG
      imodintro
      iframe)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      iframe)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = (outAt m ρ c : Buf (Elt F) ((c : Thread nD τ).loc main_v1)) := by
  unfold finalA
  show (dats m ρ 0 c).arrAt (1 : Fin 2) (t₀.val + 1) = _
  rw [Dat.arrAt_succ, flush0_1 t₀, if_pos rfl]
  exact Memref.write_access_unit_zero_univ (Elt F) main_v1 (funext fun a => Nat.zero_mul _) _ _ _

end Launch

end Cert.Kernel.AR

end
-- ==== Proof.ClaimsBits.lean ====
import proofs.«900712_g7700000000000713_dist_ar_v7x_xyz2x2x4_y_m2048_n512_bf16_1_alg».proof.Defs
import proofs.«900712_g7700000000000713_dist_ar_v7x_xyz2x2x4_y_m2048_n512_bf16_1_alg».proof.Proof.LaunchBits
import Idealize.ShloMosaic.PureOps.BitExact
import proofs.«900712_g7700000000000713_dist_ar_v7x_xyz2x2x4_y_m2048_n512_bf16_1_alg».proof.Proof.Gen.Pre_finite_inputs_Kernel

noncomputable section

namespace Cert.Kernel.AR

open Cert.Kernel Cert.Kernel.Gen Cert.AR

open Idealize.ShloMosaic
open Idealize.ShloMosaic.TcCoe
open Idealize.SL Idealize.SL.Sem

namespace Claims

theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c (0 : Fin 2)).trans (Launch.finalA_x m ρ c)) (Launch.run_main (F := Bits) m ρ)

end Claims

end Cert.Kernel.AR

end
-- ==== Proof.Sched.lean ====
import proofs.«900712_g7700000000000713_dist_ar_v7x_xyz2x2x4_y_m2048_n512_bf16_1_alg».proof.Proof.Gen.KernelIdeal
import proofs.«900712_g7700000000000713_dist_ar_v7x_xyz2x2x4_y_m2048_n512_bf16_1_alg».proof.Proof.Gen.KernelIdeal.Launch
import proofs.«900712_g7700000000000713_dist_ar_v7x_xyz2x2x4_y_m2048_n512_bf16_1_alg».proof.Proof.Idx
import proofs.«900712_g7700000000000713_dist_ar_v7x_xyz2x2x4_y_m2048_n512_bf16_1_alg».proof.Proof.Spec
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S2048x512 .f32 := Memref.whole cc0_stg0_0
abbrev oM : Memref sig .tc .vmem S2048x512 .f32 := Memref.whole cc0_stg1_0
abbrev bM : Memref sig .tc .vmem S1088x512 .bf16 := Memref.whole cc0_scratch0
abbrev rM : Memref sig .tc .vmem S2048x512 .bf16 := Memref.whole cc0_scratch1

theorem bOff_inb (k : Fin 34) : ∀ a, (![32 * k.val, 0] : Fin 2 → Nat) a + S32x512.size a ≤ S1088x512.size a := by
  have := k.isLt; intro a; fin_cases a <;> simp [Shape.size] <;> omega

abbrev rB (k : Fin 34) : Rect S1088x512 := Rect.unit (s := S1088x512) ![32 * k.val, 0] S32x512.size (bOff_inb k)
abbrev rY (c : Dev nD) (k : Fin 34) : Rect S2048x512 := Rect.unit (s := S2048x512) (k0_off1 c (BitVec.ofNat 32 k.val)) S32x512.size (k0_off1_inb c k)
abbrev rY2 (c : Dev nD) (k : Fin 34) : Rect S2048x512 := Rect.unit (s := S2048x512) (k0_off2 c (BitVec.ofNat 32 k.val)) S32x512.size (k0_off2_inb c k)
abbrev rX (c : Dev nD) (k : Fin 30) : Rect S2048x512 := Rect.unit (s := S2048x512) (k0_off3 c (BitVec.ofNat 32 k.val)) S32x512.size (k0_off3_inb c k)

def bSl (k : Fin 34) : Memref sig .tc .vmem S32x512 .bf16 := bM.slice (rB k) (fun _ => rfl)

def rSlY (c : Dev nD) (k : Fin 34) : Memref sig .tc .vmem S32x512 .bf16 :=
  rM.slice (rY2 c k) (fun _ => rfl)

def rSlX (c : Dev nD) (k : Fin 30) : Memref sig .tc .vmem S32x512 .bf16 :=
  rM.slice (rX c k) (fun _ => rfl)

abbrev barS : Sem sig := (SemArray.scalar (sig.barrier 0 rfl) : Sems sig S_).sem

theorem i34 (k : Fin 34) : ∀ a, (![k.val] : Fin 1 → Nat) a + S1.size a ≤ S34.size a := by
  have := k.isLt; intro a; fin_cases a; (try simp [Shape.size]) <;> (try omega)
theorem i30 (k : Fin 30) : ∀ a, (![k.val] : Fin 1 → Nat) a + S1.size a ≤ S30.size a := by
  have := k.isLt; intro a; fin_cases a; (try simp [Shape.size]) <;> (try omega)

def ysS (k : Fin 34) : DmaSem sig := ((cc0_scratch2.slice (Rect.unit (s := S34) ![k.val] S1.size (i34 k))).squeeze S_ squeezes_S1_S_).sem
def yrS (k : Fin 34) : DmaSem sig := ((cc0_scratch3.slice (Rect.unit (s := S34) ![k.val] S1.size (i34 k))).squeeze S_ squeezes_S1_S_).sem
def xsS (k : Fin 30) : DmaSem sig := ((cc0_scratch4.slice (Rect.unit (s := S30) ![k.val] S1.size (i30 k))).squeeze S_ squeezes_S1_S_).sem
def xrS (k : Fin 30) : DmaSem sig := ((cc0_scratch5.slice (Rect.unit (s := S30) ![k.val] S1.size (i30 k))).squeeze S_ squeezes_S1_S_).sem

abbrev barCell (c : Dev nD) : GSem nD τ sig := ((c : Thread nD τ), .reg barS)
abbrev ysCell (c : Dev nD) (k : Fin 34) : GSem nD τ sig := ((c : Thread nD τ), .dma (ysS k))
abbrev yrCell (c : Dev nD) (k : Fin 34) : GSem nD τ sig := ((c : Thread nD τ), .dma (yrS k))
abbrev xsCell (c : Dev nD) (k : Fin 30) : GSem nD τ sig := ((c : Thread nD τ), .dma (xsS k))
abbrev xrCell (c : Dev nD) (k : Fin 30) : GSem nD τ sig := ((c : Thread nD τ), .dma (xrS k))

inductive CK where
  | bar | ys (k : Fin 34) | yr (k : Fin 34) | xs (k : Fin 30) | xr (k : Fin 30) | other
deriving DecidableEq

def kind : SemLoc sig → CK
  | .reg _ => .bar
  | .dma s =>
    if h0 : s.val < 2 then .other
    else if h1 : s.val < 36 then .ys ⟨s.val - 2, by omega⟩
    else if h2 : s.val < 70 then .yr ⟨s.val - 36, by omega⟩
    else if h3 : s.val < 100 then .xs ⟨s.val - 70, by omega⟩
    else .xr ⟨s.val - 100, by have : s.val < 130 := s.isLt; omega⟩

theorem kind_ys : ∀ k : Fin 34, kind (.dma (ysS k)) = .ys k := by decide
theorem kind_yr : ∀ k : Fin 34, kind (.dma (yrS k)) = .yr k := by decide
theorem kind_xs : ∀ k : Fin 30, kind (.dma (xsS k)) = .xs k := by decide
theorem kind_xr : ∀ k : Fin 30, kind (.dma (xrS k)) = .xr k := by decide
theorem kind_bar : kind (.reg barS) = .bar := rfl

abbrev N : ℕ := (bSl 0).view.dmaCredit
theorem N_pos : 0 < N := View.dmaCredit_pos _ (by decide)

def xstg (c : Dev nD) : (cc0_stg0_0 : Ref sig .tc).ty.Contents (Elt F) :=
  (win0_0.blk (0 : Fin 1)).view.read (Elt F) ((s₀ m ρ).mem ((c : Thread nD τ).loc main_arg0))

def ydata (c : Dev nD) (k : Fin 34) : Vec F S32x512 .bf16 :=
  Cert.AR.P1 (xM.view.readAt (Elt F) (rY c k).toLoadRect (xstg m ρ c))

abbrev k34 (k : Fin 30) : Fin 34 := ⟨k.val, by have := k.isLt; omega⟩

def landY (c : Dev nD) (k : Fin 34) : Buf (Elt F) ((rSlY c k).view.loc (c : Thread nD τ)) :=
  (rSlY c k).view.write (Elt F) (m ((c : Thread nD τ).loc cc0_scratch1)) (ydata m ρ (yn c) k) Finset.univ
def landX (c : Dev nD) (k : Fin 30) : Buf (Elt F) ((rSlX c k).view.loc (c : Thread nD τ)) :=
  (rSlX c k).view.write (Elt F) (m ((c : Thread nD τ).loc cc0_scratch1)) (ydata m ρ (yn (xn c)) (k34 k)) Finset.univ

abbrev blkPts {S : Shape} {e : EltTy} (c : Dev nD) (v : Memref sig .tc .vmem S e) (q : PosShare TreeShare) (f : Buf (Elt F) (v.view.loc (c : Thread nD τ))) : sProp 𝕄 :=
  v.view.loc (c : Thread nD τ) ↦[v.view.set]{q} f

def barPayY (c : Dev nD) : sProp 𝕄 :=
  bigSep (Finset.univ : Finset (Fin 34)) fun k => iprop((∃ f, blkPts (yn c) (rSlY (yn c) k) fullShare f) ∗ reached ER (yrCell (yn c) k) 0)
def barPayX (c : Dev nD) : sProp 𝕄 :=
  bigSep (Finset.univ : Finset (Fin 30)) fun k => iprop((∃ f, blkPts (xn c) (rSlX (xn c) k) fullShare f) ∗ reached ER (xrCell (xn c) k) 0)

def ysPay (c : Dev nD) (k : Fin 34) : sProp 𝕄 := iprop(∃ f, blkPts c (bSl k) fullShare f)
def yrPay (c : Dev nD) (k : Fin 34) : sProp 𝕄 := blkPts c (rSlY c k) fullShare (landY m ρ c k)
def xsPay (c : Dev nD) (k : Fin 30) : sProp 𝕄 := blkPts c (rSlY c (k34 k)) fullShare.left (landY m ρ c (k34 k))
def xrPay (c : Dev nD) (k : Fin 30) : sProp 𝕄 := blkPts c (rSlX c k) fullShare (landX m ρ c k)

def arRd : Rounds.Schedule (GSem nD τ sig) Bool 𝕄 where
  duties g r := if r = 0 ∧ g.1.2 = .tc then (match kind g.2 with | .bar => Finset.univ | .other => ∅ | _ => {false}) else ∅
  unitless _ := False
  amount g _ _ := if g.2 = .reg barS then 1 else N
  payload g _ d := match kind g.2 with
    | .bar => if d then barPayX g.1.1 else barPayY g.1.1
    | .ys k => ysPay g.1.1 k
    | .yr k => yrPay m ρ g.1.1 k
    | .xs k => xsPay m ρ g.1.1 k
    | .xr k => xrPay m ρ g.1.1 k
    | .other => iprop(emp)
  amount_pos g _ _ _ := by
    by_cases h : g.2 = .reg barS
    · rw [if_pos h]; exact Nat.one_pos
    · rw [if_neg h]; exact N_pos

end Cert.KernelIdeal.AR

end
-- ==== Proof.GenProg.lean ====
import proofs.«900712_g7700000000000713_dist_ar_v7x_xyz2x2x4_y_m2048_n512_bf16_1_alg».proof.Proof.Sched
import proofs.«900712_g7700000000000713_dist_ar_v7x_xyz2x2x4_y_m2048_n512_bf16_1_alg».proof.Proof.Gen.KernelIdeal.Skeleton

noncomputable section

namespace Cert.KernelIdeal.AR

open Cert.KernelIdeal Cert.KernelIdeal.Gen Cert.AR

open Idealize.ShloMosaic
open Idealize.ShloMosaic.TcCoe
open Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

def devY (c : Dev nD) (_ : Fin 34) : Dev nD := ⟨k0_dev3 c, k0_dev3_lt c⟩
def devX (c : Dev nD) (_ : Fin 30) : Dev nD := ⟨k0_dev37 c, k0_dev37_lt c⟩

theorem packedB : ∀ k : Fin 34, (rB k).PackedRows (EltTy.packing .bf16) := by decide
theorem wordsB : ∀ k : Fin 34, (rB k).WholeWords (EltTy.packing .bf16) := by decide

abbrev hwB : (Memref.whole cc0_scratch0 : Memref sig .tc .vmem S1088x512 .bf16).IsWhole := Memref.isWhole_whole _
abbrev hwR : (Memref.whole cc0_scratch1 : Memref sig .tc .vmem S2048x512 .bf16).IsWhole := Memref.isWhole_whole _

def iterA (c : Dev nD) (k : Fin 34) : Prog (TpuEff nD τ sig (Elt F) Λ₀ .tc) PUnit := do
  let v ← Prog.lift (.load xM (rY c k).toLoadRect (View.loadsAt_vmem h_S32x512))
  let _ ← Prog.lift (.load bM (rB k).toLoadRect (View.loadsAt_vmem h_S32x512))
  Prog.lift (.store bM (rB k) (Cert.AR.P1 v) Finset.univ (View.stores_vmem h_S32x512 (hwB.storeExact_slice rfl _ (packedB k)) (fun _ => rfl)) (.inl rfl))
  Prog.lift (.enqueueDma (bSl k) (.remote (Dev.tc (devY c k)) (rSlY c k) (.dma (ysS k))) (.dma (yrS k)) (hwB.wordExact_slice rfl _ (wordsB k)) (hwR.wordExact_slice rfl _ (k0_off2_wordsbf16 c k)) ⟨⟨rfl, Or.inl rfl⟩, trivial⟩)

def iterBrecv (c : Dev nD) (k : Fin 34) : Prog (TpuEff nD τ sig (Elt F) Λ₀ .tc) PUnit :=
  Prog.lift (.waitDma2 (yrS k) (bSl k) (rSlY c k) (hwB.wordExact_slice rfl _ (wordsB k)) (hwR.wordExact_slice rfl _ (k0_off2_wordsbf16 c k)))
def iterBadd (c : Dev nD) (k : Fin 34) : Prog (TpuEff nD τ sig (Elt F) Λ₀ .tc) PUnit := do
  let x ← Prog.lift (.load xM (rY c k).toLoadRect (View.loadsAt_vmem h_S32x512))
  let r ← Prog.lift (.load rM (rY c k).toLoadRect (View.loadsAt_vmem h_S32x512))
  let _ ← Prog.lift (.load oM (rY c k).toLoadRect (View.loadsAt_vmem h_S32x512))
  Prog.lift (.store oM (rY c k) (Cert.AR.P2 x r) Finset.univ (View.stores_vmem_bits_univ h_S32x512 rfl) (.inl rfl))
def iterBfwd (c : Dev nD) (k : Fin 30) : Prog (TpuEff nD τ sig (Elt F) Λ₀ .tc) PUnit :=
  Prog.lift (.enqueueDma (rSlY c (k34 k)) (.remote (Dev.tc (devX c k)) (rSlY c (k34 k)) (.dma (xsS k))) (.dma (xrS k)) (hwR.wordExact_slice rfl _ (k0_off2_wordsbf16 c (k34 k))) (hwR.wordExact_slice rfl _ (k0_off2_wordsbf16 c (k34 k))) ⟨⟨rfl, Or.inl rfl⟩, trivial⟩)

def iterCrecv (c : Dev nD) (k : Fin 30) : Prog (TpuEff nD τ sig (Elt F) Λ₀ .tc) PUnit :=
  Prog.lift (.waitDma2 (xrS k) (rSlY c (k34 k)) (rSlY c (k34 k)) (hwR.wordExact_slice rfl _ (k0_off2_wordsbf16 c (k34 k))) (hwR.wordExact_slice rfl _ (k0_off2_wordsbf16 c (k34 k))))
def iterCadd (c : Dev nD) (k : Fin 30) : Prog (TpuEff nD τ sig (Elt F) Λ₀ .tc) PUnit := do
  let x ← Prog.lift (.load xM (rX c k).toLoadRect (View.loadsAt_vmem h_S32x512))
  let r ← Prog.lift (.load rM (rX c k).toLoadRect (View.loadsAt_vmem h_S32x512))
  let _ ← Prog.lift (.load oM (rX c k).toLoadRect (View.loadsAt_vmem h_S32x512))
  Prog.lift (.store oM (rX c k) (Cert.AR.P2 x r) Finset.univ (View.stores_vmem_bits_univ h_S32x512 rfl) (.inl rfl))
def iterD (c : Dev nD) (k : Fin 34) : Prog (TpuEff nD τ sig (Elt F) Λ₀ .tc) PUnit :=
  Prog.lift (.waitDma2 (ysS k) (rSlY c k) (bSl k) (hwR.wordExact_slice rfl _ (k0_off2_wordsbf16 c k)) (hwB.wordExact_slice rfl _ (wordsB k)))
def iterE (c : Dev nD) (k : Fin 30) : Prog (TpuEff nD τ sig (Elt F) Λ₀ .tc) PUnit :=
  Prog.lift (.waitDma2 (xsS k) (rSlY c (k34 k)) (rSlY c (k34 k)) (hwR.wordExact_slice rfl _ (k0_off2_wordsbf16 c (k34 k))) (hwR.wordExact_slice rfl _ (k0_off2_wordsbf16 c (k34 k))))

def seqN (n : ℕ) (f : Fin n → Prog (TpuEff nD τ sig (Elt F) Λ₀ .tc) PUnit) : Prog (TpuEff nD τ sig (Elt F) Λ₀ .tc) PUnit :=
  Fin.foldr n (fun k acc => f k >>= fun _ => acc) (pure ⟨⟩)

def iterB (c : Dev nD) (k : Fin 34) : Prog (TpuEff nD τ sig (Elt F) Λ₀ .tc) PUnit := do
  iterBrecv c k
  if h : k.val < 30 then iterBfwd c ⟨k.val, h⟩ else pure ⟨⟩
  iterBadd c k

def phases (c : Dev nD) : Prog (TpuEff nD τ sig (Elt F) Λ₀ .tc) PUnit := do
  seqN 34 (iterA c)
  seqN 34 (iterB c)
  seqN 30 (fun k => do iterCrecv c k; iterCadd c k)
  seqN 34 (iterD c)
  seqN 30 (iterE c)

def bodyGen : Prog (TpuEff nD τ sig (Elt F) Λ₀ .tc) PUnit := do
  let d0 : Dev nD ← Prog.lift .deviceId
  semSignalWord (⟨k0_dev1 d0, k0_dev1_lt d0⟩ : Dev nD) barS 1#32 hamt_1
  semSignalWord (⟨k0_dev2 d0, k0_dev2_lt d0⟩ : Dev nD) barS 1#32 hamt_1
  semWaitWord barS 2#32 hamt_2
  phases d0

end Cert.KernelIdeal.AR

end
-- ==== Proof.OffIdeal.lean ====
import proofs.«900712_g7700000000000713_dist_ar_v7x_xyz2x2x4_y_m2048_n512_bf16_1_alg».proof.Proof.Gen.KernelIdeal
import proofs.«900712_g7700000000000713_dist_ar_v7x_xyz2x2x4_y_m2048_n512_bf16_1_alg».proof.Proof.Idx

namespace Cert.KernelIdeal.AR

open Idealize.ShloMosaic
open Cert.KernelIdeal Cert.KernelIdeal.Gen Cert.AR

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)

theorem off1_eq (c : Dev nD) (k : Fin 34) : k0_off1 c (BitVec.ofNat 32 k.val) = ![rowY c k.val, 0] := by
  revert c k
  decide +kernel

theorem off2_eq (c : Dev nD) (k : Fin 34) : k0_off2 c (BitVec.ofNat 32 k.val) = ![rowY c k.val, 0] :=
  off1_eq c k

theorem off3_eq (c : Dev nD) (k : Fin 30) : k0_off3 c (BitVec.ofNat 32 k.val) = ![rowX c k.val, 0] := by
  revert c k
  decide +kernel

end Cert.KernelIdeal.AR
-- ==== Proof.OutDef.lean ====
import proofs.«900712_g7700000000000713_dist_ar_v7x_xyz2x2x4_y_m2048_n512_bf16_1_alg».proof.Proof.Sched

noncomputable section

namespace Cert.KernelIdeal.AR

open Cert.KernelIdeal Cert.KernelIdeal.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

def inY (c : Dev nD) (r : ℕ) : Prop := if c.val / 8 = 0 then r < 1088 else 960 ≤ r

instance (c : Dev nD) (r : ℕ) : Decidable (inY c r) := by unfold inY; infer_instance

def outG (c : Dev nD) : (cc0_stg1_0 : Ref sig .tc).ty.Contents (Elt F) := fun i =>
  if inY c (i 0).val then Cert.AR.outSpec (xstg m ρ c) (xstg m ρ (yn c)) i else Cert.AR.outSpec (xstg m ρ c) (xstg m ρ (yn (xn c))) i

theorem outG_of_same (c : Dev nD) (h : xstg m ρ (yn (xn c)) = xstg m ρ (yn c)) : outG m ρ c = Cert.AR.outSpec (xstg m ρ c) (xstg m ρ (yn c)) := by
  funext i; unfold outG; rw [h]; split <;> rfl

end Cert.KernelIdeal.AR

end
-- ==== Proof.OutValue.lean ====
import proofs.«900712_g7700000000000713_dist_ar_v7x_xyz2x2x4_y_m2048_n512_bf16_1_alg».proof.Proof.OutDef
import proofs.«900712_g7700000000000713_dist_ar_v7x_xyz2x2x4_y_m2048_n512_bf16_1_alg».proof.Proof.OffIdeal

noncomputable section

namespace Cert.KernelIdeal.AR

open Cert.KernelIdeal Cert.KernelIdeal.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

section WholeRect

variable {κ : Kind} {Val : EltTy → Type} (b : Ref sig κ) (r : Rect b.ty.shape)

theorem write_whole_emb (f : b.ty.Contents Val) (w : r.shape.Idx → Val b.ty.elt) (x : r.shape.Idx) :
    ((Memref.whole b).access r : View sig κ _ _ _).write Val f w Finset.univ (r.emb x) = w x :=
  View.write_emb_of_mem (v := ((Memref.whole b).access r : View sig κ _ _ _)) (Val := Val) f w
    (M := Finset.univ) (x := x) (Finset.mem_univ _)

theorem write_whole_of_not_mem (f : b.ty.Contents Val) (w : r.shape.Idx → Val b.ty.elt) {i : b.ty.Idx}
    (hi : i ∉ r.set) : ((Memref.whole b).access r : View sig κ _ _ _).write Val f w Finset.univ i = f i := by
  refine View.write_of_not_mem _ _ _ ?_
  rw [View.setOn_univ, View.set_slice_whole]
  exact hi

end WholeRect

def AgreeOn {ι α : Type} (P : ι → Prop) (f G : ι → α) : Prop := ∀ i, P i → f i = G i

theorem AgreeOn.mono {ι α : Type} {P Q : ι → Prop} {f G : ι → α} (h : AgreeOn P f G) (hQ : ∀ i, Q i → P i) :
    AgreeOn Q f G := fun i hi => h i (hQ i hi)

theorem agree_write {κ : Kind} {Val : EltTy → Type} (b : Ref sig κ) (r : Rect b.ty.shape) {P : b.ty.Idx → Prop}
    {f G : b.ty.Contents Val} (h : AgreeOn P f G) :
    AgreeOn (fun i => P i ∨ i ∈ r.set)
      (((Memref.whole b).access r : View sig κ _ _ _).write Val f
        ((Memref.whole b : Memref sig κ _ _ _).view.readAt Val r.toLoadRect G) Finset.univ) G := by
  intro i hi
  by_cases hm : i ∈ r.set
  · obtain ⟨x, rfl⟩ := r.toLoadRect.exists_idx_of_mem hm
    exact write_whole_emb b r f _ x
  · rw [write_whole_of_not_mem b r f _ hm]
    exact h i (hi.resolve_right hm)

theorem mem_unit_rows {off : Fin 2 → ℕ} {r₀ : ℕ} (hoff : off = ![r₀, 0]) (inb : ∀ a, off a + S32x512.size a ≤ S2048x512.size a)
    (i : S2048x512.Idx) :
    i ∈ (Rect.unit (s := S2048x512) off S32x512.size inb).set ↔ r₀ ≤ (i 0).val ∧ (i 0).val < r₀ + 32 := by
  subst hoff
  rw [Rect.mem_set_unit]
  have h1 : (i 1).val < 512 := (i 1).isLt
  constructor
  · intro h
    have h0 := h 0
    exact ⟨h0.1, h0.2⟩
  · intro h a
    match a with
    | ⟨0, _⟩ => exact ⟨h.1, h.2⟩
    | ⟨1, _⟩ => exact ⟨Nat.zero_le _, by show (i 1).val < 0 + 512; omega⟩

theorem mem_rY (c : Dev nD) (k : Fin 34) (i : S2048x512.Idx) :
    i ∈ (rY c k).set ↔ rowY c k.val ≤ (i 0).val ∧ (i 0).val < rowY c k.val + 32 :=
  mem_unit_rows (off1_eq c k) _ i

theorem mem_rX (c : Dev nD) (k : Fin 30) (i : S2048x512.Idx) :
    i ∈ (rX c k).set ↔ rowX c k.val ≤ (i 0).val ∧ (i 0).val < rowX c k.val + 32 :=
  mem_unit_rows (off3_eq c k) _ i

theorem emb_unit_row {off : Fin 2 → ℕ} {r₀ : ℕ} (hoff : off = ![r₀, 0]) (inb : ∀ a, off a + S32x512.size a ≤ S2048x512.size a)
    (j : S32x512.Idx) : ((Rect.unit (s := S2048x512) off S32x512.size inb).emb j 0).val = r₀ + (j 0).val := by
  subst hoff
  show r₀ + 1 * (j 0).val = r₀ + (j 0).val
  omega

theorem readAt_unit_congr {κ : Kind} {sp : Space} {s : Shape} {e : EltTy} {Val : EltTy → Type} (v : View sig κ sp s e)
    {off off' size : Fin s.rank → ℕ} (h : off = off') (p : ∀ a, off a + size a ≤ s.size a)
    (p' : ∀ a, off' a + size a ≤ s.size a) (f : v.ty.Contents Val) :
    v.readAt Val (Rect.unit off size p).toLoadRect f = v.readAt Val (Rect.unit off' size p').toLoadRect f := by
  subst h; rfl

theorem inY_rowY (c : Dev nD) (k : Fin 34) (j : ℕ) (hj : j < 32) : inY c (rowY c k.val + j) := by
  have hk := k.isLt
  unfold inY
  rcases div8_cases c with h | h
  · rw [if_pos h, rowY_x0 h]; omega
  · rw [if_neg (by omega), rowY_x1 h]; omega

theorem not_inY_rowX (c : Dev nD) (k : Fin 30) (j : ℕ) (hj : j < 32) : ¬ inY c (rowX c k.val + j) := by
  have hk := k.isLt
  unfold inY
  rcases div8_cases c with h | h
  · rw [if_pos h, rowX_x0 h]; omega
  · rw [if_neg (by omega), rowX_x1 h]; omega

-- Where the result is the sum with device `p`'s rows on a block, and `p` sends exactly those rows, the stored sum is the result's block.
theorem blockG (c p : Dev nD) (kp : Fin 34) {off : Fin 2 → ℕ} (inb : ∀ a, off a + S32x512.size a ≤ S2048x512.size a)
    (hoff : k0_off1 p (BitVec.ofNat 32 kp.val) = off) :
    let R := Rect.unit (s := S2048x512) off S32x512.size inb
    (∀ j, outG m ρ c (R.emb j) = Cert.AR.outSpec (xstg m ρ c) (xstg m ρ p) (R.emb j)) →
      P2 (xM.view.readAt (Elt F) R.toLoadRect (xstg m ρ c)) (ydata m ρ p kp) = oM.view.readAt (Elt F) R.toLoadRect (outG m ρ c) := by
  subst hoff
  intro R hG
  exact (Cert.AR.outSpec_block (F := F) (xstg m ρ c) (xstg m ρ p) fun j => R.emb j).symm.trans (funext fun j => (hG j).symm)
theorem blockG_Y (c : Dev nD) (k : Fin 34) :
    P2 (xM.view.readAt (Elt F) (rY c k).toLoadRect (xstg m ρ c)) (ydata m ρ (yn c) k)
      = oM.view.readAt (Elt F) (rY c k).toLoadRect (outG m ρ c) :=
  blockG m ρ c (yn c) k _ (by rw [off1_eq, off1_eq, rowY_yn]) fun j => by
    unfold outG
    rw [if_pos (by rw [emb_unit_row (off1_eq c k) _ j]; exact inY_rowY c k _ (j 0).isLt)]
theorem blockG_X (c : Dev nD) (k : Fin 30) :
    P2 (xM.view.readAt (Elt F) (rX c k).toLoadRect (xstg m ρ c)) (ydata m ρ (yn (xn c)) (k34 k))
      = oM.view.readAt (Elt F) (rX c k).toLoadRect (outG m ρ c) :=
  blockG m ρ c (yn (xn c)) (k34 k) _ (by rw [off1_eq, off3_eq, rowY_yn, rowY_xn]) fun j => by
    unfold outG
    rw [if_neg (by rw [emb_unit_row (off3_eq c k) _ j]; exact not_inY_rowX c k _ (j 0).isLt)]
def Cov (c : Dev nD) (dY : Finset (Fin 34)) (dX : Finset (Fin 30)) (i : (cc0_stg1_0 : Ref sig .tc).ty.Idx) : Prop :=
  (∃ k ∈ dY, i ∈ (rY c k).set) ∨ (∃ k ∈ dX, i ∈ (rX c k).set)

theorem agree_start (c : Dev nD) (f G : (cc0_stg1_0 : Ref sig .tc).ty.Contents (Elt F)) : AgreeOn (Cov c ∅ ∅) f G := by
  intro i hi
  rcases hi with ⟨k, hk, _⟩ | ⟨k, hk, _⟩ <;> exact absurd hk (Finset.notMem_empty k)

theorem agree_write_Y (c : Dev nD) (k : Fin 34) {dY : Finset (Fin 34)} {dX : Finset (Fin 30)}
    {f : (cc0_stg1_0 : Ref sig .tc).ty.Contents (Elt F)} (h : AgreeOn (Cov c dY dX) f (outG m ρ c)) :
    AgreeOn (Cov c (insert k dY) dX)
      ((oM.access (rY c k) : View sig .tc _ _ _).write (Elt F) f
        (P2 (xM.view.readAt (Elt F) (rY c k).toLoadRect (xstg m ρ c)) (ydata m ρ (yn c) k)) Finset.univ)
      (outG m ρ c) := by
  have e := blockG_Y m ρ c k
  rw [e]
  refine (agree_write cc0_stg1_0 (rY c k) h).mono ?_
  intro i hi
  rcases hi with ⟨k', hk', hi⟩ | ⟨k', hk', hi⟩
  · rcases Finset.mem_insert.mp hk' with rfl | hk'
    · exact Or.inr hi
    · exact Or.inl (Or.inl ⟨k', hk', hi⟩)
  · exact Or.inl (Or.inr ⟨k', hk', hi⟩)

theorem agree_write_X (c : Dev nD) (k : Fin 30) {dY : Finset (Fin 34)} {dX : Finset (Fin 30)}
    {f : (cc0_stg1_0 : Ref sig .tc).ty.Contents (Elt F)} (h : AgreeOn (Cov c dY dX) f (outG m ρ c)) :
    AgreeOn (Cov c dY (insert k dX))
      ((oM.access (rX c k) : View sig .tc _ _ _).write (Elt F) f
        (P2 (xM.view.readAt (Elt F) (rX c k).toLoadRect (xstg m ρ c)) (ydata m ρ (yn (xn c)) (k34 k))) Finset.univ)
      (outG m ρ c) := by
  have e := blockG_X m ρ c k
  rw [e]
  refine (agree_write cc0_stg1_0 (rX c k) h).mono ?_
  intro i hi
  rcases hi with ⟨k', hk', hi⟩ | ⟨k', hk', hi⟩
  · exact Or.inl (Or.inl ⟨k', hk', hi⟩)
  · rcases Finset.mem_insert.mp hk' with rfl | hk'
    · exact Or.inr hi
    · exact Or.inl (Or.inr ⟨k', hk', hi⟩)

theorem agree_done (c : Dev nD) {dY : Finset (Fin 34)} {dX : Finset (Fin 30)} (hY : ∀ k, k ∈ dY) (hX : ∀ k, k ∈ dX)
    {f G : (cc0_stg1_0 : Ref sig .tc).ty.Contents (Elt F)} (h : AgreeOn (Cov c dY dX) f G) : f = G := by
  funext i
  refine h i ?_
  have hr : (i 0).val < 2048 := (i 0).isLt
  rcases rows_cover c (i 0).val hr with ⟨k, hk, lo, hi⟩ | ⟨k, hk, lo, hi⟩
  · exact Or.inl ⟨⟨k, hk⟩, hY _, (mem_rY c ⟨k, hk⟩ i).mpr ⟨lo, hi⟩⟩
  · exact Or.inr ⟨⟨k, hk⟩, hX _, (mem_rX c ⟨k, hk⟩ i).mpr ⟨lo, hi⟩⟩

end Cert.KernelIdeal.AR

end
-- ==== Proof.Blocks.lean ====
import proofs.«900712_g7700000000000713_dist_ar_v7x_xyz2x2x4_y_m2048_n512_bf16_1_alg».proof.Proof.Sched
import proofs.«900712_g7700000000000713_dist_ar_v7x_xyz2x2x4_y_m2048_n512_bf16_1_alg».proof.Proof.OffIdeal
import proofs.«900712_g7700000000000713_dist_ar_v7x_xyz2x2x4_y_m2048_n512_bf16_1_alg».proof.Proof.OutValue
import Idealize.ShloMosaic.Lib.Ring

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem slice_unit_congr {sp : Space} {s : Shape} {e : EltTy} (M : Memref sig .tc sp s e)
    {off off' size : Fin s.rank → ℕ} (h : off = off')
    (p : ∀ a, off a + size a ≤ s.size a) (p' : ∀ a, off' a + size a ≤ s.size a) :
    M.slice (Rect.unit off size p) (fun _ => rfl) = M.slice (Rect.unit off' size p') (fun _ => rfl) := by
  subst h; rfl

theorem rSlY_yn (c : Dev nD) (k : Fin 34) : rSlY (yn c) k = rSlY c k := by
  unfold rSlY
  exact slice_unit_congr rM ((off2_eq (yn c) k).trans ((congrArg (fun r => (![r, 0] : Fin 2 → ℕ)) (rowY_yn c k.val)).trans (off2_eq c k).symm)) _ _

theorem rSlX_xn (c : Dev nD) (k : Fin 30) : rSlX (xn c) k = rSlY c (k34 k) := by
  unfold rSlX rSlY
  exact slice_unit_congr rM ((off3_eq (xn c) k).trans ((congrArg (fun r => (![r, 0] : Fin 2 → ℕ)) (rowX_xn c k.val)).trans (off2_eq c (k34 k)).symm)) _ _

theorem blk_congr {S : Shape} {e : EltTy} (c : Dev nD) (v : Memref sig .tc .vmem S e) (q : PosShare TreeShare)
    (fd fd' : Buf (Elt F) (v.view.loc (c : Thread nD τ))) (d : S.Idx → Elt F e) :
    blkPts c v q (v.view.write (Elt F) fd d Finset.univ) = blkPts c v q (v.view.write (Elt F) fd' d Finset.univ) := by
  refine pointsTo_congr fun i hi => ?_
  obtain ⟨x, -, rfl⟩ := Finset.mem_map.mp hi
  rw [View.write_emb_of_mem _ _ (Finset.mem_univ x), View.write_emb_of_mem _ _ (Finset.mem_univ x)]

theorem blk_halves {S : Shape} {e : EltTy} (c : Dev nD) (v : Memref sig .tc .vmem S e)
    (f : Buf (Elt F) (v.view.loc (c : Thread nD τ))) :
    blkPts c v fullShare f ⊣⊢ iprop(blkPts c v fullShare.left f ∗ blkPts c v fullShare.right f) :=
  pointsTo_share (PosShare.mem_left_op_right fullShare)

theorem blk_read_landed {S : Shape} {e : EltTy} (c : Dev nD) (v : Memref sig .tc .vmem S e)
    (fd : Buf (Elt F) (v.view.loc (c : Thread nD τ))) (d : S.Idx → Elt F e) :
    v.view.read (Elt F) (v.view.write (Elt F) fd d Finset.univ) = d :=
  View.read_write_univ (v := v.view) fd d

theorem set_rSlY (c : Dev nD) (k : Fin 34) : (rSlY c k).view.set = (rY2 c k).set :=
  View.set_slice_whole cc0_scratch1 _

theorem set_rSlX (c : Dev nD) (k : Fin 30) : (rSlX c k).view.set = (rX c k).set :=
  View.set_slice_whole cc0_scratch1 _

theorem mem_rectY (c : Dev nD) (k : Fin 34) (i : S2048x512.Idx) :
    i ∈ (rY2 c k).set ↔ rowY c k.val ≤ (i 0).val ∧ (i 0).val < rowY c k.val + 32 :=
  mem_unit_rows (off2_eq c k) _ i

theorem rectY_disjoint (c : Dev nD) (k k' : Fin 34) (h : k ≠ k') : Disjoint (rY2 c k).set (rY2 c k').set := by
  refine Finset.disjoint_left.mpr fun i hi hi' => ?_
  rw [mem_rectY] at hi hi'
  have := rowY_disj c k.val k'.val k.isLt k'.isLt (fun e => h (Fin.ext e))
  omega

theorem rectX_disjoint (c : Dev nD) (k k' : Fin 30) (h : k ≠ k') : Disjoint (rX c k).set (rX c k').set := by
  refine Finset.disjoint_left.mpr fun i hi hi' => ?_
  rw [mem_rX] at hi hi'
  have := rowX_disj c k.val k'.val k.isLt k'.isLt (fun e => h (Fin.ext e))
  omega

theorem rectY_rectX_disjoint (c : Dev nD) (k : Fin 34) (k' : Fin 30) : Disjoint (rY2 c k).set (rX c k').set := by
  refine Finset.disjoint_left.mpr fun i hi hi' => ?_
  rw [mem_rectY] at hi
  rw [mem_rX] at hi'
  have := rowY_rowX_disj c k.val k'.val k.isLt k'.isLt
  omega

theorem rect_cover (c : Dev nD) :
    (Finset.univ.biUnion fun k : Fin 34 => (rY2 c k).set) ∪ (Finset.univ.biUnion fun k : Fin 30 => (rX c k).set)
      = (Finset.univ : Finset S2048x512.Idx) := by
  refine Finset.eq_univ_iff_forall.mpr fun i => ?_
  have hi : (i 0).val < 2048 := (i 0).isLt
  rcases rows_cover c (i 0).val hi with ⟨k, hk, h1, h2⟩ | ⟨k, hk, h1, h2⟩
  · exact Finset.mem_union_left _ (Finset.mem_biUnion.mpr ⟨⟨k, hk⟩, Finset.mem_univ _, (mem_rectY c ⟨k, hk⟩ i).mpr ⟨h1, h2⟩⟩)
  · exact Finset.mem_union_right _ (Finset.mem_biUnion.mpr ⟨⟨k, hk⟩, Finset.mem_univ _, (mem_rX c ⟨k, hk⟩ i).mpr ⟨h1, h2⟩⟩)

theorem rM_split (c : Dev nD) (f : Buf (Elt F) ((c : Thread nD τ).loc cc0_scratch1)) :
    (((c : Thread nD τ).loc cc0_scratch1) ↦{fullShare} f : sProp 𝕄) ⊣⊢
      iprop((bigSep (Finset.univ : Finset (Fin 34)) fun k => blkPts c (rSlY c k) fullShare f) ∗
        (bigSep (Finset.univ : Finset (Fin 30)) fun k => blkPts c (rSlX c k) fullShare f)) := by
  have hY : (((c : Thread nD τ).loc cc0_scratch1) ↦[Finset.univ.biUnion fun k : Fin 34 => (rY2 c k).set]{fullShare} f : sProp 𝕄)
      = bigSep (Finset.univ : Finset (Fin 34)) fun k => blkPts c (rSlY c k) fullShare f := by
    rw [pointsTo_biUnion Finset.univ _ fun k _ k' _ h => rectY_disjoint c k k' h]
    exact bigSep_congr fun k _ => by unfold blkPts; rw [set_rSlY]; rfl
  have hX : (((c : Thread nD τ).loc cc0_scratch1) ↦[Finset.univ.biUnion fun k : Fin 30 => (rX c k).set]{fullShare} f : sProp 𝕄)
      = bigSep (Finset.univ : Finset (Fin 30)) fun k => blkPts c (rSlX c k) fullShare f := by
    rw [pointsTo_biUnion Finset.univ _ fun k _ k' _ h => rectX_disjoint c k k' h]
    exact bigSep_congr fun k _ => by unfold blkPts; rw [set_rSlX]; rfl
  have hD : Disjoint (Finset.univ.biUnion fun k : Fin 34 => (rY2 c k).set) (Finset.univ.biUnion fun k : Fin 30 => (rX c k).set) :=
    (Finset.disjoint_biUnion_left _ _ _).mpr fun k _ => (Finset.disjoint_biUnion_right _ _ _).mpr fun k' _ => rectY_rectX_disjoint c k k'
  rw [← hY, ← hX]
  have hU := pointsTo_union (nD := nD) (τ := τ) (sig := sig) (Ix := Unit) (Val := Elt F) (Name := ℕ) (U := UU) (Lvl := ℕ)
    (ℓ := (c : Thread nD τ).loc cc0_scratch1) (q := fullShare) (f := f) hD
  rw [rect_cover c] at hU
  exact hU

theorem set_bSl (k : Fin 34) : (bSl k).view.set = (rB k).set :=
  View.set_slice_whole cc0_scratch0 _

theorem mem_rectB (k : Fin 34) (i : S1088x512.Idx) :
    i ∈ (rB k).set ↔ 32 * k.val ≤ (i 0).val ∧ (i 0).val < 32 * k.val + 32 := by
  have h1 : (i 1).val < 512 := (i 1).isLt
  rw [Rect.mem_set_unit, Fin.forall_fin_two]
  simp only [Matrix.cons_val_zero, Matrix.cons_val_one, Shape.size]
  omega

theorem rectB_disjoint (k k' : Fin 34) (h : k ≠ k') : Disjoint (rB k).set (rB k').set := by
  refine Finset.disjoint_left.mpr fun i hi hi' => ?_
  rw [mem_rectB] at hi hi'
  have : k.val ≠ k'.val := fun e => h (Fin.ext e)
  omega

theorem rectB_cover :
    (Finset.univ.biUnion fun k : Fin 34 => (rB k).set) = (Finset.univ : Finset S1088x512.Idx) := by
  refine Finset.eq_univ_iff_forall.mpr fun i => ?_
  have hi : (i 0).val < 1088 := (i 0).isLt
  have hk : (i 0).val / 32 < 34 := by omega
  exact Finset.mem_biUnion.mpr ⟨⟨(i 0).val / 32, hk⟩, Finset.mem_univ _,
    (mem_rectB ⟨(i 0).val / 32, hk⟩ i).mpr ⟨by show 32 * ((i 0).val / 32) ≤ _; omega, by show _ < 32 * ((i 0).val / 32) + 32; omega⟩⟩

theorem bM_split (c : Dev nD) (f : Buf (Elt F) ((c : Thread nD τ).loc cc0_scratch0)) :
    (((c : Thread nD τ).loc cc0_scratch0) ↦{fullShare} f : sProp 𝕄) ⊣⊢
      bigSep (Finset.univ : Finset (Fin 34)) fun k => blkPts c (bSl k) fullShare f := by
  have hB : (((c : Thread nD τ).loc cc0_scratch0) ↦[Finset.univ.biUnion fun k : Fin 34 => (rB k).set]{fullShare} f : sProp 𝕄)
      = bigSep (Finset.univ : Finset (Fin 34)) fun k => blkPts c (bSl k) fullShare f := by
    rw [pointsTo_biUnion Finset.univ _ fun k _ k' _ h => rectB_disjoint k k' h]
    exact bigSep_congr fun k _ => by unfold blkPts; rw [set_bSl]; rfl
  rw [rectB_cover] at hB
  exact ⟨Entails.of_eq hB, Entails.of_eq hB.symm⟩

end Cert.KernelIdeal.AR

end
-- ==== Proof.Tables.lean ====
import proofs.«900712_g7700000000000713_dist_ar_v7x_xyz2x2x4_y_m2048_n512_bf16_1_alg».proof.Proof.Sched

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem duties_bar : (arRd (F := F) m ρ).duties (barCell c) 0 = Finset.univ := by
  dsimp only [arRd]; rw [if_pos ⟨rfl, rfl⟩]; rfl
theorem duties_ys (k : Fin 34) : (arRd (F := F) m ρ).duties (ysCell c k) 0 = {false} := by
  dsimp only [arRd]; rw [if_pos ⟨rfl, rfl⟩, kind_ys]
theorem duties_yr (k : Fin 34) : (arRd (F := F) m ρ).duties (yrCell c k) 0 = {false} := by
  dsimp only [arRd]; rw [if_pos ⟨rfl, rfl⟩, kind_yr]
theorem duties_xs (k : Fin 30) : (arRd (F := F) m ρ).duties (xsCell c k) 0 = {false} := by
  dsimp only [arRd]; rw [if_pos ⟨rfl, rfl⟩, kind_xs]
theorem duties_xr (k : Fin 30) : (arRd (F := F) m ρ).duties (xrCell c k) 0 = {false} := by
  dsimp only [arRd]; rw [if_pos ⟨rfl, rfl⟩, kind_xr]
theorem duties_later (g : GSem nD τ sig) : ∀ r, 1 ≤ r → (arRd (F := F) m ρ).duties g r = ∅ :=
  fun r hr => by dsimp only [arRd]; rw [if_neg fun h => by omega]

theorem amount_bar (d : Bool) : (arRd (F := F) m ρ).amount (barCell c) 0 d = 1 := by dsimp only [arRd]; exact if_pos rfl
theorem amount_dma (s : DmaSem sig) (r : ℕ) (d : Bool) : (arRd (F := F) m ρ).amount ((c : Thread nD τ), .dma s) r d = N := by
  dsimp only [arRd]; exact if_neg (fun h => by cases h)

theorem expect_bar : (arRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_ys (k : Fin 34) : (arRd (F := F) m ρ).expect (ysCell c k) 0 = N := by
  unfold Schedule.expect Schedule.amountOf; rw [duties_ys, Finset.sum_singleton, amount_dma]
theorem expect_yr (k : Fin 34) : (arRd (F := F) m ρ).expect (yrCell c k) 0 = N := by
  unfold Schedule.expect Schedule.amountOf; rw [duties_yr, Finset.sum_singleton, amount_dma]
theorem expect_xs (k : Fin 30) : (arRd (F := F) m ρ).expect (xsCell c k) 0 = N := by
  unfold Schedule.expect Schedule.amountOf; rw [duties_xs, Finset.sum_singleton, amount_dma]
theorem expect_xr (k : Fin 30) : (arRd (F := F) m ρ).expect (xrCell c k) 0 = N := by
  unfold Schedule.expect Schedule.amountOf; rw [duties_xr, Finset.sum_singleton, amount_dma]

theorem payload_bar_false : (arRd (F := F) m ρ).payload (barCell c) 0 false = barPayY c := by
  dsimp only [arRd]; rfl
theorem payload_bar_true : (arRd (F := F) m ρ).payload (barCell c) 0 true = barPayX c := by
  dsimp only [arRd]; rfl
theorem payload_ys (k : Fin 34) (d : Bool) : (arRd (F := F) m ρ).payload (ysCell c k) 0 d = ysPay c k := by
  dsimp only [arRd]; rw [kind_ys]
theorem payload_yr (k : Fin 34) (d : Bool) : (arRd (F := F) m ρ).payload (yrCell c k) 0 d = yrPay m ρ c k := by
  dsimp only [arRd]; rw [kind_yr]
theorem payload_xs (k : Fin 30) (d : Bool) : (arRd (F := F) m ρ).payload (xsCell c k) 0 d = xsPay m ρ c k := by
  dsimp only [arRd]; rw [kind_xs]
theorem payload_xr (k : Fin 30) (d : Bool) : (arRd (F := F) m ρ).payload (xrCell c k) 0 d = xrPay m ρ c k := by
  dsimp only [arRd]; rw [kind_xr]

theorem rest_bar : bigSep ((arRd (F := F) m ρ).duties (barCell c) 0 \ ∅) (fun d => (arRd (F := F) m ρ).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_ys (k : Fin 34) : bigSep ((arRd (F := F) m ρ).duties (ysCell c k) 0 \ ∅) (fun d => (arRd (F := F) m ρ).payload (ysCell c k) 0 d) = ysPay c k := by
  rw [Finset.sdiff_empty, duties_ys, bigSep_singleton, payload_ys]
theorem rest_yr (k : Fin 34) : bigSep ((arRd (F := F) m ρ).duties (yrCell c k) 0 \ ∅) (fun d => (arRd (F := F) m ρ).payload (yrCell c k) 0 d) = yrPay m ρ c k := by
  rw [Finset.sdiff_empty, duties_yr, bigSep_singleton, payload_yr]
theorem rest_xs (k : Fin 30) : bigSep ((arRd (F := F) m ρ).duties (xsCell c k) 0 \ ∅) (fun d => (arRd (F := F) m ρ).payload (xsCell c k) 0 d) = xsPay m ρ c k := by
  rw [Finset.sdiff_empty, duties_xs, bigSep_singleton, payload_xs]
theorem rest_xr (k : Fin 30) : bigSep ((arRd (F := F) m ρ).duties (xrCell c k) 0 \ ∅) (fun d => (arRd (F := F) m ρ).payload (xrCell c k) 0 d) = xrPay m ρ c k := by
  rw [Finset.sdiff_empty, duties_xr, bigSep_singleton, payload_xr]

end Tables

end Cert.KernelIdeal.AR

end
-- ==== Proof.Data.lean ====
import proofs.«900712_g7700000000000713_dist_ar_v7x_xyz2x2x4_y_m2048_n512_bf16_1_alg».proof.Proof.Tables
import proofs.«900712_g7700000000000713_dist_ar_v7x_xyz2x2x4_y_m2048_n512_bf16_1_alg».proof.Proof.OutDef

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def oweY (c : Dev nD) (n : ℕ) : CellTallies nD τ sig Unit :=
  ∑ k ∈ (Finset.univ : Finset (Fin 34)).filter (fun k => n ≤ k.val), tallyAt (yrCell (yn c) k) () N
def oweX (c : Dev nD) (n : ℕ) : CellTallies nD τ sig Unit :=
  ∑ k ∈ (Finset.univ : Finset (Fin 30)).filter (fun k => n ≤ k.val), tallyAt (xrCell (xn c) k) () N

/-- Splitting the least index off a sum over the indices from `k` on. -/
theorem sum_from_succ {n : ℕ} {A : Type*} [AddCommMonoid A] (f : Fin n → A) (k : Fin n) :
    ∑ j ∈ Finset.univ.filter (fun j => k.val ≤ j.val), f j = ∑ j ∈ Finset.univ.filter (fun j => k.val + 1 ≤ j.val), f j + f k := by
  rw [show (Finset.univ.filter fun j : Fin n => k.val ≤ j.val) = insert k (Finset.univ.filter fun j => k.val + 1 ≤ j.val) from by
    ext j; simp only [Finset.mem_filter, Finset.mem_univ, true_and, Finset.mem_insert, Fin.ext_iff]; omega,
    Finset.sum_insert (by simp), add_comm]
theorem oweY_succ (c : Dev nD) (k : Fin 34) : oweY c k.val = oweY c (k.val + 1) + tallyAt (yrCell (yn c) k) () N := sum_from_succ _ k
theorem oweX_succ (c : Dev nD) (k : Fin 30) : oweX c k.val = oweX c (k.val + 1) + tallyAt (xrCell (xn c) k) () N := sum_from_succ _ k
theorem oweY_end (c : Dev nD) : oweY c 34 = 0 := by
  unfold oweY; rw [Finset.filter_false_of_mem (fun k _ => by have := k.isLt; omega), Finset.sum_empty]

def O₂ (c : Dev nD) : CellTallies nD τ sig Unit := oweX c 0 + oweY c 0
def O₁ (c : Dev nD) : CellTallies nD τ sig Unit := O₂ c + tallyAt (barCell (xn c)) () 1
def O₀ (c : Dev nD) : CellTallies nD τ sig Unit := O₁ c + tallyAt (barCell (yn c)) () 1

def L (g : GSem nD τ sig) : Finset Unit := if g.1.2 = .tc then {()} else ∅
def lv (g : GSem nD τ sig) (_ : Unit) : ℕ := match kind g.2 with | .bar => 1 | .yr _ => 2 | .xr _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

def records (K : GSem nD τ sig → ℕ) : sProp 𝕄 :=
  iprop(bigSep (Finset.univ : Finset (Dev nD)) fun c =>
    iprop((cellInv ER (arRd m ρ) (K (barCell c)) (barCell c) ∗ reached ER (barCell c) 0)
      ∗ (bigSep (Finset.univ : Finset (Fin 34)) fun k => iprop((cellInv ER (arRd m ρ) (K (ysCell c k)) (ysCell c k) ∗ reached ER (ysCell c k) 0)
            ∗ (cellInv ER (arRd m ρ) (K (yrCell c k)) (yrCell c k) ∗ reached ER (yrCell c k) 0)))
      ∗ (bigSep (Finset.univ : Finset (Fin 30)) fun k => iprop((cellInv ER (arRd m ρ) (K (xsCell c k)) (xsCell c k) ∗ reached ER (xsCell c k) 0)
            ∗ (cellInv ER (arRd m ρ) (K (xrCell c k)) (xrCell c k) ∗ reached ER (xrCell c k) 0)))))

instance records_persistent (K : GSem nD τ sig → ℕ) : BI.Persistent (records m ρ K) := by unfold records; infer_instance

def payToks (c : Dev nD) : sProp 𝕄 :=
  iprop(dutyTok ER (barCell (yn c)) 0 false ∗ dutyTok ER (barCell (xn c)) 0 true
    ∗ (bigSep (Finset.univ : Finset (Fin 34)) fun k => iprop(dutyTok ER (ysCell c k) 0 false ∗ dutyTok ER (yrCell (yn c) k) 0 false))
    ∗ (bigSep (Finset.univ : Finset (Fin 30)) fun k => iprop(dutyTok ER (xsCell c k) 0 false ∗ dutyTok ER (xrCell (xn c) k) 0 false)))

def positions (c : Dev nD) : sProp 𝕄 :=
  iprop(atPos ER (barCell c) 0 ∅ 0
    ∗ (bigSep (Finset.univ : Finset (Fin 34)) fun k => iprop(atPos ER (ysCell c k) 0 ∅ 0 ∗ atPos ER (yrCell c k) 0 ∅ 0))
    ∗ (bigSep (Finset.univ : Finset (Fin 30)) fun k => iprop(atPos ER (xsCell c k) 0 ∅ 0 ∗ atPos ER (xrCell c k) 0 ∅ 0)))

def ghost (K : GSem nD τ sig → ℕ) (c : Dev nD) : sProp 𝕄 := iprop(records m ρ K ∗ positions c ∗ payToks c)

def creds (c : Dev nD) : sProp 𝕄 :=
  iprop(cred (tallyAt (barCell c) () 2)
    ∗ (bigSep (Finset.univ : Finset (Fin 34)) fun k => cred (tallyAt (yrCell c k) () N))
    ∗ (bigSep (Finset.univ : Finset (Fin 30)) fun k => cred (tallyAt (xrCell c k) () N)))

def start (c : Dev nD) : sProp 𝕄 := iprop((∃ K, ghost m ρ K c) ∗ creds c ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep (Finset.univ : Finset (Fin 34)) fun k => iprop(semVal (ysCell c k) 0 ∗ semVal (yrCell c k) 0))
    ∗ (bigSep (Finset.univ : Finset (Fin 30)) fun k => iprop(semVal (xsCell c k) 0 ∗ semVal (xrCell c k) 0)))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev outAt (c : Dev nD) : (cc0_stg1_0 : Ref sig .tc).ty.Contents (Elt F) := outG m ρ c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m ρ K c ∗ creds c ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.KernelIdeal.AR

end
-- ==== Proof.Levels.lean ====
import proofs.«900712_g7700000000000713_dist_ar_v7x_xyz2x2x4_y_m2048_n512_bf16_1_alg».proof.Proof.Data

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- Everything owed in `O` is owed at a level strictly above `n`. -/
def Above (n : ℕ) (O : CellTallies nD τ sig Unit) : Prop := ∀ g u, 0 < O g u → u ∈ L g ∧ n < lv g u

def lvK : CK → ℕ | .bar => 1 | .yr _ => 2 | .xr _ => 3 | _ => 0

theorem lv_of {t : Thread nD τ} {s : SemLoc sig} {K : CK} (h : kind s = K) (u : Unit) : lv (t, s) u = lvK K := by
  subst h; rfl

theorem Above.tally {d : Dev nD} {s : SemLoc sig} {K : CK} (hK : kind s = K) {n a : ℕ}
    (h : n < lvK K) : Above n (tallyAt ((d : Thread nD τ), s) () a) := fun g u hg => by
  rw [tallyAt_apply] at hg
  by_cases e : g = ((d : Thread nD τ), s) ∧ u = ()
  · rw [e.1, L_tc, lv_of hK]; exact ⟨Finset.mem_singleton_self _, h⟩
  · rw [if_neg e] at hg; exact absurd hg (Nat.lt_irrefl 0)

theorem Above.add {n : ℕ} {A B : CellTallies nD τ sig Unit} (hA : Above n A) (hB : Above n B) : Above n (A + B) :=
  fun g u h => (Pipeline.add_pos_cases h).elim (hA g u) (hB g u)

theorem Above.sum {n : ℕ} {α : Type} {S : Finset α} {f : α → CellTallies nD τ sig Unit} (h : ∀ k, Above n (f k)) : Above n (∑ k ∈ S, f k) :=
  fun g u hg => by obtain ⟨k, -, hk⟩ := Pipeline.sum_pos_exists hg; exact h k g u hk

theorem above_oweX (c : Dev nD) (a : ℕ) {n : ℕ} (h : n < 3) : Above n (oweX c a) := .sum fun k => .tally (kind_xr k) h
theorem above_oweY (c : Dev nD) (a : ℕ) {n : ℕ} (h : n < 2) : Above n (oweY c a) := .sum fun k => .tally (kind_yr k) h
theorem above_O₂ (c : Dev nD) {n : ℕ} (h : n < 2) : Above n (O₂ c) := .add (above_oweX c 0 (h.trans (by decide))) (above_oweY c 0 h)
theorem above_O₀ (c : Dev nD) : Above 0 (O₀ c) :=
  .add (.add (above_O₂ c (by decide)) (.tally kind_bar (by decide))) (.tally kind_bar (by decide))

/-- A device may wait on a cell of level at most `n` while all it owes lies above `n`. -/
theorem mayWait_of {c : Dev nD} {s : SemLoc sig} {K : CK} (hK : kind s = K) {O : CellTallies nD τ sig Unit} {n : ℕ}
    (hn : lvK K ≤ n) (hO : Above n O) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact (lv_of hK _).le.trans hn)
    (fun g u hg => (hO g u hg).2)

theorem mayWait_bar (c : Dev nD) : (levAts L lv : sProp 𝕄) ⊢ MayWait (c : Thread nD τ) (.reg barS) () (O₂ c) :=
  mayWait_of kind_bar (le_refl 1) (above_O₂ c (by decide))

theorem mayWait_yr (c : Dev nD) (k : Fin 34) (n : ℕ) : (levAts L lv : sProp 𝕄) ⊢ MayWait (c : Thread nD τ) (.dma (yrS k)) () (oweX c n) :=
  mayWait_of (kind_yr k) (le_refl 2) (above_oweX c n (by decide))

theorem mayWait_stage (c : Dev nD) (q : DmaSem sig) (hq : kind (.dma q) = .other ∨ (∃ k, q = ysS k) ∨ (∃ k, q = xsS k))
    (O : CellTallies nD τ sig Unit) (hO : O = O₀ c ∨ O = 0) :
    (levAts L lv : sProp 𝕄) ⊢ MayWait (c : Thread nD τ) (.dma q) () O := by
  rcases hO with rfl | rfl
  · rcases hq with h | ⟨k, rfl⟩ | ⟨k, rfl⟩
    exacts [mayWait_of h (le_refl 0) (above_O₀ c), mayWait_of (kind_ys k) (le_refl 0) (above_O₀ c), mayWait_of (kind_xs k) (le_refl 0) (above_O₀ c)]
  · rw [MayWait_zero]; iintro -; iempintro

end Cert.KernelIdeal.AR

end
-- ==== Proof.Rec.lean ====
import proofs.«900712_g7700000000000713_dist_ar_v7x_xyz2x2x4_y_m2048_n512_bf16_1_alg».proof.Proof.Data

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem fst {P Q : sProp 𝕄} : iprop(P ∗ Q) ⊢ P := by iintro ⟨H, -⟩; iexact H
theorem snd {P Q : sProp 𝕄} : iprop(P ∗ Q) ⊢ Q := by iintro ⟨-, H⟩; iexact H

theorem rec_bar (K : GSem nD τ sig → ℕ) (c' : Dev nD) :
    records m ρ K ⊢ iprop(cellInv ER (arRd m ρ) (K (barCell c')) (barCell c') ∗ reached ER (barCell c') 0) :=
  (bigSep_elim (Finset.mem_univ c')).trans fst
theorem rec_ys (K : GSem nD τ sig → ℕ) (c' : Dev nD) (k : Fin 34) :
    records m ρ K ⊢ iprop(cellInv ER (arRd m ρ) (K (ysCell c' k)) (ysCell c' k) ∗ reached ER (ysCell c' k) 0) :=
  (bigSep_elim (Finset.mem_univ c')).trans <| snd.trans <| fst.trans <| (bigSep_elim (Finset.mem_univ k)).trans fst
theorem rec_yr (K : GSem nD τ sig → ℕ) (c' : Dev nD) (k : Fin 34) :
    records m ρ K ⊢ iprop(cellInv ER (arRd m ρ) (K (yrCell c' k)) (yrCell c' k) ∗ reached ER (yrCell c' k) 0) :=
  (bigSep_elim (Finset.mem_univ c')).trans <| snd.trans <| fst.trans <| (bigSep_elim (Finset.mem_univ k)).trans snd
theorem rec_xs (K : GSem nD τ sig → ℕ) (c' : Dev nD) (k : Fin 30) :
    records m ρ K ⊢ iprop(cellInv ER (arRd m ρ) (K (xsCell c' k)) (xsCell c' k) ∗ reached ER (xsCell c' k) 0) :=
  (bigSep_elim (Finset.mem_univ c')).trans <| snd.trans <| snd.trans <| (bigSep_elim (Finset.mem_univ k)).trans fst
theorem rec_xr (K : GSem nD τ sig → ℕ) (c' : Dev nD) (k : Fin 30) :
    records m ρ K ⊢ iprop(cellInv ER (arRd m ρ) (K (xrCell c' k)) (xrCell c' k) ∗ reached ER (xrCell c' k) 0) :=
  (bigSep_elim (Finset.mem_univ c')).trans <| snd.trans <| snd.trans <| (bigSep_elim (Finset.mem_univ k)).trans snd

end Cert.KernelIdeal.AR

end
-- ==== Proof.Steps.lean ====
import proofs.«900712_g7700000000000713_dist_ar_v7x_xyz2x2x4_y_m2048_n512_bf16_1_alg».proof.Proof.Blocks
import proofs.«900712_g7700000000000713_dist_ar_v7x_xyz2x2x4_y_m2048_n512_bf16_1_alg».proof.Proof.Tables
import proofs.«900712_g7700000000000713_dist_ar_v7x_xyz2x2x4_y_m2048_n512_bf16_1_alg».proof.Proof.Levels
import proofs.«900712_g7700000000000713_dist_ar_v7x_xyz2x2x4_y_m2048_n512_bf16_1_alg».proof.Proof.Rec

noncomputable section

namespace Cert.KernelIdeal.AR

open Cert.KernelIdeal Cert.KernelIdeal.Gen Cert.AR

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem credY (c : Dev nD) (k : Fin 34) : (rSlY c k).view.dmaCredit = N := rfl

-- What a write through a view leaves under it does not depend on what lay there before, nor on how the view is spelt.
theorem blk_write_congr {S : Shape} {e : EltTy} (c : Dev nD) (v v' : Memref sig .tc .vmem S e) (h : v = v') (q : PosShare TreeShare)
    (fd : Buf (Elt F) (v.view.loc (c : Thread nD τ))) (fd' : Buf (Elt F) (v'.view.loc (c : Thread nD τ))) (d : S.Idx → Elt F e) :
    blkPts c v q (v.view.write (Elt F) fd d Finset.univ) = blkPts c v' q (v'.view.write (Elt F) fd' d Finset.univ) := by
  subst h; exact blk_congr c v q fd fd' d

-- A copy of a block to a neighbour pays two duties: the sender's send cell holds the source lent, the neighbour's receive cell the landing block written.
theorem wp_sendBlk (K : GSem nD τ sig → ℕ) (c n c' : Dev nD) (hn : n = c') (sS sR : DmaSem sig) (src dst : Memref sig .tc .vmem S32x512 .bf16)
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {cont : PUnit → Prog (TpuEff nD τ sig (Elt F) Λ₀ .tc) α}
    (q : PosShare TreeShare) (fs : Buf (Elt F) (src.view.loc (c : Thread nD τ))) (fd : Buf (Elt F) (dst.view.loc (c' : Thread nD τ)))
    (O : CellTallies nD τ sig Unit) (W : Waits sig Unit)
    (hS : (arRd (F := F) m ρ).duties ((c : Thread nD τ), .dma sS) 0 = {false}) (hR : (arRd (F := F) m ρ).duties ((c' : Thread nD τ), .dma sR) 0 = {false})
    (hN : dst.view.amount (.dma sR) = N)
    (hpS : (blkPts c src q fs : sProp 𝕄) ⊢ (arRd (F := F) m ρ).payload ((c : Thread nD τ), .dma sS) 0 false)
    (hpR : (blkPts c' dst fullShare (dst.view.write (Elt F) fd (src.view.read (Elt F) fs) Finset.univ) : sProp 𝕄) ⊢ (arRd (F := F) m ρ).payload ((c' : Thread nD τ), .dma sR) 0 false) :
    iprop(cellInv ER (arRd m ρ) (K ((c : Thread nD τ), .dma sS)) ((c : Thread nD τ), .dma sS) ∗ cellInv ER (arRd m ρ) (K ((c' : Thread nD τ), .dma sR)) ((c' : Thread nD τ), .dma sR)
        ∗ blkPts c src q fs ∗ blkPts c' dst fullShare fd
        ∗ owes (c : Thread nD τ) (O + tallyAt ((c' : Thread nD τ), .dma sR) () N) W
        ∗ dutyTok ER ((c : Thread nD τ), .dma sS) 0 false ∗ reached ER ((c : Thread nD τ), .dma sS) 0
        ∗ dutyTok ER ((c' : Thread nD τ), .dma sR) 0 false ∗ reached ER ((c' : Thread nD τ), .dma sR) 0)
      ⊢ iprop(((cred (tallyAt ((c : Thread nD τ), .dma sS) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) cont) Q) := by
  subst hn
  exact Rounds.wp_send_pointsTo 𝒱₀ ER (arRd m ρ) (c : Thread nD τ) none
    (c' := (n : Thread nD τ)) (src := src) (dst := dst) (sS := .dma sS) (sem := .dma sR) (q := q) (fs := fs) (fd := fd)
    (κ₁ := K ((c : Thread nD τ), .dma sS)) (κ₂ := K ((n : Thread nD τ), .dma sR)) (r₁ := 0) (r₂ := 0) (d₁ := false) (d₂ := false)
    (by rw [hS]; exact Finset.mem_singleton_self _) (by rw [hR]; exact Finset.mem_singleton_self _)
    () () N hN (amount_dma m ρ c sS 0 false) (amount_dma m ρ n sR 0 false) O rfl (W := W) hpS hpR

-- A device's own cells have one round of one block's credit: a wait for that credit ends the round and hands over its payloads.
theorem wp_waitCell (K : GSem nD τ sig → ℕ) (c : Dev nD) (s : DmaSem sig) (O : CellTallies nD τ sig Unit) (W : Waits sig Unit)
    {sp' : Space} {s' : Shape} {e' : EltTy} {src : Memref sig .tc sp' s' e'} {dst : Memref sig .tc .vmem S32x512 .bf16}
    {hs : src.view.WordExact} {hd : dst.view.WordExact}
    {α : Type} {Q : α → sProp 𝕄} {cont : PUnit → Prog (TpuEff nD τ sig (Elt F) Λ₀ .tc) α}
    (hcr : dst.view.dmaCredit = N) (hex : (arRd (F := F) m ρ).expect ((c : Thread nD τ), .dma s) 0 = N) :
    iprop(cellInv ER (arRd m ρ) (K ((c : Thread nD τ), .dma s)) ((c : Thread nD τ), .dma s) ∗ cred (tallyAt ((c : Thread nD τ), .dma s) () N) ∗ owes (c : Thread nD τ) O W
        ∗ MayWait (c : Thread nD τ) (.dma s) () O ∗ atPos ER ((c : Thread nD τ), .dma s) 0 ∅ 0)
      ⊢ iprop(((owes (c : Thread nD τ) O (insert (SemLoc.dma s, ()) W) ∗ atPos ER ((c : Thread nD τ), .dma s) 1 ∅ 0 ∗ reached ER ((c : Thread nD τ), .dma s) 1
              ∗ bigSep ((arRd (F := F) m ρ).duties ((c : Thread nD τ), .dma s) 0 \ ∅) (fun d => (arRd (F := F) m ρ).payload ((c : Thread nD τ), .dma s) 0 d))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s src dst hs hd) cont) Q) := by
  have h := Rounds.wp_wait_rest_token (defs := defs₀ (F := F)) 𝒱₀ ER (arRd m ρ) (c : Thread nD τ) none (κ := K ((c : Thread nD τ), .dma s))
    (w := .waitDma2 s src dst hs hd) (sm := .dma s) (k' := dst.view.dmaCredit) (Q := Q) (k := cont)
    (wpE_waitDma2_eq (defs := defs₀ (F := F)) 𝒱₀ (c : Thread nD τ) none Set.univ) (Set.mem_univ _) () (O := O) (W := W) (R := 0) (m := 0) (T := ∅)
    (by rw [Nat.zero_add, hcr, hex])
  rw [hcr] at h
  exact h

end Cert.KernelIdeal.AR

end
-- ==== Proof.BlockFacts.lean ====
import proofs.«900712_g7700000000000713_dist_ar_v7x_xyz2x2x4_y_m2048_n512_bf16_1_alg».proof.Proof.OutValue
import proofs.«900712_g7700000000000713_dist_ar_v7x_xyz2x2x4_y_m2048_n512_bf16_1_alg».proof.Proof.Tables

noncomputable section

namespace Cert.KernelIdeal.AR

open Cert.KernelIdeal Cert.KernelIdeal.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

theorem off1_eq_off2 (c : Dev nD) (k : Fin 34) : k0_off1 c (BitVec.ofNat 32 k.val) = k0_off2 c (BitVec.ofNat 32 k.val) := by
  rw [off1_eq, off2_eq]

theorem rY_eq_rY2 (c : Dev nD) (k : Fin 34) : rY c k = rY2 c k := Rect.unit_congr (off1_eq_off2 c k) _ _

theorem bSl_load_sub (c : Dev nD) (k : Fin 34) : bM.view.setOn (rB k).toLoadRect.set ⊆ (bSl k).view.set :=
  (View.set_slice bM.view (rB k)).ge

theorem bSl_store_sub (c : Dev nD) (k : Fin 34) :
    (bM.access (rB k) : View sig .tc _ _ _).setOn Finset.univ ⊆ (bSl k).view.set :=
  Finset.Subset.refl _

theorem bSl_read_store (c : Dev nD) (k : Fin 34) (f : (bSl k).view.ty.Contents (Elt F)) (w : Vec F S32x512 .bf16) :
    (bSl k).view.read (Elt F) ((bM.access (rB k) : View sig .tc _ _ _).write (Elt F) f w Finset.univ) = w :=
  View.read_write_univ (v := (bSl k).view) f w

theorem rSlY_load_sub (c : Dev nD) (k : Fin 34) : rM.view.setOn (rY c k).toLoadRect.set ⊆ (rSlY c k).view.set := by
  rw [rY_eq_rY2]
  exact (View.set_slice rM.view (rY2 c k)).ge

theorem rSlX_load_sub (c : Dev nD) (k : Fin 30) : rM.view.setOn (rX c k).toLoadRect.set ⊆ (rSlX c k).view.set :=
  (View.set_slice rM.view (rX c k)).ge

theorem read_landY (c : Dev nD) (k : Fin 34) :
    rM.view.readAt (Elt F) (rY c k).toLoadRect (landY m ρ c k) = ydata m ρ (yn c) k :=
  (readAt_unit_congr rM.view (off1_eq_off2 c k) (k0_off1_inb c k) (k0_off2_inb c k) (landY m ρ c k)).trans
    (View.read_write_univ (v := (rSlY c k).view) _ _)

theorem read_landX (c : Dev nD) (k : Fin 30) :
    rM.view.readAt (Elt F) (rX c k).toLoadRect (landX m ρ c k) = ydata m ρ (yn (xn c)) (k34 k) :=
  View.read_write_univ (v := (rSlX c k).view) _ _

theorem ydata_eq (c : Dev nD) (k : Fin 34) :
    ydata m ρ c k = P1 (xM.view.readAt (Elt F) (rY c k).toLoadRect (xstg m ρ c)) := rfl

end Cert.KernelIdeal.AR

end
-- ==== Proof.IterA.lean ====
import proofs.«900712_g7700000000000713_dist_ar_v7x_xyz2x2x4_y_m2048_n512_bf16_1_alg».proof.Proof.GenProg
import proofs.«900712_g7700000000000713_dist_ar_v7x_xyz2x2x4_y_m2048_n512_bf16_1_alg».proof.Proof.Steps
import proofs.«900712_g7700000000000713_dist_ar_v7x_xyz2x2x4_y_m2048_n512_bf16_1_alg».proof.Proof.BlockFacts

noncomputable section

namespace Cert.KernelIdeal.AR

open Cert.KernelIdeal Cert.KernelIdeal.Gen Cert.AR

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem wp_loadB (c : Dev nD) (k : Fin 34) {α : Type} {Q : α → sProp 𝕄} {hl : bM.view.LoadsAt (rB k).toLoadRect}
    {cont : ((rB k).toLoadRect.shape.Idx → Elt F .bf16) → Prog (TpuEff nD τ sig (Elt F) Λ₀ .tc) α}
    (f : Buf (Elt F) ((bSl k).view.loc (c : Thread nD τ))) :
    (blkPts c (bSl k) fullShare f : sProp 𝕄)
      ⊢ iprop((blkPts c (bSl k) fullShare f
            -∗ wp frame (wpE (defs₀ (F := F)) 𝒱₀ (c : Thread nD τ) none) Set.univ (cont (bM.view.readAt (Elt F) (rB k).toLoadRect f)) Q)
          -∗ wp frame (wpE (defs₀ (F := F)) 𝒱₀ (c : Thread nD τ) none) Set.univ (.op (.load bM (rB k).toLoadRect hl) cont) Q) :=
  wp_load 𝒱₀ (c : Thread nD τ) none Set.univ (m := bM) (bSl_load_sub c k)

theorem wp_storeB (c : Dev nD) (k : Fin 34) {α : Type} {Q : α → sProp 𝕄} (w : Vec F S32x512 .bf16)
    {hx : (bM.access (rB k) : View sig .tc _ _ _).Stores Finset.univ} {hm : (Finset.univ : Finset (rB k).shape.Idx) = Finset.univ ∨ ∀ a, (rB k).stride a = 1}
    {cont : PUnit → Prog (TpuEff nD τ sig (Elt F) Λ₀ .tc) α}
    (f : Buf (Elt F) ((bSl k).view.loc (c : Thread nD τ))) :
    (blkPts c (bSl k) fullShare f : sProp 𝕄)
      ⊢ iprop((blkPts c (bSl k) fullShare ((bM.access (rB k) : View sig .tc _ _ _).write (Elt F) f w Finset.univ)
            -∗ wp frame (wpE (defs₀ (F := F)) 𝒱₀ (c : Thread nD τ) none) Set.univ (cont ⟨⟩) Q)
          -∗ wp frame (wpE (defs₀ (F := F)) 𝒱₀ (c : Thread nD τ) none) Set.univ (.op (.store bM (rB k) w Finset.univ hx hm) cont) Q) :=
  wp_store 𝒱₀ (c : Thread nD τ) none Set.univ (m := bM) (r := rB k) (Mk := Finset.univ) (bSl_store_sub c k)

theorem devY_eq (c : Dev nD) (k : Fin 34) : devY c k = yn c := Fin.ext (k0_dev3_eq c)

theorem iterA_spec (K : GSem nD τ sig → ℕ) (c : Dev nD) (k : Fin 34) {α : Type} (Q : α → sProp 𝕄)
    (rest : Prog (TpuEff nD τ sig (Elt F) Λ₀ .tc) α) (O : CellTallies nD τ sig Unit) (W : Waits sig Unit) :
    iprop(records m ρ K ∗ ((c : Thread nD τ).loc cc0_stg0_0 ↦{fullShare} xstg m ρ c)
        ∗ (∃ f, blkPts c (bSl k) fullShare f) ∗ (∃ f, blkPts (yn c) (rSlY (yn c) k) fullShare f)
        ∗ dutyTok ER (ysCell c k) 0 false ∗ dutyTok ER (yrCell (yn c) k) 0 false
        ∗ owes (c : Thread nD τ) (O + tallyAt (yrCell (yn c) k) () N) W
        ∗ ((((c : Thread nD τ).loc cc0_stg0_0 ↦{fullShare} xstg m ρ c) ∗ cred (tallyAt (ysCell c k) () N) ∗ owes (c : Thread nD τ) O W)
            -∗ wp frame (wpE (defs₀ (F := F)) 𝒱₀ (c : Thread nD τ) none) Set.univ rest Q))
      ⊢ wp frame (wpE (defs₀ (F := F)) 𝒱₀ (c : Thread nD τ) none) Set.univ (iterA c k >>= fun _ => rest) Q := by
  rw [rSlY_yn c k]
  iintro ⟨#Hrec, Hx, ⟨%fb, Hb⟩, ⟨%fd, Hd⟩, HtS, HtR, HO, Hk⟩
  ihave ⟨#HIs, #Hrs⟩ := (rec_ys m ρ K c k) $$ Hrec
  ihave ⟨#HIr, #Hrr⟩ := (rec_yr m ρ K (yn c) k) $$ Hrec
  unfold iterA
  simp only [Prog.bind_lift, Prog.bind_op]
  iapply (wp_load 𝒱₀ (c : Thread nD τ) none Set.univ (m := xM) (Finset.subset_univ _)) $$ Hx; iintro Hx
  iapply (wp_loadB c k fb) $$ Hb; iintro Hb
  iapply (wp_storeB c k _ fb) $$ Hb; iintro Hb
  have hS : ∀ f, (blkPts c (bSl k) fullShare f : sProp 𝕄) ⊢ (arRd (F := F) m ρ).payload (ysCell c k) 0 false := fun f => by
    rw [payload_ys]; unfold ysPay; iintro H; iexists f; iexact H
  have hR : ∀ fs, (bSl k).view.read (Elt F) fs = ydata m ρ c k →
      (blkPts (yn c) (rSlY c k) fullShare ((rSlY c k).view.write (Elt F) fd ((bSl k).view.read (Elt F) fs) Finset.univ) : sProp 𝕄)
        ⊢ (arRd (F := F) m ρ).payload (yrCell (yn c) k) 0 false := fun fs hfs => by
    rw [payload_yr, hfs]; unfold yrPay landY; rw [yn_yn]
    exact Entails.of_eq (blk_write_congr (yn c) (rSlY c k) (rSlY (yn c) k) (rSlY_yn c k).symm fullShare fd _ _)
  iapply (wp_sendBlk m ρ K c (devY c k) (yn c) (devY_eq c k) (ysS k) (yrS k) (bSl k) (rSlY c k) fullShare _ fd O W
      (duties_ys m ρ c k) (duties_yr m ρ (yn c) k) rfl (hS _) (hR _ ((bSl_read_store c k fb _).trans (ydata_eq m ρ c k).symm))) $$ [Hb Hd HO HtS HtR]
  · iframe # ∗
  iintro ⟨Hc, HO⟩
  iapply Hk; iframe

end Cert.KernelIdeal.AR

end
-- ==== Proof.SeqN.lean ====
import proofs.«900712_g7700000000000713_dist_ar_v7x_xyz2x2x4_y_m2048_n512_bf16_1_alg».proof.Proof.GenProg
import proofs.«900712_g7700000000000713_dist_ar_v7x_xyz2x2x4_y_m2048_n512_bf16_1_alg».proof.Proof.Data

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem wp_seqN {α : Type} (n : ℕ) (f : Fin n → Prog (TpuEff nD τ sig (Elt F) Λ₀ .tc) PUnit) (I : ℕ → sProp 𝕄) (c : Dev nD) (Q : α → sProp 𝕄)
    (hstep : ∀ (k : Fin n) (rest : Prog (TpuEff nD τ sig (Elt F) Λ₀ .tc) α),
      iprop(I k.val ∗ (I (k.val + 1) -∗ wp frame (wpE (defs₀ (F := F)) 𝒱₀ (c : Thread nD τ) none) Set.univ rest Q))
        ⊢ wp frame (wpE (defs₀ (F := F)) 𝒱₀ (c : Thread nD τ) none) Set.univ (f k >>= fun _ => rest) Q)
    (rest : Prog (TpuEff nD τ sig (Elt F) Λ₀ .tc) α) :
    iprop(I 0 ∗ (I n -∗ wp frame (wpE (defs₀ (F := F)) 𝒱₀ (c : Thread nD τ) none) Set.univ rest Q))
      ⊢ wp frame (wpE (defs₀ (F := F)) 𝒱₀ (c : Thread nD τ) none) Set.univ (seqN n f >>= fun _ => rest) Q := by
  induction n generalizing I with
  | zero =>

    have e : (seqN 0 f >>= fun _ => rest) = rest := by
      unfold seqN; rw [Fin.foldr_zero]; rfl
    rw [e]
    iintro ⟨H0, Hr⟩
    iapply Hr; iexact H0
  | succ n ih =>

    have e : (seqN (n + 1) f >>= fun _ => rest) = (f 0 >>= fun _ => (seqN n (fun k => f k.succ) >>= fun _ => rest)) := by
      unfold seqN; rw [Fin.foldr_succ, Prog.bind_assoc]
    rw [e]
    have h0 := hstep 0 (seqN n (fun k => f k.succ) >>= fun _ => rest)
    rw [Fin.val_zero] at h0
    refine BIBase.Entails.trans ?_ h0
    iintro ⟨H0, Hr⟩
    isplitl [H0]
    · iexact H0
    iintro H1
    iapply (ih (fun k => f k.succ) (fun j => I (j + 1)) (fun k rest' => hstep k.succ rest'))
    isplitl [H1]
    · iexact H1
    iexact Hr

theorem sep_swap (X Y : sProp 𝕄) : (BI.sep X Y : sProp 𝕄) = iprop(Y ∗ X) :=
  BI.Entails.antisymm (show iprop(X ∗ Y) ⊢ iprop(Y ∗ X) from by iintro ⟨H, H'⟩; isplitl [H'] <;> iassumption)
    (show iprop(Y ∗ X) ⊢ iprop(X ∗ Y) from by iintro ⟨H, H'⟩; isplitl [H'] <;> iassumption)

theorem filter_ge_succ {n : ℕ} (k : Fin n) :
    (Finset.univ : Finset (Fin n)).filter (fun i => k.val ≤ i.val) = insert k ((Finset.univ : Finset (Fin n)).filter (fun i => k.val + 1 ≤ i.val)) := by
  ext j; simp only [Finset.mem_filter, Finset.mem_univ, true_and, Finset.mem_insert, Fin.ext_iff]; omega

theorem filter_lt_succ {n : ℕ} (k : Fin n) :
    (Finset.univ : Finset (Fin n)).filter (fun i => i.val < k.val + 1) = insert k ((Finset.univ : Finset (Fin n)).filter (fun i => i.val < k.val)) := by
  ext j; simp only [Finset.mem_filter, Finset.mem_univ, true_and, Finset.mem_insert, Fin.ext_iff]; omega

theorem bigSep_ge_succ_eq {n : ℕ} (Φ : Fin n → sProp 𝕄) (k : Fin n) :
    bigSep ((Finset.univ : Finset (Fin n)).filter (fun i => k.val ≤ i.val)) Φ
      = iprop(Φ k ∗ bigSep ((Finset.univ : Finset (Fin n)).filter (fun i => k.val + 1 ≤ i.val)) Φ) := by
  rw [filter_ge_succ k, bigSep_insert (by simp)]; rfl
theorem bigSep_lt_succ_eq {n : ℕ} (Φ : Fin n → sProp 𝕄) (k : Fin n) :
    bigSep ((Finset.univ : Finset (Fin n)).filter (fun i => i.val < k.val + 1)) Φ
      = iprop(bigSep ((Finset.univ : Finset (Fin n)).filter (fun i => i.val < k.val)) Φ ∗ Φ k) := by
  rw [filter_lt_succ k, bigSep_insert (by simp)]
  exact sep_swap _ _
theorem bigSep_ge_zero {n : ℕ} (Φ : Fin n → sProp 𝕄) :
    bigSep ((Finset.univ : Finset (Fin n)).filter (fun i => 0 ≤ i.val)) Φ = bigSep Finset.univ Φ := by
  rw [Finset.filter_true_of_mem (fun i _ => Nat.zero_le _)]
theorem bigSep_lt_zero {n : ℕ} (Φ : Fin n → sProp 𝕄) :
    bigSep ((Finset.univ : Finset (Fin n)).filter (fun i => i.val < 0)) Φ = iprop(emp) := by
  rw [Finset.filter_false_of_mem (fun i _ => Nat.not_lt_zero _), bigSep_empty]; rfl
theorem bigSep_ge_end {n : ℕ} (Φ : Fin n → sProp 𝕄) :
    bigSep ((Finset.univ : Finset (Fin n)).filter (fun i => n ≤ i.val)) Φ = iprop(emp) := by
  rw [Finset.filter_false_of_mem (fun i _ => by have := i.isLt; omega), bigSep_empty]; rfl
theorem bigSep_lt_end {n : ℕ} (Φ : Fin n → sProp 𝕄) :
    bigSep ((Finset.univ : Finset (Fin n)).filter (fun i => i.val < n)) Φ = bigSep Finset.univ Φ := by
  rw [Finset.filter_true_of_mem (fun i _ => i.isLt)]

-- A phase of `n` steps: step `k` turns `pre k` into `post k` and moves the rest `R` from `k` to `k + 1`.
theorem wp_phase {α : Type} (n : ℕ) (f : Fin n → Prog (TpuEff nD τ sig (Elt F) Λ₀ .tc) PUnit) (R : ℕ → sProp 𝕄) (pre post : Fin n → sProp 𝕄)
    (c : Dev nD) (Q : α → sProp 𝕄)
    (hstep : ∀ (k : Fin n) (rest : Prog (TpuEff nD τ sig (Elt F) Λ₀ .tc) α),
      iprop(R k.val ∗ pre k ∗ (R (k.val + 1) ∗ post k -∗ wp frame (wpE (defs₀ (F := F)) 𝒱₀ (c : Thread nD τ) none) Set.univ rest Q))
        ⊢ wp frame (wpE (defs₀ (F := F)) 𝒱₀ (c : Thread nD τ) none) Set.univ (f k >>= fun _ => rest) Q)
    (rest : Prog (TpuEff nD τ sig (Elt F) Λ₀ .tc) α) :
    iprop(R 0 ∗ bigSep Finset.univ pre ∗ (R n ∗ bigSep Finset.univ post -∗ wp frame (wpE (defs₀ (F := F)) 𝒱₀ (c : Thread nD τ) none) Set.univ rest Q))
      ⊢ wp frame (wpE (defs₀ (F := F)) 𝒱₀ (c : Thread nD τ) none) Set.univ (seqN n f >>= fun _ => rest) Q := by
  refine .trans ?_ (wp_seqN n f (fun j => iprop(R j ∗ bigSep (Finset.univ.filter fun i => j ≤ i.val) pre
    ∗ bigSep (Finset.univ.filter fun i => i.val < j) post)) c Q (fun k rest' => ?_) rest)
  · dsimp only
    rw [bigSep_ge_zero, bigSep_lt_zero, bigSep_ge_end, bigSep_lt_end]
    iintro ⟨HR, Hp, Hk⟩
    iframe HR Hp
    iintro ⟨HR, -, Hq⟩
    iapply Hk; iframe
  · dsimp only
    rw [bigSep_ge_succ_eq pre k, bigSep_lt_succ_eq post k]
    iintro ⟨⟨HR, ⟨Hp, Hps⟩, Hqs⟩, Hk⟩
    iapply (hstep k rest')
    iframe HR Hp
    iintro ⟨HR, Hq⟩
    iapply Hk; iframe

end Cert.KernelIdeal.AR

end
-- ==== Proof.PhaseA.lean ====
import proofs.«900712_g7700000000000713_dist_ar_v7x_xyz2x2x4_y_m2048_n512_bf16_1_alg».proof.Proof.IterA
import proofs.«900712_g7700000000000713_dist_ar_v7x_xyz2x2x4_y_m2048_n512_bf16_1_alg».proof.Proof.SeqN

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def preA (c : Dev nD) (k : Fin 34) : sProp 𝕄 :=
  iprop((∃ f, blkPts c (bSl k) fullShare f) ∗ (∃ f, blkPts (yn c) (rSlY (yn c) k) fullShare f)
    ∗ dutyTok ER (ysCell c k) 0 false ∗ dutyTok ER (yrCell (yn c) k) 0 false)

theorem phaseA_spec (K : GSem nD τ sig → ℕ) (c : Dev nD) {α : Type} (Q : α → sProp 𝕄)
    (rest : Prog (TpuEff nD τ sig (Elt F) Λ₀ .tc) α) :
    iprop(records m ρ K ∗ ((c : Thread nD τ).loc cc0_stg0_0 ↦{fullShare} xstg m ρ c)
        ∗ (∃ W, owes (c : Thread nD τ) (oweX c 0 + oweY c 0) W) ∗ bigSep Finset.univ (preA (F := F) c)
        ∗ ((((c : Thread nD τ).loc cc0_stg0_0 ↦{fullShare} xstg m ρ c) ∗ (∃ W, owes (c : Thread nD τ) (oweX c 0) W)
              ∗ (bigSep (Finset.univ : Finset (Fin 34)) fun k => cred (tallyAt (ysCell c k) () N)))
            -∗ wp frame (wpE (defs₀ (F := F)) 𝒱₀ (c : Thread nD τ) none) Set.univ rest Q))
      ⊢ wp frame (wpE (defs₀ (F := F)) 𝒱₀ (c : Thread nD τ) none) Set.univ (seqN 34 (iterA c) >>= fun _ => rest) Q := by
  refine .trans ?_ (wp_phase 34 (iterA c) (fun j => iprop(records m ρ K ∗ ((c : Thread nD τ).loc cc0_stg0_0 ↦{fullShare} xstg m ρ c)
    ∗ ∃ W, owes (c : Thread nD τ) (oweX c 0 + oweY c j) W)) (preA c) (fun k => cred (tallyAt (ysCell c k) () N)) c Q (fun k rest' => ?_) rest)
  · dsimp only
    rw [oweY_end, add_zero]
    iintro ⟨#Hrec, Hx, HO, Hpre, Hk⟩
    iframe # ∗
    iintro ⟨⟨-, Hx, HO⟩, Hq⟩
    iapply Hk; iframe
  · dsimp only
    rw [oweY_succ c k, ← add_assoc]
    unfold preA
    iintro ⟨⟨#Hrec, Hx, ⟨%W, HO⟩⟩, ⟨Hb, Hd, HtS, HtR⟩, Hk⟩
    iapply (iterA_spec m ρ K c k Q rest' _ W)
    iframe # ∗
    iintro ⟨Hx, Hc, HO⟩
    iapply Hk; iframe # ∗
    iexists W; iexact HO

end Cert.KernelIdeal.AR

end
-- ==== Proof.IterBC.lean ====
import proofs.«900712_g7700000000000713_dist_ar_v7x_xyz2x2x4_y_m2048_n512_bf16_1_alg».proof.Proof.Steps
import proofs.«900712_g7700000000000713_dist_ar_v7x_xyz2x2x4_y_m2048_n512_bf16_1_alg».proof.Proof.BlockFacts
import proofs.«900712_g7700000000000713_dist_ar_v7x_xyz2x2x4_y_m2048_n512_bf16_1_alg».proof.Proof.OutValue
import proofs.«900712_g7700000000000713_dist_ar_v7x_xyz2x2x4_y_m2048_n512_bf16_1_alg».proof.Proof.Blocks
import proofs.«900712_g7700000000000713_dist_ar_v7x_xyz2x2x4_y_m2048_n512_bf16_1_alg».proof.Proof.GenProg

noncomputable section

namespace Cert.KernelIdeal.AR

open Cert.KernelIdeal Cert.KernelIdeal.Gen Cert.AR

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem devX_eq (c : Dev nD) (k : Fin 30) : devX c k = xn c := Fin.ext (k0_dev37_eq c)

omit [FloatOps F] in
theorem oweX_ge (c : Dev nD) (n : ℕ) (hn : 30 ≤ n) : oweX c n = 0 := by
  unfold oweX; rw [Finset.filter_false_of_mem (fun k _ => by have := k.isLt; omega), Finset.sum_empty]

def outSt (c : Dev nD) (dY : Finset (Fin 34)) (dX : Finset (Fin 30)) : sProp 𝕄 :=
  iprop(∃ g : Buf (Elt F) ((c : Thread nD τ).loc cc0_stg1_0), ⌜AgreeOn (Cov c dY dX) g (outG m ρ c)⌝ ∗ (((c : Thread nD τ).loc cc0_stg1_0) ↦{fullShare} g))

theorem iterB_fwd_spec (K : GSem nD τ sig → ℕ) (c : Dev nD) (k : Fin 34) (h : k.val < 30) {α : Type} (Q : α → sProp 𝕄)
    (rest : Prog (TpuEff nD τ sig (Elt F) Λ₀ .tc) α) (dY : Finset (Fin 34)) (W : Waits sig Unit) :
    iprop(records m ρ K ∗ levAts L lv ∗ ((c : Thread nD τ).loc cc0_stg0_0 ↦{fullShare} xstg m ρ c) ∗ outSt m ρ c dY ∅
        ∗ cred (tallyAt (yrCell c k) () N) ∗ atPos ER (yrCell c k) 0 ∅ 0
        ∗ dutyTok ER (xsCell c ⟨k.val, h⟩) 0 false ∗ dutyTok ER (xrCell (xn c) ⟨k.val, h⟩) 0 false ∗ (∃ f, blkPts (xn c) (rSlX (xn c) ⟨k.val, h⟩) fullShare f)
        ∗ owes (c : Thread nD τ) (oweX c k.val) W
        ∗ ((((c : Thread nD τ).loc cc0_stg0_0 ↦{fullShare} xstg m ρ c) ∗ outSt m ρ c (insert k dY) ∅ ∗ atPos ER (yrCell c k) 1 ∅ 0 ∗ blkPts c (rSlY c k) fullShare.right (landY m ρ c k)
              ∗ cred (tallyAt (xsCell c ⟨k.val, h⟩) () N) ∗ owes (c : Thread nD τ) (oweX c (k.val + 1)) (insert (SemLoc.dma (yrS k), ()) W)) -∗ wp frame (wpE (defs₀ (F := F)) 𝒱₀ (c : Thread nD τ) none) Set.univ (rest) Q))
      ⊢ wp frame (wpE (defs₀ (F := F)) 𝒱₀ (c : Thread nD τ) none) Set.univ (iterB c k >>= fun _ => rest) Q := by
  have hk : k34 ⟨k.val, h⟩ = k := rfl
  unfold iterB iterBrecv iterBfwd iterBadd
  rw [dif_pos h, rSlX_xn c ⟨k.val, h⟩]
  simp only [Prog.lift, Prog.bind_op, Prog.bind_ret, Prog.pure_eq_ret, bind_pure_comp, hk]
  unfold outSt
  iintro ⟨#Hrec, #Hlev, HX, ⟨%g, %hg, Hout⟩, Hc, Hat, Ht1, Ht2, ⟨%fx, Hdst⟩, HO, Hk⟩
  ihave ⟨#HIyr, -⟩ := (rec_yr m ρ K c k) $$ Hrec
  ihave ⟨#HIxs, #Hrxs⟩ := (rec_xs m ρ K c ⟨k.val, h⟩) $$ Hrec
  ihave ⟨#HIxr, #Hrxr⟩ := (rec_xr m ρ K (xn c) ⟨k.val, h⟩) $$ Hrec
  iapply (wp_waitCell m ρ K c (yrS k) (oweX c k.val) W (credY c k) (expect_yr m ρ c k)) $$ [Hc HO Hat]
  · iframe # ∗; iapply (mayWait_yr (F := F) c k k.val); iexact Hlev
  rw [rest_yr]; iintro ⟨HO, Hat, -, Hpay⟩
  unfold yrPay
  ihave ⟨HL, HR⟩ := (blk_halves c (rSlY c k) (landY m ρ c k)).1 $$ Hpay
  rw [show oweX c k.val = oweX c (k.val + 1) + tallyAt (xrCell (xn c) ⟨k.val, h⟩) () N from oweX_succ c ⟨k.val, h⟩]
  iapply (wp_sendBlk m ρ K c (devX c ⟨k.val, h⟩) (xn c) (devX_eq c ⟨k.val, h⟩) (xsS ⟨k.val, h⟩) (xrS ⟨k.val, h⟩) (rSlY c k) (rSlY c k) fullShare.left (landY m ρ c k) fx
      (oweX c (k.val + 1)) (insert (SemLoc.dma (yrS k), ()) W) (duties_xs m ρ c _) (duties_xr m ρ (xn c) _) rfl
      (by rw [payload_xs]; exact Entails.of_eq rfl)
      (by
        rw [payload_xr]; unfold xrPay landX
        rw [xn_xn, show (rSlY c k).view.read (Elt F) (landY m ρ c k) = ydata m ρ (yn c) k from blk_read_landed c (rSlY c k) _ _]
        exact Entails.of_eq (blk_write_congr (xn c) (rSlY c k) (rSlX (xn c) ⟨k.val, h⟩) (rSlX_xn c ⟨k.val, h⟩).symm fullShare fx _ _))) $$ [HL Hdst HO Ht1 Ht2]
  · iframe # ∗
  iintro ⟨HcS, HO⟩
  iapply (wp_load 𝒱₀ (c : Thread nD τ) none Set.univ (m := xM) (Finset.subset_univ _)) $$ HX; iintro HX
  have eR : (blkPts c (rSlY c k) fullShare.right (landY m ρ c k) : sProp 𝕄)
      = (rM.view.loc (c : Thread nD τ) ↦[(rSlY c k).view.set]{fullShare.right} landY m ρ c k) := rfl
  ihave HR := (Entails.of_eq eR) $$ HR
  iapply (wp_load 𝒱₀ (c : Thread nD τ) none Set.univ (m := rM) (S := (rSlY c k).view.set) (q := fullShare.right) (f := landY m ρ c k) (rSlY_load_sub c k)) $$ HR; iintro HR
  ihave HR := (Entails.of_eq eR.symm) $$ HR
  rw [read_landY m ρ c k]
  iapply (wp_load 𝒱₀ (c : Thread nD τ) none Set.univ (m := oM) (Finset.subset_univ _)) $$ Hout; iintro Hout
  iapply (wp_store 𝒱₀ (c : Thread nD τ) none Set.univ (m := oM) (r := rY c k) (Mk := Finset.univ) (Finset.subset_univ _)) $$ Hout; iintro Hout
  iapply Hk; iframe
  iexists _; iframe; ipureintro; exact agree_write_Y m ρ c k hg

theorem iterB_last_spec (K : GSem nD τ sig → ℕ) (c : Dev nD) (k : Fin 34) (h : 30 ≤ k.val) {α : Type} (Q : α → sProp 𝕄)
    (rest : Prog (TpuEff nD τ sig (Elt F) Λ₀ .tc) α) (dY : Finset (Fin 34)) (W : Waits sig Unit) :
    iprop(records m ρ K ∗ levAts L lv ∗ ((c : Thread nD τ).loc cc0_stg0_0 ↦{fullShare} xstg m ρ c) ∗ outSt m ρ c dY ∅ ∗ cred (tallyAt (yrCell c k) () N) ∗ atPos ER (yrCell c k) 0 ∅ 0 ∗ owes (c : Thread nD τ) (oweX c k.val) W
        ∗ ((((c : Thread nD τ).loc cc0_stg0_0 ↦{fullShare} xstg m ρ c) ∗ outSt m ρ c (insert k dY) ∅ ∗ atPos ER (yrCell c k) 1 ∅ 0 ∗ blkPts c (rSlY c k) fullShare (landY m ρ c k) ∗ owes (c : Thread nD τ) (oweX c (k.val + 1)) (insert (SemLoc.dma (yrS k), ()) W)) -∗ wp frame (wpE (defs₀ (F := F)) 𝒱₀ (c : Thread nD τ) none) Set.univ (rest) Q))
      ⊢ wp frame (wpE (defs₀ (F := F)) 𝒱₀ (c : Thread nD τ) none) Set.univ (iterB c k >>= fun _ => rest) Q := by
  unfold iterB iterBrecv iterBadd
  rw [dif_neg (Nat.not_lt.mpr h)]
  simp only [Prog.lift, Prog.bind_op, Prog.bind_ret, Prog.pure_eq_ret, bind_pure_comp]
  rw [show oweX c (k.val + 1) = oweX c k.val from (oweX_ge c _ (by omega)).trans (oweX_ge c _ h).symm]
  unfold outSt
  iintro ⟨#Hrec, #Hlev, HX, ⟨%g, %hg, Hout⟩, Hc, Hat, HO, Hk⟩
  ihave ⟨#HIyr, -⟩ := (rec_yr m ρ K c k) $$ Hrec
  iapply (wp_waitCell m ρ K c (yrS k) (oweX c k.val) W (credY c k) (expect_yr m ρ c k)) $$ [Hc HO Hat]
  · iframe # ∗; iapply (mayWait_yr (F := F) c k k.val); iexact Hlev
  rw [rest_yr]; iintro ⟨HO, Hat, -, Hpay⟩
  unfold yrPay
  iapply (wp_load 𝒱₀ (c : Thread nD τ) none Set.univ (m := xM) (Finset.subset_univ _)) $$ HX; iintro HX
  have eR : (blkPts c (rSlY c k) fullShare (landY m ρ c k) : sProp 𝕄)
      = (rM.view.loc (c : Thread nD τ) ↦[(rSlY c k).view.set]{fullShare} landY m ρ c k) := rfl
  ihave Hpay := (Entails.of_eq eR) $$ Hpay
  iapply (wp_load 𝒱₀ (c : Thread nD τ) none Set.univ (m := rM) (S := (rSlY c k).view.set) (q := fullShare) (f := landY m ρ c k) (rSlY_load_sub c k)) $$ Hpay; iintro Hpay
  ihave Hpay := (Entails.of_eq eR.symm) $$ Hpay
  rw [read_landY m ρ c k]
  iapply (wp_load 𝒱₀ (c : Thread nD τ) none Set.univ (m := oM) (Finset.subset_univ _)) $$ Hout; iintro Hout
  iapply (wp_store 𝒱₀ (c : Thread nD τ) none Set.univ (m := oM) (r := rY c k) (Mk := Finset.univ) (Finset.subset_univ _)) $$ Hout; iintro Hout
  iapply Hk; iframe
  iexists _; iframe; ipureintro; exact agree_write_Y m ρ c k hg

theorem iterC_spec (K : GSem nD τ sig → ℕ) (c : Dev nD) (k : Fin 30) {α : Type} (Q : α → sProp 𝕄)
    (rest : Prog (TpuEff nD τ sig (Elt F) Λ₀ .tc) α) (dY : Finset (Fin 34)) (dX : Finset (Fin 30)) (W : Waits sig Unit) :
    iprop(records m ρ K ∗ ((c : Thread nD τ).loc cc0_stg0_0 ↦{fullShare} xstg m ρ c) ∗ outSt m ρ c dY dX ∗ cred (tallyAt (xrCell c k) () N) ∗ atPos ER (xrCell c k) 0 ∅ 0 ∗ owes (c : Thread nD τ) 0 W
        ∗ ((((c : Thread nD τ).loc cc0_stg0_0 ↦{fullShare} xstg m ρ c) ∗ outSt m ρ c dY (insert k dX) ∗ atPos ER (xrCell c k) 1 ∅ 0 ∗ blkPts c (rSlX c k) fullShare (landX m ρ c k) ∗ owes (c : Thread nD τ) 0 (insert (SemLoc.dma (xrS k), ()) W)) -∗ wp frame (wpE (defs₀ (F := F)) 𝒱₀ (c : Thread nD τ) none) Set.univ (rest) Q))
      ⊢ wp frame (wpE (defs₀ (F := F)) 𝒱₀ (c : Thread nD τ) none) Set.univ ((do iterCrecv c k; iterCadd c k) >>= fun _ => rest) Q := by
  unfold iterCrecv iterCadd
  simp only [Prog.lift, Prog.bind_op, Prog.bind_ret, Prog.pure_eq_ret, bind_pure_comp]
  unfold outSt
  iintro ⟨#Hrec, HX, ⟨%g, %hg, Hout⟩, Hc, Hat, HO, Hk⟩
  ihave ⟨#HIxr, -⟩ := (rec_xr m ρ K c k) $$ Hrec
  iapply (wp_waitCell m ρ K c (xrS k) 0 W (credY c (k34 k)) (expect_xr m ρ c k)) $$ [Hc HO Hat]
  · rw [MayWait_zero]; iframe # ∗; iempintro
  rw [rest_xr]; iintro ⟨HO, Hat, -, Hpay⟩
  unfold xrPay
  iapply (wp_load 𝒱₀ (c : Thread nD τ) none Set.univ (m := xM) (Finset.subset_univ _)) $$ HX; iintro HX
  have eR : (blkPts c (rSlX c k) fullShare (landX m ρ c k) : sProp 𝕄)
      = (rM.view.loc (c : Thread nD τ) ↦[(rSlX c k).view.set]{fullShare} landX m ρ c k) := rfl
  ihave Hpay := (Entails.of_eq eR) $$ Hpay
  iapply (wp_load 𝒱₀ (c : Thread nD τ) none Set.univ (m := rM) (S := (rSlX c k).view.set) (q := fullShare) (f := landX m ρ c k) (rSlX_load_sub c k)) $$ Hpay; iintro Hpay
  ihave Hpay := (Entails.of_eq eR.symm) $$ Hpay
  rw [read_landX m ρ c k]
  iapply (wp_load 𝒱₀ (c : Thread nD τ) none Set.univ (m := oM) (Finset.subset_univ _)) $$ Hout; iintro Hout
  iapply (wp_store 𝒱₀ (c : Thread nD τ) none Set.univ (m := oM) (r := rX c k) (Mk := Finset.univ) (Finset.subset_univ _)) $$ Hout; iintro Hout
  iapply Hk; iframe
  iexists _; iframe; ipureintro; exact agree_write_X m ρ c k hg

end Cert.KernelIdeal.AR

end
-- ==== Proof.PhaseBC.lean ====
import proofs.«900712_g7700000000000713_dist_ar_v7x_xyz2x2x4_y_m2048_n512_bf16_1_alg».proof.Proof.IterBC
import proofs.«900712_g7700000000000713_dist_ar_v7x_xyz2x2x4_y_m2048_n512_bf16_1_alg».proof.Proof.SeqN

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem filter_lt_zero {n : ℕ} : (Finset.univ : Finset (Fin n)).filter (fun i => i.val < 0) = ∅ :=
  Finset.filter_false_of_mem fun _ _ => Nat.not_lt_zero _

-- Past the end of `Fin n` every index is below, none is above.
theorem filter_lt_past {n : ℕ} (j : ℕ) (h : n ≤ j) : (Finset.univ : Finset (Fin n)).filter (fun i => i.val < j) = Finset.univ :=
  Finset.filter_true_of_mem fun i _ => i.isLt.trans_le h

theorem filter_ge_past {n : ℕ} (j : ℕ) (h : n ≤ j) : (Finset.univ : Finset (Fin n)).filter (fun i => j ≤ i.val) = ∅ :=
  Finset.filter_false_of_mem fun i _ hi => absurd (i.isLt.trans_le (h.trans hi)) (lt_irrefl _)

def preYr (c : Dev nD) (k : Fin 34) : sProp 𝕄 := iprop(cred (tallyAt (yrCell c k) () N) ∗ atPos ER (yrCell c k) 0 ∅ 0)
def preXs (c : Dev nD) (k : Fin 30) : sProp 𝕄 :=
  iprop(dutyTok ER (xsCell c k) 0 false ∗ dutyTok ER (xrCell (xn c) k) 0 false ∗ (∃ f, blkPts (xn c) (rSlX (xn c) k) fullShare f))
def postXs (c : Dev nD) (k : Fin 30) : sProp 𝕄 :=
  iprop(blkPts c (rSlY c (k34 k)) fullShare.right (landY m ρ c (k34 k)) ∗ cred (tallyAt (xsCell c k) () N))

-- The y link's receive phase: the first 30 blocks are forwarded over the x link, the last 4 kept whole.
theorem phaseB_spec (K : GSem nD τ sig → ℕ) (c : Dev nD) {α : Type} (Q : α → sProp 𝕄)
    (rest : Prog (TpuEff nD τ sig (Elt F) Λ₀ .tc) α) :
    iprop(records m ρ K ∗ levAts L lv ∗ ((c : Thread nD τ).loc cc0_stg0_0 ↦{fullShare} xstg m ρ c) ∗ outSt m ρ c ∅ ∅
        ∗ (∃ W, owes (c : Thread nD τ) (oweX c 0) W) ∗ bigSep Finset.univ (preYr (F := F) c) ∗ bigSep Finset.univ (preXs (F := F) c)
        ∗ ((((c : Thread nD τ).loc cc0_stg0_0 ↦{fullShare} xstg m ρ c) ∗ outSt m ρ c Finset.univ ∅ ∗ (∃ W, owes (c : Thread nD τ) 0 W)
              ∗ (bigSep (Finset.univ : Finset (Fin 34)) fun k => atPos ER (yrCell c k) 1 ∅ 0) ∗ bigSep Finset.univ (postXs m ρ c)
              ∗ (bigSep ((Finset.univ : Finset (Fin 34)).filter fun k => 30 ≤ k.val) fun k => iprop(∃ f, blkPts c (rSlY c k) fullShare f)))
            -∗ wp frame (wpE (defs₀ (F := F)) 𝒱₀ (c : Thread nD τ) none) Set.univ rest Q))
      ⊢ wp frame (wpE (defs₀ (F := F)) 𝒱₀ (c : Thread nD τ) none) Set.univ (seqN 34 (iterB c) >>= fun _ => rest) Q := by
  refine .trans ?_ (wp_phase 34 (iterB c) (fun j => iprop(records m ρ K ∗ levAts L lv ∗ ((c : Thread nD τ).loc cc0_stg0_0 ↦{fullShare} xstg m ρ c)
      ∗ outSt m ρ c (Finset.univ.filter fun i => i.val < j) ∅ ∗ (∃ W, owes (c : Thread nD τ) (oweX c j) W)
      ∗ bigSep (Finset.univ.filter fun i => j ≤ i.val) (preXs (F := F) c) ∗ bigSep (Finset.univ.filter fun i => i.val < j) (postXs m ρ c)))
    (preYr c) (fun k => iprop(atPos ER (yrCell c k) 1 ∅ 0 ∗ if 30 ≤ k.val then iprop(∃ f, blkPts c (rSlY c k) fullShare f) else BI.emp))
    c Q (fun k rest' => ?_) rest)
  · dsimp only
    rw [bigSep_ge_zero, bigSep_lt_zero, filter_lt_zero, filter_lt_past (n := 34) 34 le_rfl, filter_ge_past (n := 30) 34 (by decide),
      filter_lt_past (n := 30) 34 (by decide), bigSep_empty, oweX_ge c 34 (by decide), bigSep_sep', bigSep_filter]
    iintro ⟨#Hrec, #Hlev, Hx, Hout, HO, HpY, HpX, Hk⟩
    iframe # ∗
    iintro ⟨⟨-, -, Hx, Hout, HO, -, HqX⟩, HqY, Hkept⟩
    iapply Hk; iframe
  · dsimp only
    rw [filter_lt_succ k]
    unfold preYr
    by_cases h : k.val < 30
    · rw [bigSep_ge_succ_eq (preXs (F := F) c) ⟨k.val, h⟩, bigSep_lt_succ_eq (postXs m ρ c) ⟨k.val, h⟩, if_neg (Nat.not_le.2 h)]
      unfold preXs postXs
      iintro ⟨⟨#Hrec, #Hlev, Hx, Hout, ⟨%W, HO⟩, ⟨⟨Ht1, Ht2, Hd⟩, HpX⟩, HqX⟩, ⟨Hc, Hat⟩, Hk⟩
      iapply (iterB_fwd_spec m ρ K c k h Q rest' _ W)
      iframe # ∗
      iintro ⟨Hx, Hout, Hat, HR, HcS, HO⟩
      iapply Hk; iframe # ∗
      isplitl [HO]; · iexists _; iexact HO
      iempintro
    · have h' := Nat.le_of_not_lt h
      rw [filter_ge_past k.val h', filter_ge_past (k.val + 1) (h'.trans (Nat.le_succ _)), filter_lt_past k.val h',
        filter_lt_past (k.val + 1) (h'.trans (Nat.le_succ _)), if_pos h']
      iintro ⟨⟨#Hrec, #Hlev, Hx, Hout, ⟨%W, HO⟩, HpX, HqX⟩, ⟨Hc, Hat⟩, Hk⟩
      iapply (iterB_last_spec m ρ K c k h' Q rest' _ W)
      iframe # ∗
      iintro ⟨Hx, Hout, Hat, HR, HO⟩
      iapply Hk; iframe # ∗
      isplitl [HO] <;> iexists _ <;> iassumption

def preXr (c : Dev nD) (k : Fin 30) : sProp 𝕄 := iprop(cred (tallyAt (xrCell c k) () N) ∗ atPos ER (xrCell c k) 0 ∅ 0)
def postXr (c : Dev nD) (k : Fin 30) : sProp 𝕄 :=
  iprop(atPos ER (xrCell c k) 1 ∅ 0 ∗ ∃ f, blkPts c (rSlX c k) fullShare f)

theorem phaseC_spec (K : GSem nD τ sig → ℕ) (c : Dev nD) {α : Type} (Q : α → sProp 𝕄)
    (rest : Prog (TpuEff nD τ sig (Elt F) Λ₀ .tc) α) :
    iprop(records m ρ K ∗ ((c : Thread nD τ).loc cc0_stg0_0 ↦{fullShare} xstg m ρ c) ∗ outSt m ρ c Finset.univ ∅
        ∗ (∃ W, owes (c : Thread nD τ) 0 W) ∗ bigSep Finset.univ (preXr (F := F) c)
        ∗ ((((c : Thread nD τ).loc cc0_stg0_0 ↦{fullShare} xstg m ρ c) ∗ outSt m ρ c Finset.univ Finset.univ ∗ (∃ W, owes (c : Thread nD τ) 0 W)
              ∗ bigSep Finset.univ (postXr (F := F) c))
            -∗ wp frame (wpE (defs₀ (F := F)) 𝒱₀ (c : Thread nD τ) none) Set.univ rest Q))
      ⊢ wp frame (wpE (defs₀ (F := F)) 𝒱₀ (c : Thread nD τ) none) Set.univ (seqN 30 (fun k => do iterCrecv c k; iterCadd c k) >>= fun _ => rest) Q := by
  refine .trans ?_ (wp_phase 30 _ (fun j => iprop(records m ρ K ∗ ((c : Thread nD τ).loc cc0_stg0_0 ↦{fullShare} xstg m ρ c)
      ∗ outSt m ρ c Finset.univ (Finset.univ.filter fun i => i.val < j) ∗ ∃ W, owes (c : Thread nD τ) 0 W))
    (preXr c) (postXr c) c Q (fun k rest' => ?_) rest)
  · dsimp only
    rw [filter_lt_zero, filter_lt_past 30 le_rfl]
    iintro ⟨#Hrec, Hx, Hout, HO, Hp, Hk⟩
    iframe # ∗
    iintro ⟨⟨-, Hx, Hout, HO⟩, Hq⟩
    iapply Hk; iframe
  · dsimp only
    rw [filter_lt_succ k]
    unfold preXr postXr
    iintro ⟨⟨#Hrec, Hx, Hout, ⟨%W, HO⟩⟩, ⟨Hc, Hat⟩, Hk⟩
    iapply (iterC_spec m ρ K c k Q rest' _ _ W)
    iframe # ∗
    iintro ⟨Hx, Hout, Hat, HR, HO⟩
    iapply Hk; iframe # ∗
    isplitl [HO] <;> iexists _ <;> iassumption

end Cert.KernelIdeal.AR

end
-- ==== Proof.Unroll.lean ====
import proofs.«900712_g7700000000000713_dist_ar_v7x_xyz2x2x4_y_m2048_n512_bf16_1_alg».proof.Proof.Levels
import proofs.«900712_g7700000000000713_dist_ar_v7x_xyz2x2x4_y_m2048_n512_bf16_1_alg».proof.Proof.Rec

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem close_cell (K : GSem nD τ sig → ℕ) (c : Dev nD) (s : DmaSem sig) :
    iprop(cellInv ER (arRd m ρ) (K ((c : Thread nD τ), .dma s)) ((c : Thread nD τ), .dma s) ∗ atPos ER ((c : Thread nD τ), .dma s) 1 ∅ 0)
      ⊢ (iprop(|={Set.univ}=> semVal ((c : Thread nD τ), .dma s) 0) : sProp 𝕄) :=
  Rounds.cell_close ER (arRd m ρ) (Set.mem_univ _) (fun h => h) (R := 0 + 1) (duties_later m ρ _)

end Cert.KernelIdeal.AR

end
-- ==== Proof.IterDE.lean ====
import proofs.«900712_g7700000000000713_dist_ar_v7x_xyz2x2x4_y_m2048_n512_bf16_1_alg».proof.Proof.GenProg
import proofs.«900712_g7700000000000713_dist_ar_v7x_xyz2x2x4_y_m2048_n512_bf16_1_alg».proof.Proof.Steps
import proofs.«900712_g7700000000000713_dist_ar_v7x_xyz2x2x4_y_m2048_n512_bf16_1_alg».proof.Proof.Rec
import proofs.«900712_g7700000000000713_dist_ar_v7x_xyz2x2x4_y_m2048_n512_bf16_1_alg».proof.Proof.SeqN
import proofs.«900712_g7700000000000713_dist_ar_v7x_xyz2x2x4_y_m2048_n512_bf16_1_alg».proof.Proof.Unroll

noncomputable section

namespace Cert.KernelIdeal.AR

open Cert.KernelIdeal Cert.KernelIdeal.Gen Cert.AR

open Idealize.ShloMosaic
open Idealize.ShloMosaic.TcCoe
open Idealize.SL Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

-- The send waits of one link, owing nothing: wait `k` spends cell `s k`'s credit and hands back the payload of its one round.
theorem phaseW (K : GSem nD τ sig → ℕ) (c : Dev nD) {n : ℕ} (s : Fin n → DmaSem sig) (pay : Fin n → sProp 𝕄)
    (src dst : Fin n → Memref sig .tc .vmem S32x512 .bf16) (hs : ∀ k, (src k).view.WordExact) (hd : ∀ k, (dst k).view.WordExact) (hcr : ∀ k, (dst k).view.dmaCredit = N)
    (hex : ∀ k, (arRd (F := F) m ρ).expect ((c : Thread nD τ), .dma (s k)) 0 = N)
    (hpay : ∀ k, bigSep ((arRd (F := F) m ρ).duties ((c : Thread nD τ), .dma (s k)) 0 \ ∅) (fun d => (arRd (F := F) m ρ).payload ((c : Thread nD τ), .dma (s k)) 0 d) = pay k)
    (hrec : ∀ k, records m ρ K ⊢ iprop(cellInv ER (arRd m ρ) (K ((c : Thread nD τ), .dma (s k))) ((c : Thread nD τ), .dma (s k)) ∗ reached ER ((c : Thread nD τ), .dma (s k)) 0))
    {α : Type} (Q : α → sProp 𝕄) (rest : Prog (TpuEff nD τ sig (Elt F) Λ₀ .tc) α) :
    iprop(records m ρ K ∗ (∃ W, owes (c : Thread nD τ) 0 W)
        ∗ (bigSep (Finset.univ : Finset (Fin n)) fun k => iprop(cred (tallyAt ((c : Thread nD τ), .dma (s k)) () N) ∗ atPos ER ((c : Thread nD τ), .dma (s k)) 0 ∅ 0))
        ∗ (((∃ W, owes (c : Thread nD τ) 0 W) ∗ (bigSep (Finset.univ : Finset (Fin n)) fun k => iprop(atPos ER ((c : Thread nD τ), .dma (s k)) 1 ∅ 0 ∗ pay k)))
            -∗ wp frame (wpE (defs₀ (F := F)) 𝒱₀ (c : Thread nD τ) none) Set.univ rest Q))
      ⊢ wp frame (wpE (defs₀ (F := F)) 𝒱₀ (c : Thread nD τ) none) Set.univ (seqN n (fun k => Prog.lift (.waitDma2 (s k) (src k) (dst k) (hs k) (hd k))) >>= fun _ => rest) Q := by
  refine .trans ?_ (wp_phase n _ (fun _ => iprop(records m ρ K ∗ ∃ W, owes (c : Thread nD τ) 0 W))
    (fun k => iprop(cred (tallyAt ((c : Thread nD τ), .dma (s k)) () N) ∗ atPos ER ((c : Thread nD τ), .dma (s k)) 0 ∅ 0)) (fun k => iprop(atPos ER ((c : Thread nD τ), .dma (s k)) 1 ∅ 0 ∗ pay k))
    c Q (fun k rest' => ?_) rest)
  · iintro ⟨#Hrec, HW, Hpre, Hk⟩
    iframe # ∗
    iintro ⟨⟨-, HW⟩, Hpost⟩
    iapply Hk; iframe
  · iintro ⟨⟨#Hrec, %W, How⟩, ⟨Hcr, Hat⟩, Hk⟩
    ihave ⟨Hinv, -⟩ := (hrec k) $$ Hrec
    rw [Prog.bind_lift]
    iapply (wp_waitCell m ρ K c (s k) 0 W (hcr k) (hex k)) $$ [Hcr How Hat]
    · rw [MayWait_zero]; iframe # ∗; iempintro
    rw [hpay k]
    iintro ⟨How, Hat, -, Hpay⟩
    iapply Hk; iframe # ∗
    iexists _; iexact How

theorem phaseD_spec (K : GSem nD τ sig → ℕ) (c : Dev nD) {α : Type} (Q : α → sProp 𝕄) (rest : Prog (TpuEff nD τ sig (Elt F) Λ₀ .tc) α) :
    iprop(records m ρ K ∗ (∃ W, owes (c : Thread nD τ) 0 W)
        ∗ (bigSep (Finset.univ : Finset (Fin 34)) fun k => iprop(cred (tallyAt (ysCell c k) () N) ∗ atPos ER (ysCell c k) 0 ∅ 0))
        ∗ (((∃ W, owes (c : Thread nD τ) 0 W) ∗ (bigSep (Finset.univ : Finset (Fin 34)) fun k => iprop(atPos ER (ysCell c k) 1 ∅ 0 ∗ ysPay c k)))
            -∗ wp frame (wpE (defs₀ (F := F)) 𝒱₀ (c : Thread nD τ) none) Set.univ rest Q))
      ⊢ wp frame (wpE (defs₀ (F := F)) 𝒱₀ (c : Thread nD τ) none) Set.univ (seqN 34 (iterD c) >>= fun _ => rest) Q :=
  phaseW m ρ K c ysS (ysPay c) (rSlY c) bSl _ _ (fun _ => rfl) (expect_ys m ρ c) (rest_ys m ρ c) (rec_ys m ρ K c) Q rest

theorem phaseE_spec (K : GSem nD τ sig → ℕ) (c : Dev nD) {α : Type} (Q : α → sProp 𝕄) (rest : Prog (TpuEff nD τ sig (Elt F) Λ₀ .tc) α) :
    iprop(records m ρ K ∗ (∃ W, owes (c : Thread nD τ) 0 W)
        ∗ (bigSep (Finset.univ : Finset (Fin 30)) fun k => iprop(cred (tallyAt (xsCell c k) () N) ∗ atPos ER (xsCell c k) 0 ∅ 0))
        ∗ (((∃ W, owes (c : Thread nD τ) 0 W) ∗ (bigSep (Finset.univ : Finset (Fin 30)) fun k => iprop(atPos ER (xsCell c k) 1 ∅ 0 ∗ xsPay m ρ c k)))
            -∗ wp frame (wpE (defs₀ (F := F)) 𝒱₀ (c : Thread nD τ) none) Set.univ rest Q))
      ⊢ wp frame (wpE (defs₀ (F := F)) 𝒱₀ (c : Thread nD τ) none) Set.univ (seqN 30 (iterE c) >>= fun _ => rest) Q :=
  phaseW m ρ K c xsS (xsPay m ρ c) (fun k => rSlY c (k34 k)) (fun k => rSlY c (k34 k)) _ _ (fun _ => rfl) (expect_xs m ρ c) (rest_xs m ρ c) (rec_xs m ρ K c) Q rest

-- A cell standing at round 1 has no later round: its owner closes it and takes the counter back at zero.  Both cells of every block of a link.
theorem close_link (K : GSem nD τ sig → ℕ) (c : Dev nD) {n : ℕ} (s r : Fin n → DmaSem sig)
    (hs : ∀ k, records m ρ K ⊢ iprop(cellInv ER (arRd m ρ) (K ((c : Thread nD τ), .dma (s k))) ((c : Thread nD τ), .dma (s k)) ∗ reached ER ((c : Thread nD τ), .dma (s k)) 0))
    (hr : ∀ k, records m ρ K ⊢ iprop(cellInv ER (arRd m ρ) (K ((c : Thread nD τ), .dma (r k))) ((c : Thread nD τ), .dma (r k)) ∗ reached ER ((c : Thread nD τ), .dma (r k)) 0)) :
    iprop(records m ρ K ∗ bigSep (Finset.univ : Finset (Fin n)) fun k => iprop(atPos ER ((c : Thread nD τ), .dma (s k)) 1 ∅ 0 ∗ atPos ER ((c : Thread nD τ), .dma (r k)) 1 ∅ 0))
      ⊢ (iprop(|={Set.univ}=> bigSep (Finset.univ : Finset (Fin n)) fun k => iprop(semVal ((c : Thread nD τ), .dma (s k)) 0 ∗ semVal ((c : Thread nD τ), .dma (r k)) 0)) : sProp 𝕄) := by
  refine (bigSep_with_persistent fun k _ => ?_).trans (bigSep_fupd _ _)
  refine .trans ?_ (fupd_sep (E₂ := Set.univ))
  iintro ⟨#Hrec, Hs, Hr⟩
  ihave ⟨I1, -⟩ := (hs k) $$ Hrec
  ihave ⟨I2, -⟩ := (hr k) $$ Hrec
  isplitl [Hs]
  · iapply (close_cell m ρ K c (s k)); iframe # ∗
  · iapply (close_cell m ρ K c (r k)); iframe # ∗

theorem close_all (K : GSem nD τ sig → ℕ) (c : Dev nD) :
    iprop(records m ρ K
        ∗ (bigSep (Finset.univ : Finset (Fin 34)) fun k => iprop(atPos ER (ysCell c k) 1 ∅ 0 ∗ atPos ER (yrCell c k) 1 ∅ 0))
        ∗ (bigSep (Finset.univ : Finset (Fin 30)) fun k => iprop(atPos ER (xsCell c k) 1 ∅ 0 ∗ atPos ER (xrCell c k) 1 ∅ 0)))
      ⊢ (iprop(|={Set.univ}=> ((bigSep (Finset.univ : Finset (Fin 34)) fun k => iprop(semVal (ysCell c k) 0 ∗ semVal (yrCell c k) 0))
          ∗ (bigSep (Finset.univ : Finset (Fin 30)) fun k => iprop(semVal (xsCell c k) 0 ∗ semVal (xrCell c k) 0)))) : sProp 𝕄) := by
  refine .trans ?_ (fupd_sep (E₂ := Set.univ))
  iintro ⟨#Hrec, HY, HX⟩
  isplitl [HY]
  · iapply (close_link m ρ K c ysS yrS (rec_ys m ρ K c) (rec_yr m ρ K c)); iframe # ∗
  · iapply (close_link m ρ K c xsS xrS (rec_xs m ρ K c) (rec_xr m ρ K c)); iframe # ∗

end Cert.KernelIdeal.AR

end
-- ==== Proof.Rejoin.lean ====
import proofs.«900712_g7700000000000713_dist_ar_v7x_xyz2x2x4_y_m2048_n512_bf16_1_alg».proof.Proof.Blocks
import proofs.«900712_g7700000000000713_dist_ar_v7x_xyz2x2x4_y_m2048_n512_bf16_1_alg».proof.Proof.BlockFacts

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def zeroB (c : Dev nD) : Buf (Elt F) ((c : Thread nD τ).loc cc0_scratch0) := fun _ => (FloatOps.ofBits .bf16 0 : F .bf16)
def zeroR (c : Dev nD) : Buf (Elt F) ((c : Thread nD τ).loc cc0_scratch1) := fun _ => (FloatOps.ofBits .bf16 0 : F .bf16)

theorem blk_join_halves {S : Shape} {e : EltTy} (c : Dev nD) (v : Memref sig .tc .vmem S e)
    (f : Buf (Elt F) (v.view.loc (c : Thread nD τ))) :
    iprop(blkPts c v fullShare.left f ∗ blkPts c v fullShare.right f) ⊢ (blkPts c v fullShare f : sProp 𝕄) :=
  (blk_halves c v f).2

theorem blocksY_eq (c : Dev nD) :
    (bigSep (Finset.univ : Finset (Fin 34)) fun k => iprop(∃ f, blkPts c (rSlY c k) fullShare f) : sProp 𝕄)
      = bigSep (Finset.univ : Finset (Fin 34)) fun k =>
          iprop(∃ f : Buf (Elt F) ((c : Thread nD τ).loc cc0_scratch1), ((c : Thread nD τ).loc cc0_scratch1) ↦[(rY2 c k).set]{fullShare} f) :=
  bigSep_congr fun k _ => by unfold blkPts; rw [set_rSlY]; rfl

theorem blocksX_eq (c : Dev nD) :
    (bigSep (Finset.univ : Finset (Fin 30)) fun k => iprop(∃ f, blkPts c (rSlX c k) fullShare f) : sProp 𝕄)
      = bigSep (Finset.univ : Finset (Fin 30)) fun k =>
          iprop(∃ f : Buf (Elt F) ((c : Thread nD τ).loc cc0_scratch1), ((c : Thread nD τ).loc cc0_scratch1) ↦[(rX c k).set]{fullShare} f) :=
  bigSep_congr fun k _ => by unfold blkPts; rw [set_rSlX]; rfl

theorem rejoin_b (c : Dev nD) :
    (bigSep (Finset.univ : Finset (Fin 34)) fun k => iprop(∃ f, blkPts c (bSl k) fullShare f) : sProp 𝕄)
      ⊢ iprop(∃ f : Buf (Elt F) ((c : Thread nD τ).loc cc0_scratch0), ((c : Thread nD τ).loc cc0_scratch0) ↦{fullShare} f) := by
  simp only [blkPts, set_bSl]
  haveI : Nonempty (Buf (Elt F) ((c : Thread nD τ).loc cc0_scratch0)) := ⟨zeroB c⟩
  refine (BI.bigSep_exists_pi Finset.univ (fun (k : Fin 34) (f : Buf (Elt F) ((c : Thread nD τ).loc cc0_scratch0)) =>
    (((c : Thread nD τ).loc cc0_scratch0) ↦[(rB k).set]{fullShare} f : sProp 𝕄))).trans ?_
  iintro ⟨%fs, H⟩
  ihave H' := (pointsTo_biUnion_join Finset.univ (fun k : Fin 34 => (rB k).set) fs (zeroB c)
    (fun k _ k' _ h => rectB_disjoint k k' h)) $$ H
  icases H' with ⟨%g, -, H'⟩
  iexists g
  rw [rectB_cover]
  iexact H'

theorem rejoin_r (c : Dev nD) :
    iprop((bigSep (Finset.univ : Finset (Fin 34)) fun k => iprop(∃ f, blkPts c (rSlY c k) fullShare f)) ∗
        (bigSep (Finset.univ : Finset (Fin 30)) fun k => iprop(∃ f, blkPts c (rSlX c k) fullShare f)))
      ⊢ (iprop(∃ f : Buf (Elt F) ((c : Thread nD τ).loc cc0_scratch1), ((c : Thread nD τ).loc cc0_scratch1) ↦{fullShare} f) : sProp 𝕄) := by
  rw [blocksY_eq, blocksX_eq]
  haveI : Nonempty (Buf (Elt F) ((c : Thread nD τ).loc cc0_scratch1)) := ⟨zeroR c⟩
  have hD : Disjoint (Finset.univ.biUnion fun k : Fin 34 => (rY2 c k).set) (Finset.univ.biUnion fun k : Fin 30 => (rX c k).set) :=
    (Finset.disjoint_biUnion_left _ _ _).mpr fun k _ => (Finset.disjoint_biUnion_right _ _ _).mpr fun k' _ => rectY_rectX_disjoint c k k'
  iintro ⟨HY, HX⟩
  ihave HY := (BI.bigSep_exists_pi Finset.univ (fun (k : Fin 34) (f : Buf (Elt F) ((c : Thread nD τ).loc cc0_scratch1)) =>
    (((c : Thread nD τ).loc cc0_scratch1) ↦[(rY2 c k).set]{fullShare} f : sProp 𝕄))) $$ HY
  icases HY with ⟨%fY, HY⟩
  ihave HY := (pointsTo_biUnion_join Finset.univ (fun k : Fin 34 => (rY2 c k).set) fY (zeroR c)
    (fun k _ k' _ h => rectY_disjoint c k k' h)) $$ HY
  icases HY with ⟨%gY, -, HY⟩
  ihave HX := (BI.bigSep_exists_pi Finset.univ (fun (k : Fin 30) (f : Buf (Elt F) ((c : Thread nD τ).loc cc0_scratch1)) =>
    (((c : Thread nD τ).loc cc0_scratch1) ↦[(rX c k).set]{fullShare} f : sProp 𝕄))) $$ HX
  icases HX with ⟨%fX, HX⟩
  ihave HX := (pointsTo_biUnion_join Finset.univ (fun k : Fin 30 => (rX c k).set) fX (zeroR c)
    (fun k _ k' _ h => rectX_disjoint c k k' h)) $$ HX
  icases HX with ⟨%gX, -, HX⟩
  iexists (Finset.univ.biUnion fun k : Fin 30 => (rX c k).set).piecewise gX gY
  have hj := pointsTo_join (nD := nD) (τ := τ) (sig := sig) (Ix := Unit) (Val := Elt F) (Name := ℕ) (U := UU) (Lvl := ℕ)
    (ℓ := (c : Thread nD τ).loc cc0_scratch1) (q := fullShare) (f := gY) (g := gX) hD
  rw [rect_cover c] at hj
  iapply hj
  isplitl [HY]
  · iexact HY
  · iexact HX

theorem split_r (c : Dev nD) (f : Buf (Elt F) ((c : Thread nD τ).loc cc0_scratch1)) :
    (((c : Thread nD τ).loc cc0_scratch1) ↦{fullShare} f : sProp 𝕄)
      ⊢ iprop((bigSep (Finset.univ : Finset (Fin 34)) fun k => iprop(∃ f', blkPts c (rSlY c k) fullShare f')) ∗
          (bigSep (Finset.univ : Finset (Fin 30)) fun k => iprop(∃ f', blkPts c (rSlX c k) fullShare f'))) :=
  (rM_split c f).1.trans (Idealize.SL.BI.sep_mono (bigSep_mono fun k _ => exists_intro (Φ := fun f' => blkPts c (rSlY c k) fullShare f') f)
    (bigSep_mono fun k _ => exists_intro (Φ := fun f' => blkPts c (rSlX c k) fullShare f') f))

theorem split_b (c : Dev nD) (f : Buf (Elt F) ((c : Thread nD τ).loc cc0_scratch0)) :
    (((c : Thread nD τ).loc cc0_scratch0) ↦{fullShare} f : sProp 𝕄)
      ⊢ bigSep (Finset.univ : Finset (Fin 34)) fun k => iprop(∃ f', blkPts c (bSl k) fullShare f') :=
  (bM_split c f).1.trans (bigSep_mono fun k _ => exists_intro (Φ := fun f' => blkPts c (bSl k) fullShare f') f)

end Cert.KernelIdeal.AR

end
-- ==== Proof.Epilogue.lean ====
import proofs.«900712_g7700000000000713_dist_ar_v7x_xyz2x2x4_y_m2048_n512_bf16_1_alg».proof.Proof.IterBC
import proofs.«900712_g7700000000000713_dist_ar_v7x_xyz2x2x4_y_m2048_n512_bf16_1_alg».proof.Proof.Rejoin
import proofs.«900712_g7700000000000713_dist_ar_v7x_xyz2x2x4_y_m2048_n512_bf16_1_alg».proof.Proof.Unroll

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

def e34 : Fin 30 ↪ Fin 34 := ⟨k34, fun _ _ h => Fin.ext (Fin.val_eq_of_eq h :)⟩

omit [FloatOps F] in
theorem map_e34 : (Finset.univ : Finset (Fin 30)).map e34 = (Finset.univ : Finset (Fin 34)).filter (fun k => ¬ 30 ≤ k.val) := by
  ext k
  simp only [Finset.mem_map, Finset.mem_univ, true_and, Finset.mem_filter]
  constructor
  · rintro ⟨j, rfl⟩; exact Nat.not_le.2 j.isLt
  · intro h; exact ⟨⟨k.val, Nat.not_le.1 h⟩, Fin.ext rfl⟩

-- The 34 blocks of the y link are its last 4 and its first 30, the ones forwarded over the x link.
theorem bigSep34_of_30 (Φ : Fin 34 → sProp 𝕄) :
    iprop(bigSep ((Finset.univ : Finset (Fin 34)).filter fun k => 30 ≤ k.val) Φ ∗ bigSep (Finset.univ : Finset (Fin 30)) fun k => Φ (k34 k))
      ⊢ bigSep (Finset.univ : Finset (Fin 34)) Φ := by
  rw [bigSep_filter_split Finset.univ (fun k : Fin 34 => 30 ≤ k.val), ← map_e34, bigSep_map]
  exact Entails.of_eq rfl

-- Two halves of one block at the same contents make the block.
theorem join_fwd (c : Dev nD) :
    (bigSep Finset.univ fun k : Fin 30 => iprop(xsPay m ρ c k ∗ blkPts c (rSlY c (k34 k)) fullShare.right (landY m ρ c (k34 k))))
      ⊢ bigSep Finset.univ fun k : Fin 30 => iprop(∃ f, blkPts c (rSlY c (k34 k)) fullShare f) := by
  unfold xsPay
  exact bigSep_mono fun k _ => (blk_join_halves c (rSlY c (k34 k)) (landY m ρ c (k34 k))).trans
    (exists_intro (Φ := fun f => blkPts c (rSlY c (k34 k)) fullShare f) (landY m ρ c (k34 k)))

theorem give_back_r (c : Dev nD) :
    iprop((bigSep Finset.univ (fun k : Fin 30 => xsPay m ρ c k)
          ∗ bigSep Finset.univ fun k : Fin 30 => blkPts c (rSlY c (k34 k)) fullShare.right (landY m ρ c (k34 k)))
        ∗ bigSep ((Finset.univ : Finset (Fin 34)).filter fun k => 30 ≤ k.val) (fun k => iprop(∃ f, blkPts c (rSlY c k) fullShare f))
        ∗ bigSep Finset.univ (fun k : Fin 30 => iprop(∃ f, blkPts c (rSlX c k) fullShare f)))
      ⊢ iprop(∃ f : Buf (Elt F) ((c : Thread nD τ).loc cc0_scratch1), ((c : Thread nD τ).loc cc0_scratch1) ↦{fullShare} f) := by
  rw [← bigSep_sep']
  iintro ⟨HZ, HK, HX⟩
  iapply (rejoin_r (F := F) c); iframe HX
  iapply (bigSep34_of_30 (F := F) fun k => iprop(∃ f, blkPts c (rSlY c k) fullShare f)); iframe HK
  iapply (join_fwd m ρ c); iexact HZ

-- Agreement on every block is equality.
theorem out_done (c : Dev nD) :
    outSt m ρ c Finset.univ Finset.univ ⊢ (((c : Thread nD τ).loc cc0_stg1_0) ↦{fullShare} outG m ρ c : sProp 𝕄) := by
  unfold outSt
  iintro ⟨%g, %hg, H⟩
  rw [agree_done c Finset.mem_univ Finset.mem_univ hg]
  iexact H

end Cert.KernelIdeal.AR

end
-- ==== Proof.BodyGen.lean ====
import proofs.«900712_g7700000000000713_dist_ar_v7x_xyz2x2x4_y_m2048_n512_bf16_1_alg».proof.Proof.PhaseA
import proofs.«900712_g7700000000000713_dist_ar_v7x_xyz2x2x4_y_m2048_n512_bf16_1_alg».proof.Proof.PhaseBC
import proofs.«900712_g7700000000000713_dist_ar_v7x_xyz2x2x4_y_m2048_n512_bf16_1_alg».proof.Proof.IterDE
import proofs.«900712_g7700000000000713_dist_ar_v7x_xyz2x2x4_y_m2048_n512_bf16_1_alg».proof.Proof.Epilogue
import proofs.«900712_g7700000000000713_dist_ar_v7x_xyz2x2x4_y_m2048_n512_bf16_1_alg».proof.Proof.OffIdeal

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- Before the first send each neighbour is given this device's landing blocks, and the device theirs.
theorem prologue (K : GSem nD τ sig → ℕ) (c : Dev nD) {α : Type} (Q : α → sProp 𝕄) (rest : Prog (TpuEff nD τ sig (Elt F) Λ₀ .tc) α)
    (fr : Buf (Elt F) ((c : Thread nD τ).loc cc0_scratch1)) (W : Waits sig Unit) :
    iprop(records m ρ K ∗ levAts L lv ∗ atPos ER (barCell c) 0 ∅ 0 ∗ dutyTok ER (barCell (yn c)) 0 false ∗ dutyTok ER (barCell (xn c)) 0 true
        ∗ cred (tallyAt (barCell c) () 2) ∗ (((c : Thread nD τ).loc cc0_scratch1) ↦{fullShare} fr) ∗ owes (c : Thread nD τ) (O₀ c) W
        ∗ (((bigSep (Finset.univ : Finset (Fin 34)) fun k => iprop(∃ f, blkPts (yn c) (rSlY (yn c) k) fullShare f))
            ∗ (bigSep (Finset.univ : Finset (Fin 30)) fun k => iprop(∃ f, blkPts (xn c) (rSlX (xn c) k) fullShare f))
            ∗ ∃ W, owes (c : Thread nD τ) (oweX c 0 + oweY c 0) W)
            -∗ wp frame (wpE (defs₀ (F := F)) 𝒱₀ (c : Thread nD τ) none) Set.univ rest Q))
      ⊢ wp frame (wpE (defs₀ (F := F)) 𝒱₀ (c : Thread nD τ) none) Set.univ (.op (.semSignal (yn c : Thread nD τ) barS (1#32).toNat) fun _ => .op (.semSignal (xn c : Thread nD τ) barS (1#32).toNat) fun _ =>
            .op (.semWait barS (2#32).toNat) fun _ => rest) Q := by
  iintro ⟨#Hrec, #Hlev, HatB, HtBY, HtBX, HcB, Hr, HO, Hk⟩
  ihave ⟨HrY, HrX⟩ := (split_r (F := F) c fr) $$ Hr
  ihave ⟨#HIbarY, #HrBarY⟩ := (rec_bar m ρ K (yn c)) $$ Hrec
  unfold O₀
  iapply (Rounds.wp_signal 𝒱₀ ER (arRd m ρ) (c : Thread nD τ) none (dst := (yn c : Thread nD τ)) (κ := K (barCell (yn c)))
      (d := false) (by rw [duties_bar]; exact Finset.mem_univ _) ((amount_bar m ρ (yn c) false).trans (by decide)) () (O₁ c) rfl)
    $$ [HO HtBY HrY]
  · rw [payload_bar_false]; unfold barPayY; rw [yn_yn]
    iframe # ∗
    isplitl [HO]; · iexact HO
    iapply (BI.bigSep_with_persistent (R := records m ρ K) (Φ := fun k : Fin 34 => iprop(∃ f, blkPts c (rSlY c k) fullShare f)) fun k _ => by
      iintro ⟨#Hrec', H⟩
      ihave ⟨-, #Hq⟩ := (rec_yr m ρ K c k) $$ Hrec'
      iframe # ∗)
    iframe # ∗
  iintro HO
  ihave ⟨#HIbarX, #HrBarX⟩ := (rec_bar m ρ K (xn c)) $$ Hrec
  unfold O₁
  iapply (Rounds.wp_signal 𝒱₀ ER (arRd m ρ) (c : Thread nD τ) none (dst := (xn c : Thread nD τ)) (κ := K (barCell (xn c)))
      (d := true) (by rw [duties_bar]; exact Finset.mem_univ _) ((amount_bar m ρ (xn c) true).trans (by decide)) () (O₂ c) rfl)
    $$ [HO HtBX HrX]
  · rw [payload_bar_true]; unfold barPayX; rw [xn_xn]
    iframe # ∗
    isplitl [HO]; · iexact HO
    iapply (BI.bigSep_with_persistent (R := records m ρ K) (Φ := fun k : Fin 30 => iprop(∃ f, blkPts c (rSlX c k) fullShare f)) fun k _ => by
      iintro ⟨#Hrec', H⟩
      ihave ⟨-, #Hq⟩ := (rec_xr m ρ K c k) $$ Hrec'
      iframe # ∗)
    iframe # ∗
  iintro HO
  ihave ⟨#HIbar, -⟩ := (rec_bar m ρ K c) $$ Hrec
  iapply (Rounds.wp_wait_rest_token 𝒱₀ ER (arRd m ρ) (c : Thread nD τ) none (κ := K (barCell c))
      (wpE_semWait_eq 𝒱₀ (c : Thread nD τ) none Set.univ) (Set.mem_univ _) () (O := O₂ c) (W := W) (R := 0) (m := 0) (T := ∅)
      (by rw [expect_bar]; decide)) $$ [HcB HO HatB]
  · iframe # ∗
    isplitl [HcB]; · iexact HcB
    iapply (mayWait_bar (F := F) c); iexact Hlev
  rw [rest_bar m ρ c]; unfold barPayY barPayX O₂; rw [bigSep_sep', bigSep_sep']
  iintro ⟨HO, -, -, ⟨HpY, -⟩, HpX, -⟩
  iapply Hk; iframe
  iexists _; iexact HO

theorem fetch_0 (t : Fin cfg0.N) : (cfg0.win (0 : Fin 2)).fetch t = true := by rw [fin_N t]; rfl

theorem sound_gen (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyGen (F := F)) Kt := by
  have hA := phaseA_spec m ρ K c Kt
  have hB := phaseB_spec m ρ K c Kt
  have hC := phaseC_spec m ρ K c Kt
  have hD := phaseD_spec m ρ K c Kt
  have hE := phaseE_spec m ρ K c Kt
  have hZ := close_all m ρ K c
  unfold preA at hA
  unfold preYr preXs postXs at hB
  unfold preXr postXr at hC
  unfold ysPay at hD
  simp only [bigSep_sep'] at hA hB hC hD hE hZ
  unfold bodyPre bodyPost ghost positions payToks creds Φ₁ Dat.owesAt Pipeline.owesWithin
  simp only [bigSep_sep']
  rw [show (dats m ρ 0 c).owed t₀.castSucc = O₀ c from rfl, show (dats m ρ 0 c).owed t₀.succ = 0 from rfl]
  iintro ⟨⟨⟨⟨#Hrec, ⟨HatB, ⟨HaYs, HaYr⟩, HaXs, HaXr⟩, HtBY, HtBX, ⟨HtYs, HtYr⟩, HtXs, HtXr⟩, ⟨HcB, HcY, HcX⟩, #Hlev, ⟨%fb, Hb⟩, ⟨%fr, Hr⟩⟩,
    ⟨%W, %hW, HO⟩, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold bodyGen
  simp only [semSignalWord, semWaitWord, Prog.lift, Prog.bind_op, Prog.bind_ret, Prog.pure_eq_ret, wp_deviceId]
  simp only [dev1_eq c, dev2_eq c]
  iapply (prologue m ρ K c Kt (phases c) fr W); iframe # ∗
  iintro ⟨HdY, HdX, HO⟩
  unfold phases
  simp only [bind_assoc]
  ihave Hbs := (split_b (F := F) c fb) $$ Hb
  iapply (hA _); iframe # ∗
  iintro ⟨Hx, HO, HcYs⟩
  iapply (hB _); iframe # ∗
  isplitl [Hout]
  · unfold outSt; iexists g1; iframe
    ipureintro; exact agree_start c g1 _
  iintro ⟨Hx, Hout, HO, HaYr1, ⟨HRight, HcXs⟩, HBlast⟩
  iapply (hC _); iframe # ∗
  iintro ⟨Hx, Hout, HO, HaXr1, HXblk⟩
  iapply (hD _); iframe # ∗
  iintro ⟨HO, HaYs1, HysP⟩
  rw [← Prog.bind_pure (seqN 30 (iterE c))]
  iapply (hE _); iframe # ∗
  iintro ⟨HO, HaXs1, HxsP⟩
  ihave Hbw := (rejoin_b (F := F) c) $$ HysP
  ihave Hrw := (give_back_r m ρ c) $$ [HxsP HRight HBlast HXblk]
  · iframe
  imod hZ $$ [HaYs1 HaYr1 HaXs1 HaXr1] with ⟨⟨HzYs, HzYr⟩, HzXs, HzXr⟩
  · iframe # ∗
  ihave Houtf := (out_done m ρ c) $$ Hout
  rw [Prog.pure_eq_ret, wp_ret]; imodintro
  iapply Hk; iframe
  icases HO with ⟨%W', HO⟩
  isplitl [HO]
  · iexists W'; iframe
    ipureintro; exact fun _ _ => Or.inl trivial
  isplitl [Hx] <;> iexists _ <;> iframe <;> (ipureintro; rfl)

end Cert.KernelIdeal.AR

end
-- ==== Proof.Bridge.lean ====
import proofs.«900712_g7700000000000713_dist_ar_v7x_xyz2x2x4_y_m2048_n512_bf16_1_alg».proof.Proof.GenProg
import Idealize.ShloMosaic.Lib.Pipeline.Regions

noncomputable section

namespace Cert.KernelIdeal.AR

open Cert.KernelIdeal Cert.KernelIdeal.Gen Cert.AR

open Idealize.ShloMosaic
open Idealize.ShloMosaic.TcCoe

variable {F : FTy → Type} [FloatOps F]

local notation "𝕄" => MT nD τ sig Unit (Elt F) ℕ UU ℕ

variable (m : (ℓ : Loc nD τ sig) → Buf (Elt F) ℓ) (ρ : Dev nD → PrngReg)

theorem body_eq : cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    cc0_scratch2 cc0_scratch3 cc0_scratch4 cc0_scratch5 = bodyGen := by
  chain_rfl

/-- info: 'Cert.KernelIdeal.AR.body_eq' depends on axioms: [propext, Classical.choice, Quot.sound] -/
#guard_msgs in #print axioms body_eq

end Cert.KernelIdeal.AR

end
-- ==== Proof.Body.lean ====
import proofs.«900712_g7700000000000713_dist_ar_v7x_xyz2x2x4_y_m2048_n512_bf16_1_alg».proof.Proof.BodyGen
import proofs.«900712_g7700000000000713_dist_ar_v7x_xyz2x2x4_y_m2048_n512_bf16_1_alg».proof.Proof.Bridge

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem sound_body (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  rw [body_eq]
  exact sound_gen m ρ K c Kt

end Cert.KernelIdeal.AR

end
-- ==== Proof.Launch.lean ====
import proofs.«900712_g7700000000000713_dist_ar_v7x_xyz2x2x4_y_m2048_n512_bf16_1_alg».proof.Proof.Body
import proofs.«900712_g7700000000000713_dist_ar_v7x_xyz2x2x4_y_m2048_n512_bf16_1_alg».proof.Proof.Gen.KernelIdeal.Points

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

set_option maxRecDepth 100000 in
theorem body_obligation (c : Dev nD) : BodyObligation (dats (F := F) m ρ 0 c) (defs₀ (F := F)) 𝒱₀ () Set.univ := fun t => by
  rw [fin_N t, bigSep_W0, bigSep_W0]
  simp only [owns_whole_eq]
  show iprop(Φ₀ m ρ c ∗ _ ∗ (∃ d, stg c cc0_stg0_0 _) ∗ ∃ d, stg c cc0_stg1_0 _) ⊢ wp _ _ _ _ fun _ => bodyPost m ρ c
  unfold Φ₀ start
  iintro ⟨⟨⟨⟨%K, Hg⟩, Hcr, Hlev⟩, Hb, Hr⟩, Ho, Hx, Hout⟩
  iapply (sound_body m ρ K c fun _ => bodyPost m ρ c)
  unfold bodyPre
  iframe
  iintro H; iexact H

abbrev OI : Type := (Fin 34 × Bool) ⊕ (Fin 30 × Bool)
abbrev CI : Type := Unit ⊕ OI

def csem : CI → SemLoc sig
  | .inl _ => .reg barS
  | .inr (.inl (k, false)) => .dma (ysS k)
  | .inr (.inl (k, true)) => .dma (yrS k)
  | .inr (.inr (k, false)) => .dma (xsS k)
  | .inr (.inr (k, true)) => .dma (xrS k)
abbrev osem (i : OI) : SemLoc sig := csem (.inr i)
abbrev kcell (ck : Dev nD × CI) : GSem nD τ sig := ((ck.1 : Thread nD τ), csem ck.2)

/-- The index of a kind: a left inverse of `kind ∘ csem`, so `csem` is injective. -/
def ofKind : CK → CI
  | .ys k => .inr (.inl (k, false))
  | .yr k => .inr (.inl (k, true))
  | .xs k => .inr (.inr (k, false))
  | .xr k => .inr (.inr (k, true))
  | _ => .inl ()
theorem ofKind_csem (i : CI) : ofKind (kind (csem i)) = i := by
  rcases i with _ | ⟨k, _ | _⟩ | ⟨k, _ | _⟩
  exacts [rfl, congrArg ofKind (kind_ys k), congrArg ofKind (kind_yr k), congrArg ofKind (kind_xs k), congrArg ofKind (kind_xr k)]
theorem csem_injective : Function.Injective csem := Function.LeftInverse.injective (g := fun s => ofKind (kind s)) ofKind_csem

theorem stage_kind : ∀ (w : Fin cfg0.W) (s : Fin (cfg0.win w).nbuf), kind (.dma ((cfg0.win w).sem s)) = .other := by decide

theorem ownSemFacts : Pipeline.OwnSemFacts cfg0.spec osem where
  isScoped i := by
    have h : ∀ s : DmaSem sig, (SemLoc.dma s : SemLoc sig).isScoped .tc = true := by decide
    rcases i with ⟨k, _ | _⟩ | ⟨k, _ | _⟩ <;> exact h _
  inj i j h := Sum.inr_injective (csem_injective h)
  disj i w s h := by
    have e : ofKind (kind (osem i)) = .inr i := ofKind_csem (.inr i)
    rw [h, stage_kind] at e; cases e

theorem kcell_injective : Function.Injective (kcell : Dev nD × CI → GSem nD τ sig) := by
  rintro ⟨c, i⟩ ⟨c', i'⟩ h
  obtain rfl : c = c' := congrArg (fun g : GSem nD τ sig => g.1.1) h
  exact congrArg (Prod.mk c) (csem_injective (congrArg Prod.snd h))
def arCells : Finset (GSem nD τ sig) := Finset.univ.map ⟨kcell, kcell_injective⟩

abbrev tokOf (cj : Dev nD × (CI ⊕ Unit)) : GSem nD τ sig × ℕ × Bool := match cj.2 with
  | .inl i => (kcell (cj.1, i), 0, false)
  | .inr _ => (barCell cj.1, 0, true)
theorem tokOf_injective : Function.Injective (tokOf : Dev nD × (CI ⊕ Unit) → GSem nD τ sig × ℕ × Bool) := by
  rintro ⟨c, i | _⟩ ⟨c', i' | _⟩ h
  · cases kcell_injective (a₁ := (c, i)) (a₂ := (c', i')) (congrArg Prod.fst h); rfl
  · cases congrArg (fun x : GSem nD τ sig × ℕ × Bool => x.2.2) h
  · cases congrArg (fun x : GSem nD τ sig × ℕ × Bool => x.2.2) h
  · obtain rfl : c = c' := congrArg (fun x : GSem nD τ sig × ℕ × Bool => x.1.1.1) h
    rfl
def arToks : Finset (GSem nD τ sig × ℕ × Bool) := Finset.univ.map ⟨tokOf, tokOf_injective⟩

def u₀ : UU :=
  (initOf (Pipeline.cells cfgs cellOf_inj) (Pipeline.launchToks cfgs cellOf_inj), initOf arCells arToks)

theorem bigSep_bool' {M : Type} [URA M] (Φ : Bool → sProp M) : bigSep Finset.univ Φ = iprop(Φ false ∗ Φ true) := by
  rw [bigSep_univ_eq_bigSepL [false, true] (by decide) (by decide), bigSepL_cons_cons, bigSepL_singleton]
  rfl

theorem bigSep_OI {M : Type} [URA M] (Φ : OI → sProp M) :
    bigSep Finset.univ Φ
      = iprop((bigSep (Finset.univ : Finset (Fin 34)) fun k => iprop(Φ (.inl (k, false)) ∗ Φ (.inl (k, true))))
          ∗ (bigSep (Finset.univ : Finset (Fin 30)) fun k => iprop(Φ (.inr (k, false)) ∗ Φ (.inr (k, true))))) := by
  rw [bigSep_univ_sum, bigSep_univ_prod, bigSep_univ_prod]; simp only [bigSep_bool']; rfl

theorem bigSep_CI {M : Type} [URA M] (Φ : CI → sProp M) : bigSep Finset.univ Φ = iprop(Φ (.inl ()) ∗ bigSep Finset.univ fun i : OI => Φ (.inr i)) := by
  rw [bigSep_univ_sum, bigSep_univ_of_subsingleton ()]; rfl

instance arRd_payload_storable (g : GSem nD τ sig) (r : ℕ) (d : Bool) :
    BI.Storable (upEmb : UEmb _ 𝕄) ((arRd (F := F) m ρ).payload g r d) := by
  dsimp only [arRd]
  unfold barPayX barPayY ysPay yrPay xsPay xrPay
  (repeat' split) <;> infer_instance

def toks (c : Dev nD) : sProp 𝕄 :=
  iprop((dutyTok ER (barCell c) 0 false
      ∗ (bigSep (Finset.univ : Finset (Fin 34)) fun k => iprop(dutyTok ER (ysCell c k) 0 false ∗ dutyTok ER (yrCell c k) 0 false))
      ∗ (bigSep (Finset.univ : Finset (Fin 30)) fun k => iprop(dutyTok ER (xsCell c k) 0 false ∗ dutyTok ER (xrCell c k) 0 false)))
    ∗ dutyTok ER (barCell c) 0 true)

/-- What passes through the allocation of the invariants unchanged: positions, round-0 marks, tokens. -/
def R (c : Dev nD) : sProp 𝕄 :=
  iprop((bigSep Finset.univ fun i : CI => iprop(atPos ER (kcell (c, i)) 0 ∅ 0 ∗ reached ER (kcell (c, i)) 0)) ∗ toks c)

def G (c : Dev nD) : sProp 𝕄 := iprop((bigSep Finset.univ fun i : CI => roundState ER (arRd m ρ) (kcell (c, i)) 0) ∗ R c)

def G₁ (c : Dev nD) : sProp 𝕄 := iprop((bigSep Finset.univ fun i : CI => iprop(∃ κ : ℕ, cellInv ER (arRd m ρ) κ (kcell (c, i)))) ∗ R c)

def G' (c : Dev nD) : sProp 𝕄 := iprop(∃ K, ghost m ρ K c)

theorem bigSep_arCells (Φ : GSem nD τ sig → sProp 𝕄) :
    bigSep arCells Φ = bigSep Finset.univ fun c : Dev nD => bigSep Finset.univ fun i : CI => Φ (kcell (c, i)) := by
  unfold arCells; rw [bigSep_map, bigSep_univ_prod]; rfl

theorem bigSep_arToks : bigSep arToks (fun x => (dutyTok ER x.1 x.2.1 x.2.2 : sProp 𝕄)) = bigSep Finset.univ fun c : Dev nD => toks c := by
  unfold arToks; rw [bigSep_map, bigSep_univ_prod]
  exact bigSep_congr fun c _ => by unfold toks; rw [bigSep_univ_sum, bigSep_CI, bigSep_OI, bigSep_univ_of_subsingleton ()]; rfl

theorem fund_ar : BI.own (ER (initOf arCells arToks)) ⊢ (|==> bigSep Finset.univ (G m ρ) : sProp 𝕄) := by
  iintro HX
  imod (Rounds.fund ER (arRd m ρ) arCells arToks) $$ HX with ⟨Hst, Hr, Hat, Htok⟩
  imodintro
  unfold G R; simp only [bigSep_sep']
  rw [← bigSep_arCells fun g => roundState ER (arRd m ρ) g 0, ← bigSep_arCells fun g => atPos ER g 0 ∅ 0,
    ← bigSep_arCells fun g => reached ER g 0, ← bigSep_arToks (F := F)]
  iframe

abbrev own0 (c : Dev nD) : sProp 𝕄 := Pipeline.ownSems0 (Ix := Unit) (Name := ℕ) (U := UU) (Lvl := ℕ) (Val := Elt F) (τ := τ) osem c

theorem ownSems0_eq (c : Dev nD) : own0 (F := F) c
    = iprop((bigSep (Finset.univ : Finset (Fin 34)) fun k => iprop(semVal (ysCell c k) 0 ∗ semVal (yrCell c k) 0))
        ∗ (bigSep (Finset.univ : Finset (Fin 30)) fun k => iprop(semVal (xsCell c k) 0 ∗ semVal (xrCell c k) 0))) := by
  unfold own0 Pipeline.ownSems0; rw [bigSep_OI]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(own0 (F := F) c ∗ unscopedSems0 c)
      ⊢ (bigSep Finset.univ fun i : CI => semVal (kcell (c, i)) 0 : sProp 𝕄) := by
  rw [unscopedSems0_eq, bigSep_CI]
  unfold own0 Pipeline.ownSems0
  show _ ⊢ iprop(semVal (barCell c) 0 ∗ bigSep Finset.univ fun i : OI => semVal ((c : Thread nD τ), osem i) 0)
  iintro ⟨HS, HB⟩
  iframe

theorem core_alloc (c : Dev nD) : iprop(own0 (F := F) c ∗ unscopedSems0 c ∗ G m ρ c) ⊢ |={Set.univ}=> G₁ m ρ c := by
  unfold G G₁
  iintro ⟨Hos, Hus, Hst, HR⟩
  ihave Hv := (sems0_eq (F := F) c) $$ [Hos Hus]
  · iframe
  imod (show iprop((bigSep Finset.univ fun i : CI => semVal (kcell (c, i)) 0) ∗ bigSep Finset.univ fun i : CI => roundState ER (arRd m ρ) (kcell (c, i)) 0)
      ⊢ (|={Set.univ}=> bigSep Finset.univ fun i : CI => iprop(∃ κ : ℕ, cellInv ER (arRd m ρ) κ (kcell (c, i))) : sProp 𝕄) from by
        rw [← bigSep_sep']
        exact (bigSep_mono fun i _ => (Rounds.body_intro ER (arRd m ρ) (kcell (c, i))).trans inv_alloc).trans (bigSep_fupd _ _)) $$ [Hv Hst] with Hinv
  · iframe
  imodintro
  iframe

theorem records_eq (K : GSem nD τ sig → ℕ) :
    records m ρ K = bigSep Finset.univ fun c : Dev nD => bigSep Finset.univ fun i : CI =>
      iprop(cellInv ER (arRd m ρ) (K (kcell (c, i))) (kcell (c, i)) ∗ reached ER (kcell (c, i)) 0) := by
  unfold records
  exact bigSep_congr fun c _ => by rw [bigSep_CI, bigSep_OI]; rfl

theorem positions_eq (c : Dev nD) : (positions c : sProp 𝕄) = bigSep Finset.univ fun i : CI => atPos ER (kcell (c, i)) 0 ∅ 0 := by
  unfold positions; rw [bigSep_CI, bigSep_OI]; rfl

def ynE : Dev nD ≃ Dev nD := ⟨yn, yn, yn_yn, yn_yn⟩
def xnE : Dev nD ≃ Dev nD := ⟨xn, xn, xn_xn, xn_xn⟩

theorem toks_around : (bigSep Finset.univ fun c : Dev nD => (toks c : sProp 𝕄)) ⊢ bigSep Finset.univ fun c : Dev nD => payToks c := by
  unfold toks payToks
  simp only [bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => bigSep Finset.univ fun k : Fin 34 => (dutyTok ER (yrCell c k) 0 false : sProp 𝕄)),
    bigSep_univ_equiv xnE (fun c : Dev nD => bigSep Finset.univ fun k : Fin 30 => (dutyTok ER (xrCell c k) 0 false : sProp 𝕄))]
  simp only [ynE, xnE, Equiv.coe_fn_mk]
  iintro ⟨⟨H1, ⟨H3, H4⟩, H5, H6⟩, H2⟩
  iframe

theorem regroup : (bigSep Finset.univ fun c : Dev nD => G₁ m ρ c) ⊢ bigSep Finset.univ (G' m ρ) := by
  unfold G₁ R
  simp only [bigSep_sep']
  rw [← bigSep_arCells fun g => iprop(∃ κ : ℕ, cellInv ER (arRd m ρ) κ g)]
  iintro ⟨HI, ⟨Hat, #HR⟩, Htok⟩
  ihave HK := (BI.bigSep_exists_pi arCells (fun (g : GSem nD τ sig) (κ : ℕ) => (cellInv ER (arRd m ρ) κ g : sProp 𝕄))) $$ HI
  icases HK with ⟨%K, #HI⟩
  ihave Htk := (toks_around (F := F)) $$ Htok
  iapply (BI.bigSep_with_persistent (R := records m ρ K) (Φ := fun c => iprop(positions c ∗ payToks c)) fun c _ => by
    unfold G' ghost
    iintro ⟨HR, HP⟩
    iexists K
    iframe)
  rw [records_eq]
  simp only [bigSep_sep']
  rw [← bigSep_arCells (fun g => cellInv ER (arRd m ρ) (K g) g), bigSep_congr (s := Finset.univ) fun (c : Dev nD) _ => positions_eq (F := F) c]
  iframe HI HR Hat Htk

theorem glob : (bigSep Finset.univ fun c => iprop(own0 (F := F) c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem O₀_eq : (O₀ : Dev nD → CellTallies nD τ sig Unit)
    = fun d => ((oweX d 0 + oweY d 0) + tallyAt (barCell (xn d)) () 1) + tallyAt (barCell (yn d)) () 1 := rfl

/-- Credit owed across an involution `f` of the devices comes back to each device's own cells. -/
theorem cred_owe {n : ℕ} (s : Fin n → DmaSem sig) (f : Dev nD → Dev nD) (hf : ∀ d, f (f d) = d) (c : Dev nD) :
    (Pipeline.launchCred (fun d : Dev nD => ∑ k ∈ Finset.univ.filter (fun k : Fin n => 0 ≤ k.val), tallyAt ((f d : Thread nD τ), .dma (s k)) () N) c : sProp 𝕄)
      ⊢ bigSep Finset.univ fun k => cred (tallyAt ((c : Thread nD τ), .dma (s k)) () N) := by
  rw [Pipeline.launchCred_sum, Finset.filter_true_of_mem fun k _ => Nat.zero_le _]
  exact bigSep_mono fun k _ => Pipeline.launchCred_tallyAt (.dma (s k)) f f hf hf () N c

theorem creds_intro (c : Dev nD) : (Pipeline.launchCred O₀ c : sProp 𝕄) ⊢ creds c := by
  rw [O₀_eq, Pipeline.launchCred_add, Pipeline.launchCred_add, Pipeline.launchCred_add]
  unfold creds
  iintro ⟨⟨⟨HX, HY⟩, HbX⟩, HbY⟩
  ihave HbX' := (Pipeline.launchCred_tallyAt (SemLoc.reg barS) xn xn xn_xn xn_xn () 1 c) $$ HbX
  ihave HbY' := (Pipeline.launchCred_tallyAt (SemLoc.reg barS) yn yn yn_yn yn_yn () 1 c) $$ HbY
  isplitl [HbX' HbY']
  · rw [← tallyAt_add (barCell c) () 1 1]
    iapply (cred_add _ _).2
    iframe
  isplitl [HY]
  · iapply (cred_owe (F := F) yrS yn yn_yn c); iexact HY
  · iapply (cred_owe (F := F) xrS xn xn_xn c); iexact HX

theorem waits (c : Dev nD) : (levAts L lv : sProp 𝕄) ⊢ Pipeline.cellsWaits cfgs (dats m ρ) () 0 c :=
  Pipeline.cellsWaits_intro cfgs (dats m ρ) () 0 c fun w s t =>
    mayWait_stage c _ (Or.inl (stage_kind w s)) _ (by
      rcases t with ⟨_ | _, ht⟩
      · exact Or.inl rfl
      · exact Or.inr rfl)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  iframe

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hb, Hr⟩
  iframe

theorem phi1_exit (c : Dev nD) :
    (dats m ρ 0 c).Φ (Fin.last cfg0.N) ⊢ iprop(emp ∗ own0 (F := F) c ∗ Pipeline.scopedRest cfg0.spec c) := by
  rw [show (dats m ρ 0 c).Φ (Fin.last cfg0.N) = Φ₁ (F := F) c from rfl, scopedRest0_eq, ownSems0_eq]
  unfold Φ₁
  iintro ⟨Hb, Hr, HY, HX⟩
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ar m ρ) $$ HX with HG
      imodintro
      iframe)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      iframe)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = (outAt m ρ c : Buf (Elt F) ((c : Thread nD τ).loc main_v1)) := by
  unfold finalA
  show (dats m ρ 0 c).arrAt (1 : Fin 2) (t₀.val + 1) = _
  rw [Dat.arrAt_succ, flush0_1 t₀, if_pos rfl]
  exact Memref.write_access_unit_zero_univ (Elt F) main_v1 (funext fun a => Nat.zero_mul _) _ _ _

end Launch

end Cert.KernelIdeal.AR

end
-- ==== Proof.RefValue.lean ====
import proofs.«900712_g7700000000000713_dist_ar_v7x_xyz2x2x4_y_m2048_n512_bf16_1_alg».proof.Defs
import proofs.«900712_g7700000000000713_dist_ar_v7x_xyz2x2x4_y_m2048_n512_bf16_1_alg».proof.Proof.Gen.ReferenceIdeal.Run
import proofs.«900712_g7700000000000713_dist_ar_v7x_xyz2x2x4_y_m2048_n512_bf16_1_alg».proof.Proof.Gen.ReferenceIdeal.Read
import proofs.«900712_g7700000000000713_dist_ar_v7x_xyz2x2x4_y_m2048_n512_bf16_1_alg».proof.Proof.Spec
import proofs.«900712_g7700000000000713_dist_ar_v7x_xyz2x2x4_y_m2048_n512_bf16_1_alg».proof.Proof.Idx
import Idealize.ShloMosaic.Lib.Layout
import Idealize.ShloMosaic.Lib.ValueIdx
import Idealize.ShloMosaic.PureOps.Ideal.Laws

noncomputable section

namespace Cert.AR.RefValue

open Idealize.ShloMosaic Idealize.ShloMosaic.TcCoe Idealize.SL.Sem Idealize.ShloMosaic.ValueIdx

def refOut (A : (⟨S4096x512, .f32⟩ : BufTy).Contents (Elt Ideal)) : (⟨S2048x512, .f32⟩ : BufTy).Contents (Elt Ideal) :=
  Cert.ReferenceIdeal.Read.val_main_v1 (F := Ideal) A

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => ⟨(h 0).1, (h 0).2⟩)
    (Cert.ReferenceIdeal.Value.run (F := Ideal) m' ρ')

def rowBlk (A : (⟨S4096x512, .f32⟩ : BufTy).Contents (Elt Ideal)) (k : Fin 2) (i : S2048x512.Idx) : EReal :=
  A (ix2 ⟨k.val * 2048 + (i 0).val, by
    have h0 : (i 0).val < 2048 := (i 0).isLt
    have hk := k.isLt
    omega⟩ (i 1))

theorem refOut_rowBlk (A : (⟨S4096x512, .f32⟩ : BufTy).Contents (Elt Ideal)) (i : S2048x512.Idx) :
    refOut A i = rowBlk A 0 i + rowBlk A 1 i := by
  unfold refOut
  rw [Cert.ReferenceIdeal.Read.val_main_v1_apply, Cert.ReferenceIdeal.Read.val_main_cst_apply, Fin.sum_univ_two,
    Cert.ReferenceIdeal.Read.val_main_v0_apply, Cert.ReferenceIdeal.Read.val_main_v0_apply,
    Ideal.ofBits_def, Ideal.ofBits_zero_f32, zero_add]
  have h0 : (i 0).val < 2048 := (i 0).isLt
  have h1 : (i 1).val < 512 := (i 1).isLt
  unfold rowBlk
  congr 1
  · refine congrArg A (Shape.idx_ext₂ ?_ ?_)
    · show ((0 * 2048 + (i 0).val) * 512 + (i 1).val) / 512 = 0 * 2048 + (i 0).val
      omega
    · show ((0 * 2048 + (i 0).val) * 512 + (i 1).val) % 512 = (i 1).val
      omega
  · refine congrArg A (Shape.idx_ext₂ ?_ ?_)
    · show ((1 * 2048 + (i 0).val) * 512 + (i 1).val) / 512 = 1 * 2048 + (i 0).val
      omega
    · show ((1 * 2048 + (i 0).val) * 512 + (i 1).val) % 512 = (i 1).val
      omega

theorem blockN_rowBlk (A : (⟨S4096x512, .f32⟩ : BufTy).Contents (Elt Ideal)) (c : Dev 16) (k : Fin 2)
    (hk : c.val / 4 % 2 = k.val) (i : S2048x512.Idx) :
    (Layout.blockN ⟨2, ![2048, 512]⟩ ⟨2, ![4096, 512]⟩ (Layout.meshBlock [2, 2, 4] ![[1], []] c) A) i = rowBlk A k i := by
  rw [Layout.blockN_apply]
  unfold rowBlk
  refine congrArg A (Shape.idx_ext₂ ?_ ?_)
  · rw [Layout.TilesN.idx_val, Layout.meshBlock_val]
    show Layout.meshLin [2, 2, 4] c.val [1] * 2048 + (i 0).val = k.val * 2048 + (i 0).val
    have hlin : Layout.meshLin [2, 2, 4] c.val [1] = c.val / 4 % 2 := by
      simp [Layout.meshLin, Layout.meshCoord, Layout.cutSize]
    rw [hlin, hk]
  · rw [Layout.TilesN.idx_val, Layout.meshBlock_val]
    show Layout.meshLin [2, 2, 4] c.val [] * 512 + (i 1).val = (i 1).val
    simp [Layout.meshLin]

theorem join (A : (⟨S4096x512, .f32⟩ : BufTy).Contents (Elt Ideal)) (c : Dev 16) :
    Cert.AR.outSpec (Layout.blockN ⟨2, ![2048, 512]⟩ ⟨2, ![4096, 512]⟩ (Layout.meshBlock [2, 2, 4] ![[1], []] c) A)
        (Layout.blockN ⟨2, ![2048, 512]⟩ ⟨2, ![4096, 512]⟩ (Layout.meshBlock [2, 2, 4] ![[1], []] (Cert.AR.yn c)) A)
      = refOut A := by
  rw [outSpec_ideal]
  funext i
  rw [refOut_rowBlk]
  have hy := yn_ycoord c
  rcases Nat.mod_two_eq_zero_or_one (c.val / 4) with h | h
  · have e0 := blockN_rowBlk A c 0 h i
    have e1 := blockN_rowBlk A (yn c) 1 (by rw [hy, h]; rfl) i
    show (show EReal from _) + (show EReal from _) = _
    rw [e0, e1]
  · have e0 := blockN_rowBlk A c 1 h i
    have e1 := blockN_rowBlk A (yn c) 0 (by rw [hy, h]; rfl) i
    show (show EReal from _) + (show EReal from _) = _
    rw [e0, e1]
    exact add_comm (G := EReal) _ _

end Cert.AR.RefValue

end
-- ==== Proof.ClaimsIdeal.lean ====
import proofs.«900712_g7700000000000713_dist_ar_v7x_xyz2x2x4_y_m2048_n512_bf16_1_alg».proof.Proof.Launch
import proofs.«900712_g7700000000000713_dist_ar_v7x_xyz2x2x4_y_m2048_n512_bf16_1_alg».proof.Proof.RefValue
import proofs.«900712_g7700000000000713_dist_ar_v7x_xyz2x2x4_y_m2048_n512_bf16_1_alg».proof.Proof.Gen.ReferenceIdeal
import proofs.«900712_g7700000000000713_dist_ar_v7x_xyz2x2x4_y_m2048_n512_bf16_1_alg».proof.Proof.Gen.Pre_finite_inputs_Kernel
import proofs.«900712_g7700000000000713_dist_ar_v7x_xyz2x2x4_y_m2048_n512_bf16_1_alg».proof.Proof.Gen.Pre_finite_inputs_ReferenceIdeal

noncomputable section

namespace Cert.KernelIdeal.AR

open Cert.KernelIdeal Cert.KernelIdeal.Gen Cert.AR

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

namespace Claims

theorem xstg_eq {F : FTy → Type} [FloatOps F] (m : (ℓ : Loc nD τ sig) → Buf (Elt F) ℓ) (ρ : Dev nD → PrngReg) (c : Dev nD) :
    xstg m ρ c = m ((c : Thread nD τ).loc main_arg0) :=
  Memref.read_access_unit_zero (Elt F) main_arg0 (funext fun a => Nat.zero_mul _) _ _

theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c (0 : Fin 2)).trans (Launch.finalA_x m ρ c)) (Launch.run_main (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2) (Cert.ReferenceIdeal.Value.run (F := Ideal) m ρ)

theorem blockN_congr (A : (⟨Cert.AR.S4096x512, .f32⟩ : BufTy).Contents (Elt Ideal)) (c d : Dev 16) (h : c.val / 4 % 2 = d.val / 4 % 2) :
    Layout.blockN ⟨2, ![2048, 512]⟩ ⟨2, ![4096, 512]⟩ (Layout.meshBlock [2, 2, 4] ![[1], []] c) A
      = Layout.blockN ⟨2, ![2048, 512]⟩ ⟨2, ![4096, 512]⟩ (Layout.meshBlock [2, 2, 4] ![[1], []] d) A := by
  funext i
  have hk : c.val / 4 % 2 < 2 := Nat.mod_lt _ (by decide)
  rw [Cert.AR.RefValue.blockN_rowBlk A c ⟨c.val / 4 % 2, hk⟩ rfl i, Cert.AR.RefValue.blockN_rowBlk A d ⟨c.val / 4 % 2, hk⟩ h.symm i]

theorem outG_ref (m : (ℓ : Loc nD τ sig) → Buf (Elt Ideal) ℓ) (ρ : Dev nD → PrngReg)
    (A : (⟨Cert.AR.S4096x512, .f32⟩ : BufTy).Contents (Elt Ideal))
    (hagree : ∀ c : Dev nD, m ((c : Thread nD τ).loc main_arg0)
      = Layout.blockN ⟨2, ![2048, 512]⟩ ⟨2, ![4096, 512]⟩ (Layout.meshBlock [2, 2, 4] ![[1], []] c) A) (c : Dev nD) :
    outG m ρ c = Cert.AR.RefValue.refOut A := by
  have hx : ∀ d : Dev nD, xstg m ρ d = Layout.blockN ⟨2, ![2048, 512]⟩ ⟨2, ![4096, 512]⟩ (Layout.meshBlock [2, 2, 4] ![[1], []] d) A :=
    fun d => (xstg_eq m ρ d).trans (hagree d)
  rw [outG_of_same m ρ c (by
    rw [hx, hx]
    exact blockN_congr A _ _ (by rw [yn_ycoord, yn_ycoord, xn_ycoord])), hx, hx]
  exact Cert.AR.RefValue.join A c

theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m ρ m' ρ' _ hagree =>
    ⟨Cert.AR.RefValue.refOut (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono (fun _ h c =>
          ⟨((h c (1 : Fin 2)).trans (Launch.finalA_out m ρ c)).trans (outG_ref m ρ _ hagree c), (h c (0 : Fin 2)).trans (Launch.finalA_x m ρ c)⟩)
        (Launch.run_main (F := Ideal) m ρ),
      Cert.AR.RefValue.ref_run m' ρ'⟩

end Claims

end Cert.KernelIdeal.AR

end
-- ==== Proof.lean ====
/- Each device ends with its own block of rows of x plus its y neighbour's block, whichever link the rows travelled by; the reference adds
   the array's two row blocks; over the extended reals the two sums are equal by commutativity of addition. -/
import proofs.«900712_g7700000000000713_dist_ar_v7x_xyz2x2x4_y_m2048_n512_bf16_1_alg».proof.Defs
import proofs.«900712_g7700000000000713_dist_ar_v7x_xyz2x2x4_y_m2048_n512_bf16_1_alg».proof.Proof.Gen.Kernel
import proofs.«900712_g7700000000000713_dist_ar_v7x_xyz2x2x4_y_m2048_n512_bf16_1_alg».proof.Proof.Gen.Kernel.Skeleton
import proofs.«900712_g7700000000000713_dist_ar_v7x_xyz2x2x4_y_m2048_n512_bf16_1_alg».proof.Proof.Gen.Kernel.Launch
import proofs.«900712_g7700000000000713_dist_ar_v7x_xyz2x2x4_y_m2048_n512_bf16_1_alg».proof.Proof.Gen.Kernel.Points
import proofs.«900712_g7700000000000713_dist_ar_v7x_xyz2x2x4_y_m2048_n512_bf16_1_alg».proof.Proof.Gen.Kernel.Frame
import proofs.«900712_g7700000000000713_dist_ar_v7x_xyz2x2x4_y_m2048_n512_bf16_1_alg».proof.Proof.Gen.KernelIdeal
import proofs.«900712_g7700000000000713_dist_ar_v7x_xyz2x2x4_y_m2048_n512_bf16_1_alg».proof.Proof.Gen.KernelIdeal.Skeleton
import proofs.«900712_g7700000000000713_dist_ar_v7x_xyz2x2x4_y_m2048_n512_bf16_1_alg».proof.Proof.Gen.KernelIdeal.Launch
import proofs.«900712_g7700000000000713_dist_ar_v7x_xyz2x2x4_y_m2048_n512_bf16_1_alg».proof.Proof.Gen.KernelIdeal.Points
import proofs.«900712_g7700000000000713_dist_ar_v7x_xyz2x2x4_y_m2048_n512_bf16_1_alg».proof.Proof.Gen.KernelIdeal.Frame
import proofs.«900712_g7700000000000713_dist_ar_v7x_xyz2x2x4_y_m2048_n512_bf16_1_alg».proof.Proof.Gen.ReferenceIdeal
import proofs.«900712_g7700000000000713_dist_ar_v7x_xyz2x2x4_y_m2048_n512_bf16_1_alg».proof.Proof.Gen.Pre_finite_inputs_Kernel
import proofs.«900712_g7700000000000713_dist_ar_v7x_xyz2x2x4_y_m2048_n512_bf16_1_alg».proof.Proof.Gen.Pre_finite_inputs_ReferenceIdeal
import proofs.«900712_g7700000000000713_dist_ar_v7x_xyz2x2x4_y_m2048_n512_bf16_1_alg».proof.Proof.ClaimsBits
import proofs.«900712_g7700000000000713_dist_ar_v7x_xyz2x2x4_y_m2048_n512_bf16_1_alg».proof.Proof.ClaimsIdeal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Kernel.AR.Claims.frame_k, Cert.KernelIdeal.AR.Claims.frame_ki, Cert.KernelIdeal.AR.Claims.frame_ri, trivial, Cert.KernelIdeal.AR.Claims.algebraic⟩

end Cert.Proof

end
